-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x64 : Shape := ⟨2, ![600000, 64]⟩
abbrev S50000 : Shape := ⟨1, ![50000]⟩
abbrev S4x64x128 : Shape := ⟨3, ![4, 64, 128]⟩
abbrev S4x128 : Shape := ⟨2, ![4, 128]⟩
abbrev S4x128x128 : Shape := ⟨3, ![4, 128, 128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x64 : S_.BroadcastsInDim S600000x64 (![] : Fin 0 → Fin S600000x64.rank)
  reducesTo_S600000x64_S_d0_1 : S600000x64.ReducesTo [0, 1] S_
  bcast_S_S4x64x128 : S_.BroadcastsInDim S4x64x128 (![] : Fin 0 → Fin S4x64x128.rank)
  reducesTo_S4x64x128_S_d0_1_2 : S4x64x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x600000 32) (main_arg13 : FVec F S4x128 .f32) (main_v48 : IVec S_ 1) (main_v49 : FVec F S4x128x128 .f32) (main_v50 : FVec F S4x128x128 .f32) : IVec S_ 1 :=
  let main_v51 : IVec S4x128x128 1 := cmpf .olt main_v49 main_v50
  let main_c_19 : IVec S_ 1 := constantI S_ 1 1#1
  let main_v52 : IVec S_ 1 := (fun x v => Host.reduce IntOp.andi x v reducesTo_S4x128x128_S_d0_1_2 h_S_) main_v51 main_c_19
  let main_v53 : IVec S_ 1 := andi main_v48 main_v52
  let main_v54 : FVec F S4x128 .f32 := Host.absf main_arg13
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : IVec S1x600000 32 := (extractStridedSlice S1x600000 ![0, 0] · slices_S2x600000_S1x600000_0_0) main_arg1
  let main_v60 : IVec S600000 32 := shapeCast S600000 main_v59 shapeCasts_S1x600000_S600000
  let main_c_22 : IVec S_ 32 := constantI S_ 32 4294917296#32
  let main_v61 : IVec S600000 32 := broadcastInDim S600000 ![] bcast_S_S600000 main_c_22
  let main_v62 : IVec S600000 1 := cmpi .sge main_v60 main_v61
  let main_v63 : IVec S1x600000 32 := (extractStridedSlice S1x600000 ![0, 0] · slices_S2x600000_S1x600000_0_0) main_arg1
  let main_v64 : IVec S600000 32 := shapeCast S600000 main_v63 shapeCasts_S1x600000_S600000
  let main_c_23 : IVec S_ 32 := constantI S_ 32 50000#32
  let main_v65 : IVec S600000 32 := broadcastInDim S600000 ![] bcast_S_S600000 main_c_23
  let main_v66 : IVec S600000 1 := cmpi .slt main_v64 main_v65
  let main_v67 : IVec S600000 1 := andi main_v62 main_v66
  let main_c_24 : IVec S_ 1 := constantI S_ 1 1#1
  let main_v68 : IVec S_ 1 := (fun x v => Host.reduce IntOp.andi x v reducesTo_S600000_S_d0 h_S_) main_v67 main_c_24
  fn_part4 (F := F) main_v58 main_v68

def fn_part2 {F : FTy → Type} [FloatOps F] (main_arg1 : IVec S2x600000 32) (main_arg9 : FVec F S4x128 .f32) (main_arg10 : FVec F S4x128 .f32) (main_arg11 : FVec F S4x128 .f32) (main_arg12 : FVec F S4x128x128 .f32) (main_arg13 : FVec F S4x128 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128 .f32 := Host.absf main_arg11
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128x128 .f32 := Host.absf main_arg12
  let main_cst_18 : FVec F S_ .f32 := constant S_ .f32 0x7F800000#32
  let main_v50 : FVec F S4x128x128 .f32 := broadcastInDim S4x128x128 ![] bcast_S_S4x128x128 main_cst_18
  fn_part3 (F := F) main_arg1 main_arg13 main_v48 main_v49 main_v50

def fn_part1 {F : FTy → Type} [FloatOps F] (main_arg1 : IVec S2x600000 32) (main_arg6 : FVec F S4x128x128 .f32) (main_arg7 : FVec F S4x128 .f32) (main_arg8 : FVec F S4x128 .f32) (main_arg9 : FVec F S4x128 .f32) (main_arg10 : FVec F S4x128 .f32) (main_arg11 : FVec F S4x128 .f32) (main_arg12 : FVec F S4x128x128 .f32) (main_arg13 : FVec F S4x128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128x128 .f32 := Host.absf main_arg6
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg1 main_arg9 main_arg10 main_arg11 main_arg12 main_arg13 main_v33

def fn {F : FTy → Type} [FloatOps F] (main_arg0 : FVec F S50000x128 .f32) (main_arg1 : IVec S2x600000 32) (main_arg2 : FVec F S600000x64 .f32) (main_arg3 : IVec S50000 32) (main_arg4 : FVec F S4x64x128 .f32) (main_arg5 : FVec F S4x128 .f32) (main_arg6 : FVec F S4x128x128 .f32) (main_arg7 : FVec F S4x128 .f32) (main_arg8 : FVec F S4x128 .f32) (main_arg9 : FVec F S4x128 .f32) (main_arg10 : FVec F S4x128 .f32) (main_arg11 : FVec F S4x128 .f32) (main_arg12 : FVec F S4x128x128 .f32) (main_arg13 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x64 .f32 := Host.absf main_arg2
  let main_cst_0 : FVec F S_ .f32 := constant S_ .f32 0x7F800000#32
  let main_v5 : FVec F S600000x64 .f32 := broadcastInDim S600000x64 ![] bcast_S_S600000x64 main_cst_0
  let main_v6 : IVec S600000x64 1 := cmpf .olt main_v4 main_v5
  let main_c_1 : IVec S_ 1 := constantI S_ 1 1#1
  let main_v7 : IVec S_ 1 := (fun x v => Host.reduce IntOp.andi x v reducesTo_S600000x64_S_d0_1 h_S_) main_v6 main_c_1
  let main_v8 : IVec S_ 1 := andi main_v3 main_v7
  let main_v9 : FVec F S4x64x128 .f32 := Host.absf main_arg4
  let main_cst_2 : FVec F S_ .f32 := constant S_ .f32 0x7F800000#32
  let main_v10 : FVec F S4x64x128 .f32 := broadcastInDim S4x64x128 ![] bcast_S_S4x64x128 main_cst_2
  let main_v11 : IVec S4x64x128 1 := cmpf .olt main_v9 main_v10
  let main_c_3 : IVec S_ 1 := constantI S_ 1 1#1
  let main_v12 : IVec S_ 1 := (fun x v => Host.reduce IntOp.andi x v reducesTo_S4x64x128_S_d0_1_2 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg1 main_arg6 main_arg7 main_arg8 main_arg9 main_arg10 main_arg11 main_arg12 main_arg13 main_v13 main_v16
-- ==== Kernel.lean ====
abbrev S50000x128 : Shape := ⟨2, ![50000, 128]⟩
abbrev S2x600000 : Shape := ⟨2, ![2, 600000]⟩
abbrev S600000x64 : Shape := ⟨2, ![600000, 64]⟩
abbrev S50000 : Shape := ⟨1, ![50000]⟩
abbrev S4x64x128 : Shape := ⟨3, ![4, 64, 128]⟩
abbrev S4x128 : Shape := ⟨2, ![4, 128]⟩
abbrev S4x128x128 : Shape := ⟨3, ![4, 128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S12000x128 : Shape := ⟨2, ![12000, 128]⟩
abbrev S12000x64 : Shape := ⟨2, ![12000, 64]⟩
abbrev S1x128x128 : Shape := ⟨3, ![1, 128, 128]⟩
abbrev S128x128 : Shape := ⟨2, ![128, 128]⟩
abbrev S10000x128 : Shape := ⟨2, ![10000, 128]⟩
abbrev S50000x1 : Shape := ⟨2, ![50000, 1]⟩
abbrev S128x1 : Shape := ⟨2, ![128, 1]⟩

abbrev nBuf : Space → Nat
  | .hbm => 258
  | .vmem => 88
  | .smem => 0
  | _ => 0

abbrev hbmTy0_0 (i : Nat) : BufTy := match i % 128 with
  | 0 => ⟨S50000x128, .f32⟩
  | 1 => ⟨S2x600000, .i32⟩
  | 2 => ⟨S600000x64, .f32⟩
  | 3 => ⟨S50000, .i32⟩
  | 4 => ⟨S4x64x128, .f32⟩
  | 5 => ⟨S4x128, .f32⟩
  | 6 => ⟨S4x128x128, .f32⟩
  | 7 => ⟨S4x128, .f32⟩
  | 8 => ⟨S4x128, .f32⟩
  | 9 => ⟨S4x128, .f32⟩
  | 10 => ⟨S4x128, .f32⟩
  | 11 => ⟨S4x128, .f32⟩
  | 12 => ⟨S4x128x128, .f32⟩
  | 13 => ⟨S4x128, .f32⟩
  | 14 => ⟨S1x600000, .i32⟩
  | 15 => ⟨S600000, .i32⟩
  | 16 => ⟨S1x600000, .i32⟩
  | 17 => ⟨S600000, .i32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S1, .i32⟩
  | 27 => ⟨S_, .i32⟩
  | 28 => ⟨S600000x1, .i32⟩
  | 29 => ⟨S600000x1, .i1⟩
  | 30 => ⟨S1x1, .i32⟩
  | 31 => ⟨S600000x1, .i32⟩
  | 32 => ⟨S600000x1, .i1⟩
  | 33 => ⟨S600000x1, .i1⟩
  | 34 => ⟨S_, .i1⟩
  | 35 => ⟨S600000, .i1⟩
  | 36 => ⟨S600000x128, .f32⟩
  | 37 => ⟨S600000x128, .i1⟩
  | 38 => ⟨S_, .f32⟩
  | 39 => ⟨S600000x128, .f32⟩
  | 40 => ⟨S600000x128, .f32⟩
  | 41 => ⟨S1x64x128, .f32⟩
  | 42 => ⟨S64x128, .f32⟩
  | 43 => ⟨S1x128, .f32⟩
  | 44 => ⟨S128, .f32⟩
  | 45 => ⟨S1x128, .f32⟩
  | 46 => ⟨S600000x128, .f32⟩
  | 47 => ⟨S_, .f32⟩
  | 48 => ⟨S50000x128, .f32⟩
  | 49 => ⟨S600000x1, .i32⟩
  | 50 => ⟨S50000x128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S128, .f32⟩
  | 63 => ⟨S1x128x128, .f32⟩
  | 64 => ⟨S128x128, .f32⟩
  | 65 => ⟨S1x128, .f32⟩
  | 66 => ⟨S128, .f32⟩
  | 67 => ⟨S1x128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S50000x128, .f32⟩
  | 74 => ⟨S_, .i32⟩
  | 75 => ⟨S600000, .i32⟩
  | 76 => ⟨S600000, .i1⟩
  | 77 => ⟨S_, .i32⟩
  | 78 => ⟨S600000, .i32⟩
  | 79 => ⟨S600000, .i32⟩
  | 80 => ⟨S600000, .i32⟩
  | 81 => ⟨S600000x1, .i32⟩
  | 82 => ⟨S1, .i32⟩
  | 83 => ⟨S_, .i32⟩
  | 84 => ⟨S600000x1, .i32⟩
  | 85 => ⟨S600000x1, .i1⟩
  | 86 => ⟨S1x1, .i32⟩
  | 87 => ⟨S600000x1, .i32⟩
  | 88 => ⟨S600000x1, .i1⟩
  | 89 => ⟨S600000x1, .i1⟩
  | 90 => ⟨S_, .i1⟩
  | 91 => ⟨S600000, .i1⟩
  | 92 => ⟨S600000x128, .f32⟩
  | 93 => ⟨S600000x128, .i1⟩
  | 94 => ⟨S_, .f32⟩
  | 95 => ⟨S600000x128, .f32⟩
  | 96 => ⟨S600000x128, .f32⟩
  | 97 => ⟨S1x64x128, .f32⟩
  | 98 => ⟨S64x128, .f32⟩
  | 99 => ⟨S1x128, .f32⟩
  | 100 => ⟨S128, .f32⟩
  | 101 => ⟨S1x128, .f32⟩
  | 102 => ⟨S600000x128, .f32⟩
  | 103 => ⟨S_, .f32⟩
  | 104 => ⟨S50000x128, .f32⟩
  | 105 => ⟨S600000x1, .i32⟩
  | 106 => ⟨S50000x128, .f32⟩
  | 107 => ⟨S1x128x128, .f32⟩
  | 108 => ⟨S128x128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S128, .f32⟩
  | 119 => ⟨S1x128x128, .f32⟩
  | 120 => ⟨S128x128, .f32⟩
  | 121 => ⟨S1x128, .f32⟩
  | 122 => ⟨S128, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S50000x128, .f32⟩
  | 2 => ⟨S_, .i32⟩
  | 3 => ⟨S600000, .i32⟩
  | 4 => ⟨S600000, .i1⟩
  | 5 => ⟨S_, .i32⟩
  | 6 => ⟨S600000, .i32⟩
  | 7 => ⟨S600000, .i32⟩
  | 8 => ⟨S600000, .i32⟩
  | 9 => ⟨S600000x1, .i32⟩
  | 10 => ⟨S1, .i32⟩
  | 11 => ⟨S_, .i32⟩
  | 12 => ⟨S600000x1, .i32⟩
  | 13 => ⟨S600000x1, .i1⟩
  | 14 => ⟨S1x1, .i32⟩
  | 15 => ⟨S600000x1, .i32⟩
  | 16 => ⟨S600000x1, .i1⟩
  | 17 => ⟨S600000x1, .i1⟩
  | 18 => ⟨S_, .i1⟩
  | 19 => ⟨S600000, .i1⟩
  | 20 => ⟨S600000x128, .f32⟩
  | 21 => ⟨S600000x128, .i1⟩
  | 22 => ⟨S_, .f32⟩
  | 23 => ⟨S600000x128, .f32⟩
  | 24 => ⟨S600000x128, .f32⟩
  | 25 => ⟨S1x64x128, .f32⟩
  | 26 => ⟨S64x128, .f32⟩
  | 27 => ⟨S1x128, .f32⟩
  | 28 => ⟨S128, .f32⟩
  | 29 => ⟨S1x128, .f32⟩
  | 30 => ⟨S600000x128, .f32⟩
  | 31 => ⟨S_, .f32⟩
  | 32 => ⟨S50000x128, .f32⟩
  | 33 => ⟨S600000x1, .i32⟩
  | 34 => ⟨S50000x128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S128, .f32⟩
  | 47 => ⟨S1x128x128, .f32⟩
  | 48 => ⟨S128x128, .f32⟩
  | 49 => ⟨S1x128, .f32⟩
  | 50 => ⟨S128, .f32⟩
  | 51 => ⟨S1x128, .f32⟩
  | 52 => ⟨S1x128, .f32⟩
  | 53 => ⟨S1x128, .f32⟩
  | 54 => ⟨S1x128, .f32⟩
  | 55 => ⟨S1x128, .f32⟩
  | 56 => ⟨S1x128, .f32⟩
  | 57 => ⟨S50000x128, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S1, .i32⟩
  | 67 => ⟨S_, .i32⟩
  | 68 => ⟨S600000x1, .i32⟩
  | 69 => ⟨S600000x1, .i1⟩
  | 70 => ⟨S1x1, .i32⟩
  | 71 => ⟨S600000x1, .i32⟩
  | 72 => ⟨S600000x1, .i1⟩
  | 73 => ⟨S600000x1, .i1⟩
  | 74 => ⟨S_, .i1⟩
  | 75 => ⟨S600000, .i1⟩
  | 76 => ⟨S600000x128, .f32⟩
  | 77 => ⟨S600000x128, .i1⟩
  | 78 => ⟨S_, .f32⟩
  | 79 => ⟨S600000x128, .f32⟩
  | 80 => ⟨S600000x128, .f32⟩
  | 81 => ⟨S1x64x128, .f32⟩
  | 82 => ⟨S64x128, .f32⟩
  | 83 => ⟨S1x128, .f32⟩
  | 84 => ⟨S128, .f32⟩
  | 85 => ⟨S1x128, .f32⟩
  | 86 => ⟨S600000x128, .f32⟩
  | 87 => ⟨S_, .f32⟩
  | 88 => ⟨S50000x128, .f32⟩
  | 89 => ⟨S600000x1, .i32⟩
  | 90 => ⟨S50000x128, .f32⟩
  | 91 => ⟨S1x128x128, .f32⟩
  | 92 => ⟨S128x128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S128, .f32⟩
  | 103 => ⟨S1x128x128, .f32⟩
  | 104 => ⟨S128x128, .f32⟩
  | 105 => ⟨S1x128, .f32⟩
  | 106 => ⟨S128, .f32⟩
  | 107 => ⟨S1x128, .f32⟩
  | 108 => ⟨S1x128, .f32⟩
  | 109 => ⟨S1x128, .f32⟩
  | 110 => ⟨S1x128, .f32⟩
  | 111 => ⟨S1x128, .f32⟩
  | 112 => ⟨S1x128, .f32⟩
  | 113 => ⟨S50000x128, .f32⟩
  | 114 => ⟨S_, .f32⟩
  | 115 => ⟨S128x128, .f32⟩
  | 116 => ⟨S50000x1, .i32⟩
  | 117 => ⟨S128x128, .f32⟩
  | 118 => ⟨S_, .f32⟩
  | 119 => ⟨S50000, .f32⟩
  | 120 => ⟨S_, .f32⟩
  | 121 => ⟨S128, .f32⟩
  | 122 => ⟨S50000x1, .i32⟩
  | 123 => ⟨S128, .f32⟩
  | 124 => ⟨S_, .f32⟩
  | 125 => ⟨S128, .f32⟩
  | 126 => ⟨S128, .f32⟩
  | 127 => ⟨S128x1, .f32⟩
  | _ => ⟨S50000x128, .f32⟩

abbrev hbmTy0_2 (i : Nat) : BufTy := match i % 128 with
  | 0 => ⟨S128x128, .f32⟩
  | 1 => ⟨S128x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S12000x128, .f32⟩
  | .local _ .vmem, ⟨1, _⟩ => ⟨S12000x128, .f32⟩
  | .local _ .vmem, ⟨2, _⟩ => ⟨S12000x64, .f32⟩
  | .local _ .vmem, ⟨3, _⟩ => ⟨S12000x64, .f32⟩
  | .local _ .vmem, ⟨4, _⟩ => ⟨S64x128, .f32⟩
  | .local _ .vmem, ⟨5, _⟩ => ⟨S1x128, .f32⟩
  | .local _ .vmem, ⟨6, _⟩ => ⟨S12000x128, .f32⟩
  | .local _ .vmem, ⟨7, _⟩ => ⟨S12000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S12000x128, .f32⟩
  | .local _ .vmem, ⟨23, _⟩ => ⟨S12000x128, .f32⟩
  | .local _ .vmem, ⟨24, _⟩ => ⟨S12000x64, .f32⟩
  | .local _ .vmem, ⟨25, _⟩ => ⟨S12000x64, .f32⟩
  | .local _ .vmem, ⟨26, _⟩ => ⟨S64x128, .f32⟩
  | .local _ .vmem, ⟨27, _⟩ => ⟨S1x128, .f32⟩
  | .local _ .vmem, ⟨28, _⟩ => ⟨S12000x128, .f32⟩
  | .local _ .vmem, ⟨29, _⟩ => ⟨S12000x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S10000x128, .f32⟩
  | .local _ .vmem, ⟨43, _⟩ => ⟨S10000x128, .f32⟩
  | .local _ .vmem, ⟨44, _⟩ => ⟨S12000x128, .f32⟩
  | .local _ .vmem, ⟨45, _⟩ => ⟨S12000x128, .f32⟩
  | .local _ .vmem, ⟨46, _⟩ => ⟨S12000x64, .f32⟩
  | .local _ .vmem, ⟨47, _⟩ => ⟨S12000x64, .f32⟩
  | .local _ .vmem, ⟨48, _⟩ => ⟨S64x128, .f32⟩
  | .local _ .vmem, ⟨49, _⟩ => ⟨S1x128, .f32⟩
  | .local _ .vmem, ⟨50, _⟩ => ⟨S12000x128, .f32⟩
  | .local _ .vmem, ⟨51, _⟩ => ⟨S12000x128, .f32⟩
  | .local _ .vmem, ⟨52, _⟩ => ⟨S10000x128, .f32⟩
  | .local _ .vmem, ⟨53, _⟩ => ⟨S10000x128, .f32⟩
  | .local _ .vmem, ⟨54, _⟩ => ⟨S10000x128, .f32⟩
  | .local _ .vmem, ⟨55, _⟩ => ⟨S10000x128, .f32⟩
  | .local _ .vmem, ⟨56, _⟩ => ⟨S128x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S128x128, .f32⟩
  | .local _ .vmem, ⟨63, _⟩ => ⟨S1x128, .f32⟩
  | .local _ .vmem, ⟨64, _⟩ => ⟨S10000x128, .f32⟩
  | .local _ .vmem, ⟨65, _⟩ => ⟨S10000x128, .f32⟩
  | .local _ .vmem, ⟨66, _⟩ => ⟨S12000x128, .f32⟩
  | .local _ .vmem, ⟨67, _⟩ => ⟨S12000x128, .f32⟩
  | .local _ .vmem, ⟨68, _⟩ => ⟨S12000x64, .f32⟩
  | .local _ .vmem, ⟨69, _⟩ => ⟨S12000x64, .f32⟩
  | .local _ .vmem, ⟨70, _⟩ => ⟨S64x128, .f32⟩
  | .local _ .vmem, ⟨71, _⟩ => ⟨S1x128, .f32⟩
  | .local _ .vmem, ⟨72, _⟩ => ⟨S12000x128, .f32⟩
  | .local _ .vmem, ⟨73, _⟩ => ⟨S12000x128, .f32⟩
  | .local _ .vmem, ⟨74, _⟩ => ⟨S10000x128, .f32⟩
  | .local _ .vmem, ⟨75, _⟩ => ⟨S10000x128, .f32⟩
  | .local _ .vmem, ⟨76, _⟩ => ⟨S10000x128, .f32⟩
  | .local _ .vmem, ⟨77, _⟩ => ⟨S10000x128, .f32⟩
  | .local _ .vmem, ⟨78, _⟩ => ⟨S128x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S1x128, .f32⟩
  | .local _ .vmem, ⟨83, _⟩ => ⟨S1x128, .f32⟩
  | .local _ .vmem, ⟨84, _⟩ => ⟨S128x128, .f32⟩
  | .local _ .vmem, ⟨85, _⟩ => ⟨S1x128, .f32⟩
  | .local _ .vmem, ⟨86, _⟩ => ⟨S10000x128, .f32⟩
  | .local _ .vmem, ⟨87, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call1_c : Ref sig .tc := ⟨.hbm, 74, rfl⟩
abbrev main_call1_v0 : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_c_1 : Ref sig .tc := ⟨.hbm, 82, rfl⟩
abbrev main_call1_c_2 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_3 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_call1_cst : Ref sig .tc := ⟨.hbm, 94, rfl⟩
abbrev main_call1_v15 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_cst_0 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_call2_c : Ref sig .tc := ⟨.hbm, 130, rfl⟩
abbrev main_call2_v0 : Ref sig .tc := ⟨.hbm, 131, rfl⟩
abbrev main_call2_v1 : Ref sig .tc := ⟨.hbm, 132, rfl⟩
abbrev main_call2_c_0 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_c_1 : Ref sig .tc := ⟨.hbm, 138, rfl⟩
abbrev main_call2_c_2 : Ref sig .tc := ⟨.hbm, 139, rfl⟩
abbrev main_call2_v6 : Ref sig .tc := ⟨.hbm, 140, rfl⟩
abbrev main_call2_v7 : Ref sig .tc := ⟨.hbm, 141, rfl⟩
abbrev main_call2_v8 : Ref sig .tc := ⟨.hbm, 142, rfl⟩
abbrev main_call2_v9 : Ref sig .tc := ⟨.hbm, 143, rfl⟩
abbrev main_call2_v10 : Ref sig .tc := ⟨.hbm, 144, rfl⟩
abbrev main_call2_v11 : Ref sig .tc := ⟨.hbm, 145, rfl⟩
abbrev main_call2_c_3 : Ref sig .tc := ⟨.hbm, 146, rfl⟩
abbrev main_call2_v12 : Ref sig .tc := ⟨.hbm, 147, rfl⟩
abbrev main_call2_v13 : Ref sig .tc := ⟨.hbm, 148, rfl⟩
abbrev main_call2_v14 : Ref sig .tc := ⟨.hbm, 149, rfl⟩
abbrev main_call2_cst : Ref sig .tc := ⟨.hbm, 150, rfl⟩
abbrev main_call2_v15 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_cst_1 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_call3_c : Ref sig .tc := ⟨.hbm, 186, rfl⟩
abbrev main_call3_v0 : Ref sig .tc := ⟨.hbm, 187, rfl⟩
abbrev main_call3_v1 : Ref sig .tc := ⟨.hbm, 188, rfl⟩
abbrev main_call3_c_0 : Ref sig .tc := ⟨.hbm, 189, rfl⟩
abbrev main_call3_v2 : Ref sig .tc := ⟨.hbm, 190, rfl⟩
abbrev main_call3_v3 : Ref sig .tc := ⟨.hbm, 191, rfl⟩
abbrev main_call3_v4 : Ref sig .tc := ⟨.hbm, 192, rfl⟩
abbrev main_call3_v5 : Ref sig .tc := ⟨.hbm, 193, rfl⟩
abbrev main_call3_c_1 : Ref sig .tc := ⟨.hbm, 194, rfl⟩
abbrev main_call3_c_2 : Ref sig .tc := ⟨.hbm, 195, rfl⟩
abbrev main_call3_v6 : Ref sig .tc := ⟨.hbm, 196, rfl⟩
abbrev main_call3_v7 : Ref sig .tc := ⟨.hbm, 197, rfl⟩
abbrev main_call3_v8 : Ref sig .tc := ⟨.hbm, 198, rfl⟩
abbrev main_call3_v9 : Ref sig .tc := ⟨.hbm, 199, rfl⟩
abbrev main_call3_v10 : Ref sig .tc := ⟨.hbm, 200, rfl⟩
abbrev main_call3_v11 : Ref sig .tc := ⟨.hbm, 201, rfl⟩
abbrev main_call3_c_3 : Ref sig .tc := ⟨.hbm, 202, rfl⟩
abbrev main_call3_v12 : Ref sig .tc := ⟨.hbm, 203, rfl⟩
abbrev main_call3_v13 : Ref sig .tc := ⟨.hbm, 204, rfl⟩
abbrev main_call3_v14 : Ref sig .tc := ⟨.hbm, 205, rfl⟩
abbrev main_call3_cst : Ref sig .tc := ⟨.hbm, 206, rfl⟩
abbrev main_call3_v15 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_cst_2 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_v113 : Ref sig .tc := ⟨.hbm, 219, rfl⟩
abbrev main_v114 : Ref sig .tc := ⟨.hbm, 220, rfl⟩
abbrev main_v115 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩
abbrev main_v135 : Ref sig .tc := ⟨.hbm, 241, rfl⟩
abbrev main_cst_3 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_cst_4 : Ref sig .tc := ⟨.hbm, 246, rfl⟩
abbrev main_v139 : Ref sig .tc := ⟨.hbm, 247, rfl⟩
abbrev main_cst_5 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_cst_6 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg9_0 : Ref sig .tc := ⟨.vmem, 41, rfl⟩
abbrev cc3_stg10_0 : Ref sig .tc := ⟨.vmem, 42, rfl⟩
abbrev cc3_stg10_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg4_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg8_0 : Ref sig .tc := ⟨.vmem, 62, rfl⟩
abbrev cc5_stg9_0 : Ref sig .tc := ⟨.vmem, 63, rfl⟩
abbrev cc5_stg10_0 : Ref sig .tc := ⟨.vmem, 64, rfl⟩
abbrev cc5_stg10_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg4_1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg1_1 : Ref sig .tc := ⟨.vmem, 77, rfl⟩
abbrev cc7_stg2_0 : Ref sig .tc := ⟨.vmem, 78, rfl⟩
abbrev cc7_stg3_0 : Ref sig .tc := ⟨.vmem, 79, rfl⟩
abbrev cc7_stg4_0 : Ref sig .tc := ⟨.vmem, 80, rfl⟩
abbrev cc7_stg5_0 : Ref sig .tc := ⟨.vmem, 81, rfl⟩
abbrev cc7_stg6_0 : Ref sig .tc := ⟨.vmem, 82, rfl⟩
abbrev cc7_stg7_0 : Ref sig .tc := ⟨.vmem, 83, rfl⟩
abbrev cc7_stg8_0 : Ref sig .tc := ⟨.vmem, 84, rfl⟩
abbrev cc7_stg9_0 : Ref sig .tc := ⟨.vmem, 85, rfl⟩
abbrev cc7_stg10_0 : Ref sig .tc := ⟨.vmem, 86, rfl⟩
abbrev cc7_stg10_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem10_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem4_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem8_0 : DmaSem sig := 62
abbrev cc5_sem9_0 : DmaSem sig := 63
abbrev cc5_sem10_0 : DmaSem sig := 64
abbrev cc5_sem10_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem3_0 : DmaSem sig := 71
abbrev cc6_sem4_0 : DmaSem sig := 72
abbrev cc6_sem4_1 : DmaSem sig := 73
abbrev cc7_sem0_0 : DmaSem sig := 74
abbrev cc7_sem0_1 : DmaSem sig := 75
abbrev cc7_sem1_0 : DmaSem sig := 76
abbrev cc7_sem1_1 : DmaSem sig := 77
abbrev cc7_sem2_0 : DmaSem sig := 78
abbrev cc7_sem3_0 : DmaSem sig := 79
abbrev cc7_sem4_0 : DmaSem sig := 80
abbrev cc7_sem5_0 : DmaSem sig := 81
abbrev cc7_sem6_0 : DmaSem sig := 82
abbrev cc7_sem7_0 : DmaSem sig := 83
abbrev cc7_sem8_0 : DmaSem sig := 84
abbrev cc7_sem9_0 : DmaSem sig := 85
abbrev cc7_sem10_0 : DmaSem sig := 86
abbrev cc7_sem10_1 : DmaSem sig := 87

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S12000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S10000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S12000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S12000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S10000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S12000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S12000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S12000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S10000x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S12000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S12000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S12000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S128x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 2 → Memref sig .tc .vmem S10000x128 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  shapeCasts_S128_S1x128 : S128.ShapeCasts S1x128
  inb_S12000x64_S12000x64_0_0 : ∀ a, (![0, 0] : Fin 2 → Nat) a + S12000x64.size a ≤ S12000x64.size a
  h_S12000x64 : 0 < S12000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12000x128 : S1x128.Broadcasts S12000x128
  inb_S12000x128_S12000x128_0_0 : ∀ a, (![0, 0] : Fin 2 → Nat) a + S12000x128.size a ≤ S12000x128.size a
  h_S12000x128 : 0 < S12000x128.numel
  shapeCasts_S12000x128_S12000x128 : S12000x128.ShapeCasts S12000x128
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S10000x128 : S1x128.Broadcasts S10000x128
  slices_S4x64x128_S1x64x128_1_0_0 : S4x64x128.Slices ![1, 0, 0] S1x64x128
  slices_S4x128_S1x128_1_0 : S4x128.Slices ![1, 0] S1x128
  slices_S4x128x128_S1x128x128_1_0_0 : S4x128x128.Slices ![1, 0, 0] S1x128x128
  slices_S4x64x128_S1x64x128_2_0_0 : S4x64x128.Slices ![2, 0, 0] S1x64x128
  slices_S4x128_S1x128_2_0 : S4x128.Slices ![2, 0] S1x128
  slices_S4x128x128_S1x128x128_2_0_0 : S4x128x128.Slices ![2, 0, 0] S1x128x128
  slices_S4x64x128_S1x64x128_3_0_0 : S4x64x128.Slices ![3, 0, 0] S1x64x128
  slices_S4x128_S1x128_3_0 : S4x128.Slices ![3, 0] S1x128
  slices_S4x128x128_S1x128x128_3_0_0 : S4x128x128.Slices ![3, 0, 0] S1x128x128
  bcast_S_S128x128 : S_.BroadcastsInDim S128x128 (![] : Fin 0 → Fin S128x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  gather_S50000x128_S600000x1_S600000x128_1_0_n_n_0_1_1128_wf : GatherDims.WF S50000x128 S600000x1 S600000x128 [1] [0] [] [0] [] 1 ![1, 128]
  dot_S12000x64_S64x128_S12000x128_1_0_0_1_n_n_wf : DotDims.WF S12000x64 S64x128 S12000x128 [1] [0] [0] [1] [] []
  scatter_S50000x128_S600000x1_S600000x128_1_0_0_1_wf : ScatterDims.WF S50000x128 S600000x1 S600000x128 [1] [0] [0] 1
  dot_S10000x128_S128x128_S10000x128_1_0_0_1_n_n_wf : DotDims.WF S10000x128 S128x128 S10000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12000x128.size a ≤ S600000x128.size a
  hwx0_0 : ∀ i : grid0.Coords, EltTy.bits .f32 = 32 ∨ (Rect.block (s := S600000x128) S12000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12000x64.size a ≤ S600000x64.size a
  hwx0_1 : ∀ i : grid0.Coords, EltTy.bits .f32 = 32 ∨ (Rect.block (s := S600000x64) S12000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S12000x128.size a ≤ S600000x128.size a
  hwx0_4 : ∀ i : grid0.Coords, EltTy.bits .f32 = 32 ∨ (Rect.block (s := S600000x128) S12000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S10000x128.size a ≤ S50000x128.size a
  hwx1_10 : ∀ i : grid1.Coords, EltTy.bits .f32 = 32 ∨ (Rect.block (s := S50000x128) S10000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S12000x128.size a ≤ S600000x128.size a
  hwx2_0 : ∀ i : grid2.Coords, EltTy.bits .f32 = 32 ∨ (Rect.block (s := S600000x128) S12000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S12000x64.size a ≤ S600000x64.size a
  hwx2_1 : ∀ i : grid2.Coords, EltTy.bits .f32 = 32 ∨ (Rect.block (s := S600000x64) S12000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S12000x128.size a ≤ S600000x128.size a
  hwx2_4 : ∀ i : grid2.Coords, EltTy.bits .f32 = 32 ∨ (Rect.block (s := S600000x128) S12000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S50000x128.size a
  hwx3_1 : ∀ i : grid3.Coords, EltTy.bits .f32 = 32 ∨ (Rect.block (s := S50000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S10000x128.size a ≤ S50000x128.size a
  hwx3_10 : ∀ i : grid3.Coords, EltTy.bits .f32 = 32 ∨ (Rect.block (s := S50000x128) S10000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S12000x128.size a ≤ S600000x128.size a
  hwx4_0 : ∀ i : grid4.Coords, EltTy.bits .f32 = 32 ∨ (Rect.block (s := S600000x128) S12000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S12000x64.size a ≤ S600000x64.size a
  hwx4_1 : ∀ i : grid4.Coords, EltTy.bits .f32 = 32 ∨ (Rect.block (s := S600000x64) S12000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S12000x128.size a ≤ S600000x128.size a
  hwx4_4 : ∀ i : grid4.Coords, EltTy.bits .f32 = 32 ∨ (Rect.block (s := S600000x128) S12000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S50000x128.size a
  hwx5_1 : ∀ i : grid5.Coords, EltTy.bits .f32 = 32 ∨ (Rect.block (s := S50000x128) S10000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128x128.size a ≤ S128x128.size a
  hwx5_8 : ∀ i : grid5.Coords, EltTy.bits .f32 = 32 ∨ (Rect.block (s := S128x128) S128x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S10000x128.size a ≤ S50000x128.size a
  hwx5_10 : ∀ i : grid5.Coords, EltTy.bits .f32 = 32 ∨ (Rect.block (s := S50000x128) S10000x128.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S12000x128.size a ≤ S600000x128.size a
  hwx6_0 : ∀ i : grid6.Coords, EltTy.bits .f32 = 32 ∨ (Rect.block (s := S600000x128) S12000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S12000x64.size a ≤ S600000x64.size a
  hwx6_1 : ∀ i : grid6.Coords, EltTy.bits .f32 = 32 ∨ (Rect.block (s := S600000x64) S12000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S12000x128.size a ≤ S600000x128.size a
  hwx6_4 : ∀ i : grid6.Coords, EltTy.bits .f32 = 32 ∨ (Rect.block (s := S600000x128) S12000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x128.size a ≤ S50000x128.size a
  hwx7_1 : ∀ i : grid7.Coords, EltTy.bits .f32 = 32 ∨ (Rect.block (s := S50000x128) S10000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S128x128.size a ≤ S128x128.size a
  hwx7_8 : ∀ i : grid7.Coords, EltTy.bits .f32 = 32 ∨ (Rect.block (s := S128x128) S128x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S10000x128.size a ≤ S50000x128.size a
  hwx7_10 : ∀ i : grid7.Coords, EltTy.bits .f32 = 32 ∨ (Rect.block (s := S50000x128) S10000x128.size (cc7_transform_10 i) (hinb7_10 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S12000x64_S64x128_S12000x128_1_0_0_1_n_n : DotDims S12000x64 S64x128 S12000x128 where
  lhsContracting := [1]
  rhsContracting := [0]
  lhsNonContracting := [0]
  rhsNonContracting := [1]
  lhsBatch := []
  rhsBatch := []
  wf := dot_S12000x64_S64x128_S12000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

abbrev win0_0 : Pipeline.Window sig grid0 :=
  Pipeline.Window.ofSpec (Memref.whole main_v4) S12000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S12000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v36) S10000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v37) S12000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S12000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S12000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v36) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v67) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v60) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v68) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v69) S10000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v70) S12000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S12000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v72) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S12000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v69) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v81) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v97) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v98) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v99) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v100) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v93) S128x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v101) S1x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v102) S10000x128.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v103) S12000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg2) S12000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v105) S64x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v108) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v109) S12000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v102) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v112) S10000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v114) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v129) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v130) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v131) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v132) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v133) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v126) S128x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v134) S1x128.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v135) S10000x128.size cc7_transform_10 reads7_10 true false 2 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x64 : Shape := ⟨2, ![600000, 64]⟩
abbrev S50000 : Shape := ⟨1, ![50000]⟩
abbrev S4x64x128 : Shape := ⟨3, ![4, 64, 128]⟩
abbrev S4x128 : Shape := ⟨2, ![4, 128]⟩
abbrev S4x128x128 : Shape := ⟨3, ![4, 128, 128]⟩
abbrev S1x600000 : Shape := ⟨2, ![1, 600000]⟩
abbrev S600000 : Shape := ⟨1, ![600000]⟩
abbrev S1x64x128 : Shape := ⟨3, ![1, 64, 128]⟩
abbrev S64x128 : Shape := ⟨2, ![64, 128]⟩
abbrev S600000x128 : Shape := ⟨2, ![600000, 128]⟩
abbrev S1x128 : Shape := ⟨2, ![1, 128]⟩
abbrev S128 : Shape := ⟨1, ![128]⟩
abbrev S_ : Shape := ⟨0, ![]⟩
abbrev S600000x1 : Shape := ⟨2, ![600000, 1]⟩
abbrev S1x128x128 : Shape := ⟨3, ![1, 128, 128]⟩
abbrev S128x128 : Shape := ⟨2, ![128, 128]⟩
abbrev S50000x1 : Shape := ⟨2, ![50000, 1]⟩
abbrev S128x1 : Shape := ⟨2, ![128, 1]⟩

abbrev nBuf : Space → Nat
  | .hbm => 319
  | .vmem => 0
  | .smem => 0
  | _ => 0

abbrev hbmTy0_0 (i : Nat) : BufTy := match i % 128 with
  | 0 => ⟨S50000x128, .f32⟩
  | 1 => ⟨S2x600000, .i32⟩
  | 2 => ⟨S600000x64, .f32⟩
  | 3 => ⟨S50000, .i32⟩
  | 4 => ⟨S4x64x128, .f32⟩
  | 5 => ⟨S4x128, .f32⟩
  | 6 => ⟨S4x128x128, .f32⟩
  | 7 => ⟨S4x128, .f32⟩
  | 8 => ⟨S4x128, .f32⟩
  | 9 => ⟨S4x128, .f32⟩
  | 10 => ⟨S4x128, .f32⟩
  | 11 => ⟨S4x128, .f32⟩
  | 12 => ⟨S4x128x128, .f32⟩
  | 13 => ⟨S4x128, .f32⟩
  | 14 => ⟨S1x600000, .i32⟩
  | 15 => ⟨S600000, .i32⟩
  | 16 => ⟨S1x600000, .i32⟩
  | 17 => ⟨S600000, .i32⟩
  | 18 => ⟨S1x64x128, .f32⟩
  | 19 => ⟨S64x128, .f32⟩
  | 20 => ⟨S600000x128, .f32⟩
  | 21 => ⟨S1x128, .f32⟩
  | 22 => ⟨S128, .f32⟩
  | 23 => ⟨S1x128, .f32⟩
  | 24 => ⟨S600000x128, .f32⟩
  | 25 => ⟨S600000x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S600000x128, .f32⟩
  | 36 => ⟨S_, .f32⟩
  | 37 => ⟨S600000x128, .f32⟩
  | 38 => ⟨S600000x128, .f32⟩
  | 39 => ⟨S_, .f32⟩
  | 40 => ⟨S50000x128, .f32⟩
  | 41 => ⟨S600000x1, .i32⟩
  | 42 => ⟨S50000x128, .f32⟩
  | 43 => ⟨S50000x128, .f32⟩
  | 44 => ⟨S1x128x128, .f32⟩
  | 45 => ⟨S128x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S1x128, .f32⟩
  | 63 => ⟨S128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S1x64x128, .f32⟩
  | 91 => ⟨S64x128, .f32⟩
  | 92 => ⟨S600000x128, .f32⟩
  | 93 => ⟨S1x128, .f32⟩
  | 94 => ⟨S128, .f32⟩
  | 95 => ⟨S1x128, .f32⟩
  | 96 => ⟨S600000x128, .f32⟩
  | 97 => ⟨S600000x128, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S600000x128, .f32⟩
  | 108 => ⟨S_, .f32⟩
  | 109 => ⟨S600000x128, .f32⟩
  | 110 => ⟨S600000x128, .f32⟩
  | 111 => ⟨S_, .f32⟩
  | 112 => ⟨S50000x128, .f32⟩
  | 113 => ⟨S600000x1, .i32⟩
  | 114 => ⟨S50000x128, .f32⟩
  | 115 => ⟨S50000x128, .f32⟩
  | 116 => ⟨S1x128x128, .f32⟩
  | 117 => ⟨S128x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S1x128, .f32⟩
  | 125 => ⟨S128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S1x128, .f32⟩
  | 7 => ⟨S128, .f32⟩
  | 8 => ⟨S_, .f32⟩
  | 9 => ⟨S128, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S1x128, .f32⟩
  | 16 => ⟨S128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S1x128x128, .f32⟩
  | 24 => ⟨S128x128, .f32⟩
  | 25 => ⟨S50000x128, .f32⟩
  | 26 => ⟨S1x128, .f32⟩
  | 27 => ⟨S128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S1x64x128, .f32⟩
  | 35 => ⟨S64x128, .f32⟩
  | 36 => ⟨S600000x128, .f32⟩
  | 37 => ⟨S1x128, .f32⟩
  | 38 => ⟨S128, .f32⟩
  | 39 => ⟨S1x128, .f32⟩
  | 40 => ⟨S600000x128, .f32⟩
  | 41 => ⟨S600000x128, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S600000x128, .f32⟩
  | 52 => ⟨S_, .f32⟩
  | 53 => ⟨S600000x128, .f32⟩
  | 54 => ⟨S600000x128, .f32⟩
  | 55 => ⟨S_, .f32⟩
  | 56 => ⟨S50000x128, .f32⟩
  | 57 => ⟨S600000x1, .i32⟩
  | 58 => ⟨S50000x128, .f32⟩
  | 59 => ⟨S50000x128, .f32⟩
  | 60 => ⟨S1x128x128, .f32⟩
  | 61 => ⟨S128x128, .f32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S128, .f32⟩
  | 80 => ⟨S_, .f32⟩
  | 81 => ⟨S128, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S1x128x128, .f32⟩
  | 96 => ⟨S128x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S1x64x128, .f32⟩
  | 107 => ⟨S64x128, .f32⟩
  | 108 => ⟨S600000x128, .f32⟩
  | 109 => ⟨S1x128, .f32⟩
  | 110 => ⟨S128, .f32⟩
  | 111 => ⟨S1x128, .f32⟩
  | 112 => ⟨S600000x128, .f32⟩
  | 113 => ⟨S600000x128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S600000x128, .f32⟩
  | 124 => ⟨S_, .f32⟩
  | 125 => ⟨S600000x128, .f32⟩
  | 126 => ⟨S600000x128, .f32⟩
  | 127 => ⟨S_, .f32⟩
  | _ => ⟨S50000x128, .f32⟩

abbrev hbmTy0_2 (i : Nat) : BufTy := match i % 128 with
  | 0 => ⟨S50000x128, .f32⟩
  | 1 => ⟨S600000x1, .i32⟩
  | 2 => ⟨S50000x128, .f32⟩
  | 3 => ⟨S50000x128, .f32⟩
  | 4 => ⟨S1x128x128, .f32⟩
  | 5 => ⟨S128x128, .f32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S1x128, .f32⟩
  | 13 => ⟨S128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S1x128, .f32⟩
  | 23 => ⟨S128, .f32⟩
  | 24 => ⟨S_, .f32⟩
  | 25 => ⟨S128, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S1x128x128, .f32⟩
  | 40 => ⟨S128x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S_, .f32⟩
  | 48 => ⟨S128x128, .f32⟩
  | 49 => ⟨S50000x1, .i32⟩
  | 50 => ⟨S128x128, .f32⟩
  | 51 => ⟨S_, .f32⟩
  | 52 => ⟨S50000, .f32⟩
  | 53 => ⟨S_, .f32⟩
  | 54 => ⟨S128, .f32⟩
  | 55 => ⟨S50000x1, .i32⟩
  | 56 => ⟨S128, .f32⟩
  | 57 => ⟨S_, .f32⟩
  | 58 => ⟨S128, .f32⟩
  | 59 => ⟨S128, .f32⟩
  | 60 => ⟨S128x1, .f32⟩
  | 61 => ⟨S128x128, .f32⟩
  | 62 => ⟨S128x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_1 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call1_cst : Ref sig .tc := ⟨.hbm, 76, rfl⟩
abbrev main_call1_v0 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call2_cst : Ref sig .tc := ⟨.hbm, 87, rfl⟩
abbrev main_call2_v0 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_2 : Ref sig .tc := ⟨.hbm, 98, rfl⟩
abbrev main_v74 : Ref sig .tc := ⟨.hbm, 99, rfl⟩
abbrev main_v75 : Ref sig .tc := ⟨.hbm, 100, rfl⟩
abbrev main_c_3 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_call3_cst : Ref sig .tc := ⟨.hbm, 108, rfl⟩
abbrev main_call3_v0 : Ref sig .tc := ⟨.hbm, 109, rfl⟩
abbrev main_v82 : Ref sig .tc := ⟨.hbm, 110, rfl⟩
abbrev main_cst_4 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_5 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_call4_cst : Ref sig .tc := ⟨.hbm, 148, rfl⟩
abbrev main_call4_v0 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_call5_cst : Ref sig .tc := ⟨.hbm, 159, rfl⟩
abbrev main_call5_v0 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_c_6 : Ref sig .tc := ⟨.hbm, 170, rfl⟩
abbrev main_v136 : Ref sig .tc := ⟨.hbm, 171, rfl⟩
abbrev main_v137 : Ref sig .tc := ⟨.hbm, 172, rfl⟩
abbrev main_c_7 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_call6_cst : Ref sig .tc := ⟨.hbm, 180, rfl⟩
abbrev main_call6_v0 : Ref sig .tc := ⟨.hbm, 181, rfl⟩
abbrev main_v144 : Ref sig .tc := ⟨.hbm, 182, rfl⟩
abbrev main_cst_8 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_cst_9 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_call7_cst : Ref sig .tc := ⟨.hbm, 220, rfl⟩
abbrev main_call7_v0 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_call8_cst : Ref sig .tc := ⟨.hbm, 231, rfl⟩
abbrev main_call8_v0 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_c_10 : Ref sig .tc := ⟨.hbm, 242, rfl⟩
abbrev main_v198 : Ref sig .tc := ⟨.hbm, 243, rfl⟩
abbrev main_v199 : Ref sig .tc := ⟨.hbm, 244, rfl⟩
abbrev main_c_11 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_call9_cst : Ref sig .tc := ⟨.hbm, 252, rfl⟩
abbrev main_call9_v0 : Ref sig .tc := ⟨.hbm, 253, rfl⟩
abbrev main_v206 : Ref sig .tc := ⟨.hbm, 254, rfl⟩
abbrev main_cst_12 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_cst_13 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_call10_cst : Ref sig .tc := ⟨.hbm, 292, rfl⟩
abbrev main_call10_v0 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_cst_14 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_cst_15 : Ref sig .tc := ⟨.hbm, 307, rfl⟩
abbrev main_v254 : Ref sig .tc := ⟨.hbm, 308, rfl⟩
abbrev main_cst_16 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_cst_17 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  bcast_S1x128_S50000x128_0_1 : S1x128.BroadcastsInDim S50000x128 (![0, 1] : Fin 2 → Fin S50000x128.rank)
  bcast_S_S128 : S_.BroadcastsInDim S128 (![] : Fin 0 → Fin S128.rank)
  slices_S4x64x128_S1x64x128_1_0_0 : S4x64x128.Slices ![1, 0, 0] S1x64x128
  slices_S4x128_S1x128_1_0 : S4x128.Slices ![1, 0] S1x128
  slices_S4x128x128_S1x128x128_1_0_0 : S4x128x128.Slices ![1, 0, 0] S1x128x128
  slices_S4x64x128_S1x64x128_2_0_0 : S4x64x128.Slices ![2, 0, 0] S1x64x128
  slices_S4x128_S1x128_2_0 : S4x128.Slices ![2, 0] S1x128
  slices_S4x128x128_S1x128x128_2_0_0 : S4x128x128.Slices ![2, 0, 0] S1x128x128
  slices_S4x64x128_S1x64x128_3_0_0 : S4x64x128.Slices ![3, 0, 0] S1x64x128
  slices_S4x128_S1x128_3_0 : S4x128.Slices ![3, 0] S1x128
  slices_S4x128x128_S1x128x128_3_0_0 : S4x128x128.Slices ![3, 0, 0] S1x128x128
  bcast_S_S128x128 : S_.BroadcastsInDim S128x128 (![] : Fin 0 → Fin S128x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  dot_S600000x64_S64x128_S600000x128_1_0_0_1_n_n_wf : DotDims.WF S600000x64 S64x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1

variable [Facts₀]

def dot_S600000x64_S64x128_S600000x128_1_0_0_1_n_n : DotDims S600000x64 S64x128 S600000x128 where
  lhsContracting := [1]
  rhsContracting := [0]
  lhsNonContracting := [0]
  rhsNonContracting := [1]
  lhsBatch := []
  rhsBatch := []
  wf := dot_S600000x64_S64x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

class Facts : Prop extends Facts₀ where

variable [Facts]
-- ==== Proof.TakeFill.lean ====
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.ReduceAll

noncomputable section

namespace Cert.Gine

open Idealize.ShloMosaic Idealize.ShloMosaic.ValueIdx

abbrev SE : Shape := ⟨1, ![600000]⟩
abbrev SE1 : Shape := ⟨2, ![600000, 1]⟩
abbrev SED : Shape := ⟨2, ![600000, 128]⟩
abbrev SND : Shape := ⟨2, ![50000, 128]⟩
abbrev S0 : Shape := ⟨0, ![]⟩
abbrev S1_ : Shape := ⟨1, ![1]⟩
abbrev S11 : Shape := ⟨2, ![1, 1]⟩

def InRange (p : IVec SE 32) : Prop := ∀ e : Fin 600000, -50000 ≤ (p (ix1 e)).toInt ∧ (p (ix1 e)).toInt < 50000

def wrapPos (hb : S0.BroadcastsInDim SE ![]) (p : IVec SE 32) : IVec SE 32 :=
  select (cmpi .slt p (broadcastInDim SE ![] hb (constantI S0 32 0#32)))
    (addi p (broadcastInDim SE ![] hb (constantI S0 32 50000#32))) p

def posCol (hb : S0.BroadcastsInDim SE ![]) (hc : SE.BroadcastsInDim SE1 ![0]) (p : IVec SE 32) : IVec SE1 32 :=
  broadcastInDim SE1 ![0] hc (wrapPos hb p)

def inBounds (hb : S0.BroadcastsInDim SE ![]) (hc : SE.BroadcastsInDim SE1 ![0]) (hz : S0.BroadcastsInDim SE1 ![])
    (h1 : S1_.BroadcastsInDim S11 ![1]) (h11 : S11.BroadcastsInDim SE1 ![0, 1])
    (hr : SE1.ReducesTo [1] SE) (hs : 0 < S0.numel) (p : IVec SE 32) : IVec SE 1 :=
  Host.reduce IntOp.andi
    (andi (cmpi .sge (posCol hb hc p) (broadcastInDim SE1 ![] hz (constantI S0 32 0#32)))
          (cmpi .sle (posCol hb hc p) (broadcastInDim SE1 ![0, 1] h11 (broadcastInDim S11 ![1] h1 (constantI S1_ 32 49999#32)))))
    (constantI S0 1 1#1) hr hs

private theorem rangeTest_word (v : BitVec 32) (h0 : 0 ≤ v.toInt) (h1 : v.toInt ≤ 49999) :
    IntOp.andi (IntOp.cmpi .sge v 0#32) (IntOp.cmpi .sle v 49999#32) = 1#1 := by
  have a : (0#32).sle v = true := by
    rw [BitVec.sle, decide_eq_true_eq]; simpa using h0
  have b : v.sle 49999#32 = true := by
    rw [BitVec.sle, decide_eq_true_eq]
    have : (49999#32).toInt = 49999 := by decide
    omega
  simp only [IntOp.andi, IntOp.cmpi, a, b]
  decide

private theorem wrap_word (w : BitVec 32) (h1 : -50000 ≤ w.toInt) (h2 : w.toInt < 50000) :
    0 ≤ (Scalar.select (IntOp.cmpi .slt w 0#32) (IntOp.addi w 50000#32) w).toInt ∧
      (Scalar.select (IntOp.cmpi .slt w 0#32) (IntOp.addi w 50000#32) w).toInt ≤ 49999 := by
  by_cases hn : w.toInt < 0
  · have a : w.slt 0#32 = true := by
      rw [BitVec.slt, decide_eq_true_eq]; simpa using hn
    have e : IntOp.cmpi .slt w 0#32 = 1#1 := by simp only [IntOp.cmpi, a]; decide
    rw [e, select_one]
    have t : (IntOp.addi w 50000#32).toInt = w.toInt + 50000 := by
      simp only [IntOp.addi, BitVec.toInt_add]
      have : (50000#32).toInt = 50000 := by decide
      rw [this]
      rw [Int.bmod_eq_of_le] <;> omega
    omega
  · have a : w.slt 0#32 = false := by
      rw [BitVec.slt, decide_eq_false_iff_not]; simpa using hn
    have e : IntOp.cmpi .slt w 0#32 = 0#1 := by simp only [IntOp.cmpi, a]; decide
    rw [e, select_zero]
    omega

private theorem bcast_first {α : Type} {n m : Nat} (h : (⟨1, ![n]⟩ : Shape).BroadcastsInDim ⟨2, ![n, m]⟩ ![0])
    (v : (⟨1, ![n]⟩ : Shape).Idx → α) (e : Fin n) (j : Fin m) :
    broadcastInDim ⟨2, ![n, m]⟩ ![0] h v (ix2 e j) = v (ix1 e) := by
  simp only [broadcastInDim]
  congr 1
  funext a
  match a with
  | ⟨0, _⟩ =>
    apply Fin.ext
    have he := e.isLt
    split
    · next h1 => change n = 1 at h1; show (0 : Nat) = e.val; omega
    · rfl

private theorem foldl_andi_all_one {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_all_one f hf l

private theorem reduce_andi_all_one {s t u : Shape} {axes : List (Fin s.rank)} (x : s.Idx → BitVec 1)
    (init : u.Idx → BitVec 1) (h : s.ReducesTo axes t) (hu : 0 < u.numel) (hi : init (Shape.Idx.first hu) = 1#1)
    (hx : ∀ i, x i = 1#1) (j : t.Idx) : Host.reduce IntOp.andi x init h hu j = 1#1 := by
  rw [Host.reduce_eq_foldl, hi]
  exact foldl_andi_all_one x hx _

private theorem wrapPos_apply (hb : S0.BroadcastsInDim SE ![]) (p : IVec SE 32) (e : Fin 600000) :
    wrapPos hb p (ix1 e)
      = Scalar.select (IntOp.cmpi .slt (p (ix1 e)) 0#32) (IntOp.addi (p (ix1 e)) 50000#32) (p (ix1 e)) := rfl

private theorem inBounds_eq_one (hb : S0.BroadcastsInDim SE ![]) (hc : SE.BroadcastsInDim SE1 ![0])
    (hz : S0.BroadcastsInDim SE1 ![]) (h1 : S1_.BroadcastsInDim S11 ![1]) (h11 : S11.BroadcastsInDim SE1 ![0, 1])
    (hr : SE1.ReducesTo [1] SE) (hs : 0 < S0.numel) (p : IVec SE 32) (hp : InRange p) (k : SE.Idx) :
    inBounds hb hc hz h1 h11 hr hs p k = 1#1 := by
  unfold inBounds
  refine reduce_andi_all_one _ _ hr hs rfl (fun i => ?_) k
  obtain ⟨e, z, rfl⟩ : ∃ e z, i = ix2 e z := ⟨i 0, i 1, eq_ix2 i⟩
  show IntOp.andi (IntOp.cmpi .sge (posCol hb hc p (ix2 e z)) 0#32) (IntOp.cmpi .sle (posCol hb hc p (ix2 e z)) 49999#32) = 1#1
  have hpos : posCol hb hc p (ix2 e z) = wrapPos hb p (ix1 e) := bcast_first hc _ e z
  rw [hpos, wrapPos_apply]
  obtain ⟨l, r⟩ := wrap_word (p (ix1 e)) (hp e).1 (hp e).2
  exact rangeTest_word _ l r

theorem select_inBounds_eq (hb : S0.BroadcastsInDim SE ![]) (hc : SE.BroadcastsInDim SE1 ![0]) (hz : S0.BroadcastsInDim SE1 ![])
    (h1 : S1_.BroadcastsInDim S11 ![1]) (h11 : S11.BroadcastsInDim SE1 ![0, 1])
    (hr : SE1.ReducesTo [1] SE) (hs : 0 < S0.numel) (hm : SE.BroadcastsInDim SED ![0])
    (p : IVec SE 32) (hp : InRange p) (fetched fill : FVec Ideal SED .f32) :
    select (broadcastInDim SED ![0] hm (inBounds hb hc hz h1 h11 hr hs p)) fetched fill = fetched := by
  funext i
  obtain ⟨e, j, rfl⟩ : ∃ e j, i = ix2 e j := ⟨i 0, i 1, eq_ix2 i⟩
  rw [select_apply, bcast_first hm _ e j, inBounds_eq_one hb hc hz h1 h11 hr hs p hp, select_one]

end Cert.Gine

end
-- ==== Proof.PreDecode.lean ====
import proofs.«405621_j9088150798515_1_alg».proof.Pre_finite_inputs
import proofs.«405621_j9088150798515_1_alg».proof.Proof.TakeFill
import Idealize.ShloMosaic.Lib.ReduceAll
import Idealize.ShloMosaic.Lib.StableHlo.Predicate
import Idealize.ShloMosaic.Lib.ValueIdx

noncomputable section

namespace Cert.Gine

open Idealize.ShloMosaic Idealize.ShloMosaic.ValueIdx
open Cert.Pre_finite_inputs Cert.Pre_finite_inputs.Facts

variable [Cert.Pre_finite_inputs.Facts]

theorem inRange_of_pre (a0 : FVec Ideal S50000x128 .f32) (a1 : IVec S2x600000 32) (a2 : FVec Ideal S600000x64 .f32) (a3 : IVec S50000 32) (a4 : FVec Ideal S4x64x128 .f32) (a5 : FVec Ideal S4x128 .f32) (a6 : FVec Ideal S4x128x128 .f32) (a7 : FVec Ideal S4x128 .f32) (a8 : FVec Ideal S4x128 .f32) (a9 : FVec Ideal S4x128 .f32) (a10 : FVec Ideal S4x128 .f32) (a11 : FVec Ideal S4x128 .f32) (a12 : FVec Ideal S4x128x128 .f32) (a13 : FVec Ideal S4x128 .f32)
    (h : Cert.Pre_finite_inputs.fn (F := Ideal) a0 a1 a2 a3 a4 a5 a6 a7 a8 a9 a10 a11 a12 a13 = (fun _ => 1#1)) :
    InRange (shapeCast S600000 (extractStridedSlice S1x600000 ![0, 0] a1 slices_S2x600000_S1x600000_0_0) shapeCasts_S1x600000_S600000) := by
  intro e
  haveI : Subsingleton S_.Idx := ⟨fun a b => funext fun d => d.elim0⟩
  have h0 := congrFun h ix0
  dsimp only [Cert.Pre_finite_inputs.fn, fn_part1, fn_part2, fn_part3, fn_part4] at h0
  obtain ⟨-, h68⟩ := IntOp.andi_eq_one.1 h0
  have hbit := Host.reduce_andi_all _ _ reducesTo_S600000_S_d0 h_S_ ix0 h68 (ix1 e)
  obtain ⟨hge, hlt⟩ := IntOp.andi_eq_one.1 hbit
  have hge' : (4294917296#32 : BitVec 32).toInt ≤ BitVec.toInt _ := IntOp.cmpi_sge.1 hge
  have hlt' : BitVec.toInt _ < (50000#32 : BitVec 32).toInt := IntOp.cmpi_slt.1 hlt
  have c1 : (4294917296#32 : BitVec 32).toInt = -50000 := by decide
  have c2 : (50000#32 : BitVec 32).toInt = 50000 := by decide
  rw [c1] at hge'
  rw [c2] at hlt'
  exact ⟨hge', hlt'⟩

end Cert.Gine

end
-- ==== Proof.Spec.lean ====
import Idealize.ShloMosaic.PureOps.Ideal
import Idealize.ShloMosaic.PureOps.Ideal.Laws
import Idealize.ShloMosaic.Lib.ValueIdx

noncomputable section

open scoped BigOperators

namespace Cert.Gine

open Idealize.ShloMosaic Idealize.ShloMosaic.ValueIdx

abbrev Mat (R C : Nat) : Type := FVec Ideal (⟨2, ![R, C]⟩ : Shape) .f32

abbrev bnEps : EReal := Ideal.ofBits .f32 0x3727C5AC#32

def edgeMsg {R : Nat} (xs : Mat R 128) (ea : Mat R 64) (W : Mat 64 128) (b : Mat 1 128) : Mat R 128 :=
  fun i => max (xs (ix2 (i 0) (i 1)) + ((∑ κ : Fin 64, ea (ix2 (i 0) κ) * W (ix2 κ (i 1))) + b (ix2 0 (i 1)))) 0

def hidden {R : Nat} (x agg : Mat R 128) (W1 : Mat 128 128) (b1 g bt rm rv : Mat 1 128) (n : Fin R) (κ : Fin 128) : EReal :=
  max (g (ix2 0 κ) * (((∑ l : Fin 128, (x (ix2 n l) + agg (ix2 n l)) * W1 (ix2 l κ)) + b1 (ix2 0 κ)) - rm (ix2 0 κ))
        * Ideal.rsqrt (rv (ix2 0 κ) + bnEps) + bt (ix2 0 κ)) 0

def nodeLin {R : Nat} (x agg : Mat R 128) (W1 : Mat 128 128) (b1 g bt rm rv : Mat 1 128) (W2 : Mat 128 128) (b2 : Mat 1 128) :
    Mat R 128 :=
  fun i => (∑ κ : Fin 128, hidden x agg W1 b1 g bt rm rv (i 0) κ * W2 (ix2 κ (i 1))) + b2 (ix2 0 (i 1))

def nodeRelu {R : Nat} (x agg : Mat R 128) (W1 : Mat 128 128) (b1 g bt rm rv : Mat 1 128) (W2 : Mat 128 128) (b2 : Mat 1 128) :
    Mat R 128 :=
  fun i => max (nodeLin x agg W1 b1 g bt rm rv W2 b2 i) 0

end Cert.Gine

end
-- ==== Proof.Rows.lean ====
import Idealize.ShloMosaic.PureOps.Ideal
import Idealize.ShloMosaic.Lib.ValueIdx
import Idealize.ShloMosaic.Lib.ValueLayout
import Idealize.ShloMosaic.Lib.Pipeline.Value

noncomputable section

namespace Cert.Gine

open Idealize.ShloMosaic Idealize.ShloMosaic.ValueIdx

def rowOf (b : FVec Ideal (⟨1, ![128]⟩ : Shape) .f32) : FVec Ideal (⟨2, ![1, 128]⟩ : Shape) .f32 :=
  fun i => b (ix1 (i 1))

theorem shapeCast_row (b : FVec Ideal (⟨1, ![128]⟩ : Shape) .f32)
    (h : (⟨1, ![128]⟩ : Shape).ShapeCasts (⟨2, ![1, 128]⟩ : Shape)) :
    shapeCast (⟨2, ![1, 128]⟩ : Shape) b h = rowOf b := by
  funext i
  refine (shapeCast_apply b h i (ix1 (i 1)) ?_).trans rfl
  rw [Shape.rowMajor_val_one, Shape.rowMajor_val_two]
  have h0 := idx2_lt0 i
  show (i 1).val = (i 0).val * 128 + (i 1).val
  omega

theorem bcast_rows_apply {R : Nat} (b : FVec Ideal (⟨1, ![128]⟩ : Shape) .f32)
    (h1 : (⟨1, ![128]⟩ : Shape).BroadcastsInDim (⟨2, ![1, 128]⟩ : Shape) ![1])
    (h2 : (⟨2, ![1, 128]⟩ : Shape).BroadcastsInDim (⟨2, ![R, 128]⟩ : Shape) ![0, 1]) (n : Fin R) (j : Fin 128) :
    broadcastInDim (⟨2, ![R, 128]⟩ : Shape) ![0, 1] h2 (broadcastInDim (⟨2, ![1, 128]⟩ : Shape) ![1] h1 b) (ix2 n j)
      = rowOf b (ix2 0 j) := by
  refine (broadcastInDim_apply _ h2 _ (ix2 n j) (ix2 0 j) ?_).trans ?_
  · intro a
    match a with
    | ⟨0, _⟩ => rfl
    | ⟨1, _⟩ => rfl
  · refine (broadcastInDim_apply _ h1 b (ix2 0 j) (ix1 j) ?_).trans rfl
    intro a
    match a with
    | ⟨0, _⟩ => rfl

end Cert.Gine

end
-- ==== Proof.KDefs.lean ====
import proofs.«405621_j9088150798515_1_alg».proof.Proof.Gen.KernelIdeal.Frame
import proofs.«405621_j9088150798515_1_alg».proof.Proof.Spec
import proofs.«405621_j9088150798515_1_alg».proof.Proof.Rows
import proofs.«405621_j9088150798515_1_alg».proof.Proof.TakeFill

noncomputable section

namespace Cert.KernelIdeal.Val

open Idealize.ShloMosaic Idealize.ShloMosaic.TcCoe Idealize.ShloMosaic.ValueIdx Idealize.SL.Sem
open Cert.KernelIdeal Cert.KernelIdeal.Gen Cert.Gine

def srcK (ei : IVec S2x600000 32) : IVec S600000 32 :=
  shapeCast S600000 (extractStridedSlice S1x600000 ![0, 0] ei slices_S2x600000_S1x600000_0_0) shapeCasts_S1x600000_S600000

def dstK (ei : IVec S2x600000 32) : IVec S600000 32 :=
  shapeCast S600000 (extractStridedSlice S1x600000 ![1, 0] ei slices_S2x600000_S1x600000_1_0) shapeCasts_S1x600000_S600000

def fetchK (ei : IVec S2x600000 32) (X : FVec Ideal S50000x128 .f32) : FVec Ideal S600000x128 .f32 :=
  Host.gather gather_S50000x128_S600000x1_S600000x128_1_0_n_n_0_1_1128 X
    (posCol bcast_S_S600000 bcast_S600000_S600000x1_0 (srcK ei))

def takeK (ei : IVec S2x600000 32) (X : FVec Ideal S50000x128 .f32) : FVec Ideal S600000x128 .f32 :=
  select
    (broadcastInDim S600000x128 ![0] bcast_S600000_S600000x128_0
      (inBounds bcast_S_S600000 bcast_S600000_S600000x1_0 bcast_S_S600000x1 bcast_S1_S1x1_1 bcast_S1x1_S600000x1_0_1
        reducesTo_S600000x1_S600000_d1 h_S_ (srcK ei)))
    (fetchK ei X)
    (broadcastInDim S600000x128 ![] bcast_S_S600000x128 (constant (F := Ideal) S_ .f32 0x7FC00000#32))

def aggK (ei : IVec S2x600000 32) (msg : FVec Ideal S600000x128 .f32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 (dstK ei)) msg

def weK (a : FVec Ideal S4x64x128 .f32) : Fin 4 → FVec Ideal S64x128 .f32
  | 0 => shapeCast S64x128 (extractStridedSlice S1x64x128 ![0, 0, 0] a slices_S4x64x128_S1x64x128_0_0_0) shapeCasts_S1x64x128_S64x128
  | 1 => shapeCast S64x128 (extractStridedSlice S1x64x128 ![1, 0, 0] a slices_S4x64x128_S1x64x128_1_0_0) shapeCasts_S1x64x128_S64x128
  | 2 => shapeCast S64x128 (extractStridedSlice S1x64x128 ![2, 0, 0] a slices_S4x64x128_S1x64x128_2_0_0) shapeCasts_S1x64x128_S64x128
  | 3 => shapeCast S64x128 (extractStridedSlice S1x64x128 ![3, 0, 0] a slices_S4x64x128_S1x64x128_3_0_0) shapeCasts_S1x64x128_S64x128

def matK (a : FVec Ideal S4x128x128 .f32) : Fin 4 → FVec Ideal S128x128 .f32
  | 0 => shapeCast S128x128 (extractStridedSlice S1x128x128 ![0, 0, 0] a slices_S4x128x128_S1x128x128_0_0_0) shapeCasts_S1x128x128_S128x128
  | 1 => shapeCast S128x128 (extractStridedSlice S1x128x128 ![1, 0, 0] a slices_S4x128x128_S1x128x128_1_0_0) shapeCasts_S1x128x128_S128x128
  | 2 => shapeCast S128x128 (extractStridedSlice S1x128x128 ![2, 0, 0] a slices_S4x128x128_S1x128x128_2_0_0) shapeCasts_S1x128x128_S128x128
  | 3 => shapeCast S128x128 (extractStridedSlice S1x128x128 ![3, 0, 0] a slices_S4x128x128_S1x128x128_3_0_0) shapeCasts_S1x128x128_S128x128

def vecK (a : FVec Ideal S4x128 .f32) : Fin 4 → FVec Ideal S128 .f32
  | 0 => shapeCast S128 (extractStridedSlice S1x128 ![0, 0] a slices_S4x128_S1x128_0_0) shapeCasts_S1x128_S128
  | 1 => shapeCast S128 (extractStridedSlice S1x128 ![1, 0] a slices_S4x128_S1x128_1_0) shapeCasts_S1x128_S128
  | 2 => shapeCast S128 (extractStridedSlice S1x128 ![2, 0] a slices_S4x128_S1x128_2_0) shapeCasts_S1x128_S128
  | 3 => shapeCast S128 (extractStridedSlice S1x128 ![3, 0] a slices_S4x128_S1x128_3_0) shapeCasts_S1x128_S128

theorem takeK_eq_fetchK (ei : IVec S2x600000 32) (h : InRange (srcK ei)) (X : FVec Ideal S50000x128 .f32) :
    takeK ei X = fetchK ei X :=
  select_inBounds_eq bcast_S_S600000 bcast_S600000_S600000x1_0 bcast_S_S600000x1 bcast_S1_S1x1_1 bcast_S1x1_S600000x1_0_1
    reducesTo_S600000x1_S600000_d1 h_S_ bcast_S600000_S600000x128_0 (srcK ei) h _ _

def layerRelu (ℓ : Fin 4) (ei : IVec S2x600000 32) (ea : FVec Ideal S600000x64 .f32) (a4 : FVec Ideal S4x64x128 .f32)
    (a5 : FVec Ideal S4x128 .f32) (a6 : FVec Ideal S4x128x128 .f32) (a7 a8 a9 a10 a11 : FVec Ideal S4x128 .f32)
    (a12 : FVec Ideal S4x128x128 .f32) (a13 : FVec Ideal S4x128 .f32) (X : FVec Ideal S50000x128 .f32) :
    FVec Ideal S50000x128 .f32 :=
  nodeRelu (R := 50000) X (aggK ei (edgeMsg (R := 600000) (takeK ei X) ea (weK a4 ℓ) (rowOf (vecK a5 ℓ))))
    (matK a6 ℓ) (rowOf (vecK a7 ℓ)) (rowOf (vecK a8 ℓ)) (rowOf (vecK a9 ℓ)) (rowOf (vecK a10 ℓ)) (rowOf (vecK a11 ℓ))
    (matK a12 ℓ) (rowOf (vecK a13 ℓ))

def layerLin (ℓ : Fin 4) (ei : IVec S2x600000 32) (ea : FVec Ideal S600000x64 .f32) (a4 : FVec Ideal S4x64x128 .f32)
    (a5 : FVec Ideal S4x128 .f32) (a6 : FVec Ideal S4x128x128 .f32) (a7 a8 a9 a10 a11 : FVec Ideal S4x128 .f32)
    (a12 : FVec Ideal S4x128x128 .f32) (a13 : FVec Ideal S4x128 .f32) (X : FVec Ideal S50000x128 .f32) :
    FVec Ideal S50000x128 .f32 :=
  nodeLin (R := 50000) X (aggK ei (edgeMsg (R := 600000) (takeK ei X) ea (weK a4 ℓ) (rowOf (vecK a5 ℓ))))
    (matK a6 ℓ) (rowOf (vecK a7 ℓ)) (rowOf (vecK a8 ℓ)) (rowOf (vecK a9 ℓ)) (rowOf (vecK a10 ℓ)) (rowOf (vecK a11 ℓ))
    (matK a12 ℓ) (rowOf (vecK a13 ℓ))

end Cert.KernelIdeal.Val

end
-- ==== Proof.KPass.lean ====
import proofs.«405621_j9088150798515_1_alg».proof.Proof.Gen.KernelIdeal.Frame
import Idealize.ShloMosaic.Lib.StableHlo.Run

set_option maxRecDepth 16384

noncomputable section

namespace Cert.KernelIdeal.Pass

open Idealize.ShloMosaic Idealize.ShloMosaic.TcCoe Idealize.SL.Sem
open Cert.KernelIdeal Cert.KernelIdeal.Gen

variable {F : FTy → Type} [FloatOps F]

/-- What segment k + 1 of @main writes: a host stretch the results of its operations, a launch its output array. -/
def wr : Nat → List (Ref sig .tc)
  | 0 => [main_v0, main_v1, main_v2, main_v3]
  | 1 => [main_call0_c, main_call0_v0, main_call0_v1, main_call0_c_0, main_call0_v2, main_call0_v3, main_call0_v4,
      main_call0_v5, main_call0_c_1, main_call0_c_2, main_call0_v6, main_call0_v7, main_call0_v8,
      main_call0_v9, main_call0_v10, main_call0_v11, main_call0_c_3, main_call0_v12, main_call0_v13,
      main_call0_v14, main_call0_cst, main_call0_v15, main_v4]
  | 2 => [main_v5, main_v6, main_v7, main_v8, main_v9]
  | 3 => [main_v10]
  | 4 => [main_cst, main_v11, main_v12, main_v13, main_v14, main_v15, main_v16, main_v17, main_v18, main_v19,
      main_v20, main_v21, main_v22, main_v23, main_v24, main_v25, main_v26, main_v27, main_v28, main_v29,
      main_v30, main_v31, main_v32, main_v33, main_v34, main_v35]
  | 5 => [main_v36]
  | 6 => [main_call1_c, main_call1_v0, main_call1_v1, main_call1_c_0, main_call1_v2, main_call1_v3, main_call1_v4,
      main_call1_v5, main_call1_c_1, main_call1_c_2, main_call1_v6, main_call1_v7, main_call1_v8,
      main_call1_v9, main_call1_v10, main_call1_v11, main_call1_c_3, main_call1_v12, main_call1_v13,
      main_call1_v14, main_call1_cst, main_call1_v15, main_v37]
  | 7 => [main_v38, main_v39, main_v40, main_v41, main_v42]
  | 8 => [main_v43]
  | 9 => [main_cst_0, main_v44, main_v45, main_v46, main_v47, main_v48, main_v49, main_v50, main_v51, main_v52,
      main_v53, main_v54, main_v55, main_v56, main_v57, main_v58, main_v59, main_v60, main_v61, main_v62,
      main_v63, main_v64, main_v65, main_v66, main_v67, main_v68]
  | 10 => [main_v69]
  | 11 => [main_call2_c, main_call2_v0, main_call2_v1, main_call2_c_0, main_call2_v2, main_call2_v3, main_call2_v4,
      main_call2_v5, main_call2_c_1, main_call2_c_2, main_call2_v6, main_call2_v7, main_call2_v8,
      main_call2_v9, main_call2_v10, main_call2_v11, main_call2_c_3, main_call2_v12, main_call2_v13,
      main_call2_v14, main_call2_cst, main_call2_v15, main_v70]
  | 12 => [main_v71, main_v72, main_v73, main_v74, main_v75]
  | 13 => [main_v76]
  | 14 => [main_cst_1, main_v77, main_v78, main_v79, main_v80, main_v81, main_v82, main_v83, main_v84, main_v85,
      main_v86, main_v87, main_v88, main_v89, main_v90, main_v91, main_v92, main_v93, main_v94, main_v95,
      main_v96, main_v97, main_v98, main_v99, main_v100, main_v101]
  | 15 => [main_v102]
  | 16 => [main_call3_c, main_call3_v0, main_call3_v1, main_call3_c_0, main_call3_v2, main_call3_v3, main_call3_v4,
      main_call3_v5, main_call3_c_1, main_call3_c_2, main_call3_v6, main_call3_v7, main_call3_v8,
      main_call3_v9, main_call3_v10, main_call3_v11, main_call3_c_3, main_call3_v12, main_call3_v13,
      main_call3_v14, main_call3_cst, main_call3_v15, main_v103]
  | 17 => [main_v104, main_v105, main_v106, main_v107, main_v108]
  | 18 => [main_v109]
  | 19 => [main_cst_2, main_v110, main_v111, main_v112, main_v113, main_v114, main_v115, main_v116, main_v117,
      main_v118, main_v119, main_v120, main_v121, main_v122, main_v123, main_v124, main_v125, main_v126,
      main_v127, main_v128, main_v129, main_v130, main_v131, main_v132, main_v133, main_v134]
  | 20 => [main_v135]
  | 21 => [main_cst_3, main_v136, main_v137, main_v138, main_cst_4, main_v139, main_cst_5, main_v140, main_v141,
      main_v142, main_cst_6, main_v143, main_v144, main_v145, main_v146, main_v147]
  | _ => []

private abbrev Wr (ops : List (HloOp τ sig (Elt F))) (k : Nat) : Prop :=
  ops.Forall fun op => op.writes ⊆ ((wr k).map (Proc.devRef (τ := τ) .tc)).toFinset

private theorem hw :
    Wr (F := F) hostOps0 0 ∧ Wr (F := F) hostOps0_1 1 ∧ Wr (F := F) hostOps0_2 2 ∧ Wr (F := F) hostOps1 4
    ∧ Wr (F := F) hostOps2 6 ∧ Wr (F := F) hostOps2_1 7 ∧ Wr (F := F) hostOps3 9 ∧ Wr (F := F) hostOps4 11
    ∧ Wr (F := F) hostOps4_1 12 ∧ Wr (F := F) hostOps5 14 ∧ Wr (F := F) hostOps6 16 ∧ Wr (F := F) hostOps6_1 17
    ∧ Wr (F := F) hostOps7 19 ∧ Wr (F := F) hostOps8 21 := by
  refine ⟨?_, ?_, ?_, ?_, ?_, ?_, ?_, ?_, ?_, ?_, ?_, ?_, ?_, ?_⟩ <;>
    simp only [Wr, wr, hostOps0, hostOps0_1, hostOps0_2, hostOps1, hostOps2, hostOps2_1, hostOps3, hostOps4,
      hostOps4_1, hostOps5, hostOps6, hostOps6_1, hostOps7, hostOps8, List.Forall, StableHlo.nullary_writes,
      StableHlo.unary_writes, StableHlo.binary_writes, StableHlo.ternary_writes, StableHlo.quaternary_writes,
      StableHlo.reshape_writes, StableHlo.binaryIndexed_writes,
      Finset.singleton_subset_iff, List.mem_toFinset] <;>
    (repeat' apply And.intro) <;> exact List.mem_map_of_mem (by decide)

/-- A launch changes only the arrays whose final contents differ from what it found. -/
private theorem withArrays_keep {gr Wd : Nat} (win : Fin Wd → Pipeline.WinSpec sig gr)
    (hinj : Function.Injective (Pipeline.arrRef win)) (c : Dev nD) (V : Valuation τ sig (Elt F))
    (A : (w : Fin Wd) → Buf (Elt F) ((win w).arr.view.loc (c.tc : Thread nD τ))) (b : Ref sig .tc)
    (h : ∀ w, Pipeline.arrRef win w = b → A w = V (Proc.devRef .tc (Pipeline.arrRef win w))) :
    Pipeline.withArrays win c V A (Proc.devRef .tc b) = V (Proc.devRef .tc b) := by
  by_cases hb : ∀ w, Pipeline.arrRef win w ≠ b
  · exact Pipeline.withArrays_of_ne win c V A b hb
  · obtain ⟨w, rfl⟩ : ∃ w, Pipeline.arrRef win w = b := by
      by_contra h'
      exact hb fun w e => h' ⟨w, e⟩
    exact (Pipeline.withArrays_arr win hinj c V A w).trans (h w rfl)

variable (m : (ℓ : Loc nD τ sig) → Buf (Elt F) ℓ) (ρ : Dev nD → PrngReg)

/-- The buffers at boundary k of @main. -/
def Wn : Nat → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | 15 => W15 m ρ
  | 16 => W16 m ρ
  | 17 => W17 m ρ
  | 18 => W18 m ρ
  | 19 => W19 m ρ
  | 20 => W20 m ρ
  | 21 => W21 m ρ
  | _ => W22 m ρ

variable (c : Dev nD) (b : Ref sig .tc)

theorem s1 (h : b ∉ wr 0) : W1 m ρ c (Proc.devRef .tc b) = W0 m ρ c (Proc.devRef .tc b) :=
  StableHlo.after_of_writes_sub hostOps0 _ hw.1 h
theorem s2 (h : b ∉ wr 1) : W2 m ρ c (Proc.devRef .tc b) = W1 m ρ c (Proc.devRef .tc b) :=
  StableHlo.after_of_writes_sub hostOps0_1 _ hw.2.1 h
theorem s3 (h : b ∉ wr 2) : W3 m ρ c (Proc.devRef .tc b) = W2 m ρ c (Proc.devRef .tc b) :=
  StableHlo.after_of_writes_sub hostOps0_2 _ hw.2.2.1 h
theorem s4 (h : b ∉ wr 3) : W4 m ρ c (Proc.devRef .tc b) = W3 m ρ c (Proc.devRef .tc b) :=
  withArrays_keep spec0 launch0.win.arr_inj c _ _ b fun w e =>
    ((dat0 (V3 m ρ) c).arrAt_in w ((by decide : ∀ w,
      Pipeline.arrRef spec0 w ≠ main_v10 → (cfg0.win w).isOut = false) w
      (ne_of_eq_of_ne e (List.ne_of_not_mem_cons h))) _).trans (A_eq0 (V3 m ρ) c w)
theorem s5 (h : b ∉ wr 4) : W5 m ρ c (Proc.devRef .tc b) = W4 m ρ c (Proc.devRef .tc b) :=
  StableHlo.after_of_writes_sub hostOps1 _ hw.2.2.2.1 h
theorem s6 (h : b ∉ wr 5) : W6 m ρ c (Proc.devRef .tc b) = W5 m ρ c (Proc.devRef .tc b) :=
  withArrays_keep spec1 launch1.win.arr_inj c _ _ b fun w e =>
    ((dat1 (V5 m ρ) c).arrAt_in w ((by decide : ∀ w,
      Pipeline.arrRef spec1 w ≠ main_v36 → (cfg1.win w).isOut = false) w
      (ne_of_eq_of_ne e (List.ne_of_not_mem_cons h))) _).trans (A_eq1 (V5 m ρ) c w)
theorem s7 (h : b ∉ wr 6) : W7 m ρ c (Proc.devRef .tc b) = W6 m ρ c (Proc.devRef .tc b) :=
  StableHlo.after_of_writes_sub hostOps2 _ hw.2.2.2.2.1 h
theorem s8 (h : b ∉ wr 7) : W8 m ρ c (Proc.devRef .tc b) = W7 m ρ c (Proc.devRef .tc b) :=
  StableHlo.after_of_writes_sub hostOps2_1 _ hw.2.2.2.2.2.1 h
theorem s9 (h : b ∉ wr 8) : W9 m ρ c (Proc.devRef .tc b) = W8 m ρ c (Proc.devRef .tc b) :=
  withArrays_keep spec2 launch2.win.arr_inj c _ _ b fun w e =>
    ((dat2 (V8 m ρ) c).arrAt_in w ((by decide : ∀ w,
      Pipeline.arrRef spec2 w ≠ main_v43 → (cfg2.win w).isOut = false) w
      (ne_of_eq_of_ne e (List.ne_of_not_mem_cons h))) _).trans (A_eq2 (V8 m ρ) c w)
theorem s10 (h : b ∉ wr 9) : W10 m ρ c (Proc.devRef .tc b) = W9 m ρ c (Proc.devRef .tc b) :=
  StableHlo.after_of_writes_sub hostOps3 _ hw.2.2.2.2.2.2.1 h
theorem s11 (h : b ∉ wr 10) : W11 m ρ c (Proc.devRef .tc b) = W10 m ρ c (Proc.devRef .tc b) :=
  withArrays_keep spec3 launch3.win.arr_inj c _ _ b fun w e =>
    ((dat3 (V10 m ρ) c).arrAt_in w ((by decide : ∀ w,
      Pipeline.arrRef spec3 w ≠ main_v69 → (cfg3.win w).isOut = false) w
      (ne_of_eq_of_ne e (List.ne_of_not_mem_cons h))) _).trans (A_eq3 (V10 m ρ) c w)
theorem s12 (h : b ∉ wr 11) : W12 m ρ c (Proc.devRef .tc b) = W11 m ρ c (Proc.devRef .tc b) :=
  StableHlo.after_of_writes_sub hostOps4 _ hw.2.2.2.2.2.2.2.1 h
theorem s13 (h : b ∉ wr 12) : W13 m ρ c (Proc.devRef .tc b) = W12 m ρ c (Proc.devRef .tc b) :=
  StableHlo.after_of_writes_sub hostOps4_1 _ hw.2.2.2.2.2.2.2.2.1 h
theorem s14 (h : b ∉ wr 13) : W14 m ρ c (Proc.devRef .tc b) = W13 m ρ c (Proc.devRef .tc b) :=
  withArrays_keep spec4 launch4.win.arr_inj c _ _ b fun w e =>
    ((dat4 (V13 m ρ) c).arrAt_in w ((by decide : ∀ w,
      Pipeline.arrRef spec4 w ≠ main_v76 → (cfg4.win w).isOut = false) w
      (ne_of_eq_of_ne e (List.ne_of_not_mem_cons h))) _).trans (A_eq4 (V13 m ρ) c w)
theorem s15 (h : b ∉ wr 14) : W15 m ρ c (Proc.devRef .tc b) = W14 m ρ c (Proc.devRef .tc b) :=
  StableHlo.after_of_writes_sub hostOps5 _ hw.2.2.2.2.2.2.2.2.2.1 h
theorem s16 (h : b ∉ wr 15) : W16 m ρ c (Proc.devRef .tc b) = W15 m ρ c (Proc.devRef .tc b) :=
  withArrays_keep spec5 launch5.win.arr_inj c _ _ b fun w e =>
    ((dat5 (V15 m ρ) c).arrAt_in w ((by decide : ∀ w,
      Pipeline.arrRef spec5 w ≠ main_v102 → (cfg5.win w).isOut = false) w
      (ne_of_eq_of_ne e (List.ne_of_not_mem_cons h))) _).trans (A_eq5 (V15 m ρ) c w)
theorem s17 (h : b ∉ wr 16) : W17 m ρ c (Proc.devRef .tc b) = W16 m ρ c (Proc.devRef .tc b) :=
  StableHlo.after_of_writes_sub hostOps6 _ hw.2.2.2.2.2.2.2.2.2.2.1 h
theorem s18 (h : b ∉ wr 17) : W18 m ρ c (Proc.devRef .tc b) = W17 m ρ c (Proc.devRef .tc b) :=
  StableHlo.after_of_writes_sub hostOps6_1 _ hw.2.2.2.2.2.2.2.2.2.2.2.1 h
theorem s19 (h : b ∉ wr 18) : W19 m ρ c (Proc.devRef .tc b) = W18 m ρ c (Proc.devRef .tc b) :=
  withArrays_keep spec6 launch6.win.arr_inj c _ _ b fun w e =>
    ((dat6 (V18 m ρ) c).arrAt_in w ((by decide : ∀ w,
      Pipeline.arrRef spec6 w ≠ main_v109 → (cfg6.win w).isOut = false) w
      (ne_of_eq_of_ne e (List.ne_of_not_mem_cons h))) _).trans (A_eq6 (V18 m ρ) c w)
theorem s20 (h : b ∉ wr 19) : W20 m ρ c (Proc.devRef .tc b) = W19 m ρ c (Proc.devRef .tc b) :=
  StableHlo.after_of_writes_sub hostOps7 _ hw.2.2.2.2.2.2.2.2.2.2.2.2.1 h
theorem s21 (h : b ∉ wr 20) : W21 m ρ c (Proc.devRef .tc b) = W20 m ρ c (Proc.devRef .tc b) :=
  withArrays_keep spec7 launch7.win.arr_inj c _ _ b fun w e =>
    ((dat7 (V20 m ρ) c).arrAt_in w ((by decide : ∀ w,
      Pipeline.arrRef spec7 w ≠ main_v135 → (cfg7.win w).isOut = false) w
      (ne_of_eq_of_ne e (List.ne_of_not_mem_cons h))) _).trans (A_eq7 (V20 m ρ) c w)
theorem s22 (h : b ∉ wr 21) : W22 m ρ c (Proc.devRef .tc b) = W21 m ρ c (Proc.devRef .tc b) :=
  StableHlo.after_of_writes_sub hostOps8 _ hw.2.2.2.2.2.2.2.2.2.2.2.2.2 h

/-- Segment k + 1 leaves alone every buffer it does not write. -/
theorem step (k : Nat) (hk : k < 22) (h : b ∉ wr k) :
    Wn m ρ (k + 1) c (Proc.devRef .tc b) = Wn m ρ k c (Proc.devRef .tc b) := by
  have : k = 0 ∨ k = 1 ∨ k = 2 ∨ k = 3 ∨ k = 4 ∨ k = 5 ∨ k = 6 ∨ k = 7 ∨ k = 8 ∨ k = 9 ∨ k = 10 ∨ k = 11 ∨ k = 12 ∨
    k = 13 ∨ k = 14 ∨ k = 15 ∨ k = 16 ∨ k = 17 ∨ k = 18 ∨ k = 19 ∨ k = 20 ∨ k = 21 := by omega
  rcases this with rfl | rfl | rfl | rfl | rfl | rfl | rfl | rfl | rfl | rfl | rfl | rfl | rfl | rfl | rfl | rfl |
    rfl | rfl | rfl | rfl | rfl | rfl
  exacts [s1 m ρ c b h, s2 m ρ c b h, s3 m ρ c b h, s4 m ρ c b h, s5 m ρ c b h, s6 m ρ c b h, s7 m ρ c b h,
    s8 m ρ c b h, s9 m ρ c b h, s10 m ρ c b h, s11 m ρ c b h, s12 m ρ c b h, s13 m ρ c b h, s14 m ρ c b h,
    s15 m ρ c b h, s16 m ρ c b h, s17 m ρ c b h, s18 m ρ c b h, s19 m ρ c b h, s20 m ρ c b h, s21 m ρ c b h,
    s22 m ρ c b h]

private theorem keep' (i : Nat) : ∀ d, i + d ≤ 22 → (∀ k, k < i + d → i ≤ k → b ∉ wr k) →
    Wn m ρ (i + d) c (Proc.devRef .tc b) = Wn m ρ i c (Proc.devRef .tc b)
  | 0, _, _ => rfl
  | d + 1, hj, h => (step m ρ c b (i + d) (by omega) (h (i + d) (by omega) (by omega))).trans
      (keep' i d (by omega) fun k h1 h2 => h k (by omega) h2)

/-- Between two boundaries a buffer that no segment in between writes keeps its contents. -/
theorem keep (i j : Nat) (hij : i ≤ j := by decide) (hj : j ≤ 22 := by decide)
    (h : ∀ k, k < j → i ≤ k → b ∉ wr k := by decide) :
    Wn m ρ j c (Proc.devRef .tc b) = Wn m ρ i c (Proc.devRef .tc b) := by
  obtain ⟨d, rfl⟩ := Nat.exists_eq_add_of_le hij
  exact keep' m ρ c b i d hj h

/-- A buffer no segment writes holds its launch contents at every boundary. -/
theorem arg (j : Nat) (hj : j ≤ 22 := by decide) (h : ∀ k, k < 22 → b ∉ wr k := by decide) :
    Wn m ρ j c (Proc.devRef .tc b) = m ((c : Thread nD τ).loc b) :=
  (keep m ρ c b 0 j (Nat.zero_le j) hj fun k hk _ => h k (by omega)).trans rfl

end Cert.KernelIdeal.Pass

end
-- ==== Proof.LibDot.lean ====
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.KEdge0.lean ====
import proofs.«405621_j9088150798515_1_alg».proof.Proof.Gen.KernelIdeal.Frame
import proofs.«405621_j9088150798515_1_alg».proof.Proof.Spec
import proofs.«405621_j9088150798515_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gine

variable (V : (c : Dev nD) → (b : Ref sig .tc) → Buf (Elt Ideal) ((c : Thread nD τ).loc b))

private theorem hz0 : (![0, 0] : Fin 2 → Nat) = fun _ => 0 := funext fun a => by fin_cases a <;> rfl

private theorem out0_4_eq (x0 : Vec Ideal S12000x128 .f32) (x1 : Vec Ideal S12000x64 .f32) (x2 : Vec Ideal S64x128 .f32)
    (x3 : Vec Ideal S1x128 .f32) :
    out0_4 (F := Ideal) x0 x1 x2 x3 = edgeMsg (R := 12000) x0 x1 x2 x3 := by
  funext j
  obtain ⟨p, q, rfl⟩ : ∃ p q, j = ix2 p q := ⟨j 0, j 1, eq_ix2 j⟩
  unfold out0_4
  rw [View.canon_unit_zero hz0]
  simp only [View.ld_unit_zero (S := S12000x128) hz0, View.ld_unit_zero (S := S12000x64) hz0,
    View.ld_unit_zero (S := S64x128) hz0, View.ld_unit_zero (S := S1x128) hz0]
  unfold k0_pay1
  simp only [maximumf_apply, addf_apply, broadcast_apply, shapeCast_self, matmul]
  rw [Cert.LibDot.matmul_rows_apply _ rfl rfl rfl rfl rfl rfl]
  rw [broadcastTo_apply x3 broadcasts_S1x128_S12000x128 (ix2 p q) (ix2 0 q) (fun a => by
    match a with
    | ⟨0, _⟩ => rfl
    | ⟨1, _⟩ => rfl)]
  simp only [constant_apply, truncf_apply, Ideal.ofBits_zero_f32, zero_add]
  rw [show (FloatOps.ofBits (F := Ideal) .f32 0x00000000#32) = (0 : EReal) from Ideal.ofBits_zero_f32]
  rfl

private theorem edgeMsg_row {R R' : Nat} (xs : Mat R 128) (ea : Mat R 64) (W : Mat 64 128) (b : Mat 1 128)
    (xs' : Mat R' 128) (ea' : Mat R' 64) (W' : Mat 64 128) (b' : Mat 1 128) (r : Fin R) (r' : Fin R') (q : Fin 128)
    (h0 : xs (ix2 r q) = xs' (ix2 r' q)) (h1 : ∀ κ : Fin 64, ea (ix2 r κ) = ea' (ix2 r' κ))
    (h2 : ∀ κ : Fin 64, W (ix2 κ q) = W' (ix2 κ q)) (h3 : b (ix2 0 q) = b' (ix2 0 q)) :
    edgeMsg xs ea W b (ix2 r q) = edgeMsg xs' ea' W' b' (ix2 r' q) := by
  show max (xs (ix2 r q) + ((∑ κ : Fin 64, ea (ix2 r κ) * W (ix2 κ q)) + b (ix2 0 q))) 0
    = max (xs' (ix2 r' q) + ((∑ κ : Fin 64, ea' (ix2 r' κ) * W' (ix2 κ q)) + b' (ix2 0 q))) 0
  rw [h0, h3, Finset.sum_congr rfl fun κ _ => by rw [h1 κ, h2 κ]]

private theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

private theorem flushed0_4_eq (c : Dev nD) (t : Fin cfg0.N) :
    (dat0 (F := Ideal) V c).flushed 4 t
      = ((cfg0.win 4).blk t).view.read (Elt Ideal)
          (edgeMsg (R := 600000) (V c main_v4) (V c main_arg2) (V c main_v6) (V c main_v9)) := by
  show (cfg0.win 4).cut (grid0.coords t) ((dat0 (F := Ideal) V c).after 4 t) = _
  rw [after0_4]
  rw [out0_4_eq (iblk0 V c 0 t) (iblk0 V c 1 t) (iblk0 V c 2 t) (iblk0 V c 3 t)]
  obtain ⟨e00, e01, e10, e11, e20, e21, e30, e31, e40, e41⟩ := idx_facts0 t
  funext j
  have hj0 : (j 0).val < 12000 := (j 0).isLt
  have hj1 : (j 1).val < 128 := (j 1).isLt
  show edgeMsg (R := 12000) (iblk0 V c 0 t) (iblk0 V c 1 t) (iblk0 V c 2 t) (iblk0 V c 3 t)
      (ix2 (n0 := 12000) (n1 := 128) ⟨(j 0).val, hj0⟩ ⟨(j 1).val, hj1⟩)
    = edgeMsg (R := 600000) (V c main_v4) (V c main_arg2) (V c main_v6) (V c main_v9)
      (ix2 (n0 := 600000) (n1 := 128) ((((cfg0.win 4).blk t).view.emb j) 0) ((((cfg0.win 4).blk t).view.emb j) 1))
  have ht : t.val < 50 := lt_of_lt_of_eq t.isLt N_0
  have hE0 : ((cfg0.win 4).blk t).view.emb j 0 = (⟨t.val * 12000 + (j 0).val, by omega⟩ : Fin 600000) :=
    Fin.ext (by show win0_4.index t (0 : Fin 2) * 12000 + 1 * (j 0).val = t.val * 12000 + (j 0).val; omega)
  have hE1 : ((cfg0.win 4).blk t).view.emb j 1 = (⟨(j 1).val, hj1⟩ : Fin 128) :=
    Fin.ext (by show win0_4.index t (1 : Fin 2) * 128 + 1 * (j 1).val = (j 1).val; omega)
  rw [hE0, hE1]
  apply edgeMsg_row
  · show V c main_v4 (((cfg0.win 0).blk t).view.emb (ix2 (n0 := 12000) (n1 := 128) ⟨(j 0).val, hj0⟩ ⟨(j 1).val, hj1⟩)) = _
    refine congrArg (V c main_v4) (funext fun a => Fin.ext ?_)
    match a with
    | ⟨0, _⟩ => show win0_0.index t (0 : Fin 2) * 12000 + 1 * (j 0).val = t.val * 12000 + (j 0).val; omega
    | ⟨1, _⟩ => show win0_0.index t (1 : Fin 2) * 128 + 1 * (j 1).val = (j 1).val; omega
  · intro κ
    have hκ : κ.val < 64 := κ.isLt
    show V c main_arg2 (((cfg0.win 1).blk t).view.emb (ix2 (n0 := 12000) (n1 := 64) ⟨(j 0).val, hj0⟩ κ)) = _
    refine congrArg (V c main_arg2) (funext fun a => Fin.ext ?_)
    match a with
    | ⟨0, _⟩ => show win0_1.index t (0 : Fin 2) * 12000 + 1 * (j 0).val = t.val * 12000 + (j 0).val; omega
    | ⟨1, _⟩ => show win0_1.index t (1 : Fin 2) * 64 + 1 * κ.val = κ.val; omega
  · intro κ
    have hκ : κ.val < 64 := κ.isLt
    show V c main_v6 (((cfg0.win 2).blk t).view.emb (ix2 (n0 := 64) (n1 := 128) κ ⟨(j 1).val, hj1⟩)) = _
    refine congrArg (V c main_v6) (funext fun a => Fin.ext ?_)
    match a with
    | ⟨0, _⟩ => show win0_2.index t (0 : Fin 2) * 64 + 1 * κ.val = κ.val; omega
    | ⟨1, _⟩ => show win0_2.index t (1 : Fin 2) * 128 + 1 * (j 1).val = (j 1).val; omega
  · show V c main_v9 (((cfg0.win 3).blk t).view.emb (ix2 (n0 := 1) (n1 := 128) 0 ⟨(j 1).val, hj1⟩)) = _
    refine congrArg (V c main_v9) (funext fun a => Fin.ext ?_)
    match a with
    | ⟨0, _⟩ => show win0_3.index t (0 : Fin 2) * 1 + 1 * 0 = 0; omega
    | ⟨1, _⟩ => show win0_3.index t (1 : Fin 2) * 128 + 1 * (j 1).val = (j 1).val; omega

private theorem mem_blk0_4 (t : Fin cfg0.N) (i : S600000x128.Idx) :
    i ∈ ((cfg0.win 4).blk t).view.set ↔ ∀ a : Fin 2, win0_4.index t a * S12000x128.size a ≤ (i a).val
      ∧ (i a).val < win0_4.index t a * S12000x128.size a + S12000x128.size a := by
  show i ∈ ((View.whole main_v10).slice (win0_4.rect t)).set ↔ _
  rw [View.set_slice_whole, Rect.mem_set_unit]
  exact Iff.rfl

private theorem covered0_4 (i : S600000x128.Idx) :
    ∃ t : Fin cfg0.N, (cfg0.win 4).flush t = true ∧ i ∈ ((cfg0.win 4).blk t).view.set := by
  have hi0 : (i 0).val < 600000 := (i 0).isLt
  have hi1 : (i 1).val < 128 := (i 1).isLt
  obtain ⟨t, ht⟩ : ∃ t : Fin cfg0.N, t.val = (i 0).val / 12000 :=
    ⟨⟨(i 0).val / 12000, lt_of_lt_of_eq (by omega : (i 0).val / 12000 < 50) N_0.symm⟩, rfl⟩
  obtain ⟨-, -, -, -, -, -, -, -, e40, e41⟩ := idx_facts0 t
  refine ⟨t, flush0_4 t, ?_⟩
  rw [mem_blk0_4]
  intro a
  match a with
  | ⟨0, _⟩ =>
    show win0_4.index t (0 : Fin 2) * 12000 ≤ (i 0).val ∧ (i 0).val < win0_4.index t (0 : Fin 2) * 12000 + 12000
    omega
  | ⟨1, _⟩ =>
    show win0_4.index t (1 : Fin 2) * 128 ≤ (i 1).val ∧ (i 1).val < win0_4.index t (1 : Fin 2) * 128 + 128
    omega

theorem edge0 (c : Dev nD) :
    (dat0 (F := Ideal) V c).arrAt 4 cfg0.N
      = edgeMsg (R := 600000) (V c main_v4) (V c main_arg2) (V c main_v6) (V c main_v9) :=
  (dat0 (F := Ideal) V c).arrAt_eq_of_cover 4 _ (fun t _ => flushed0_4_eq V c t) covered0_4

end Cert.KernelIdeal.Val

end
-- ==== Proof.KNode1.lean ====
import proofs.«405621_j9088150798515_1_alg».proof.Proof.Gen.KernelIdeal.Frame
import proofs.«405621_j9088150798515_1_alg».proof.Proof.Spec
import proofs.«405621_j9088150798515_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gine

variable (V : (c : Dev nD) → (b : Ref sig .tc) → Buf (Elt Ideal) ((c : Thread nD τ).loc b))

private theorem hz1 : (![0, 0] : Fin 2 → Nat) = fun _ => 0 := funext fun a => by fin_cases a <;> rfl

private theorem pay2_apply1 (x agg : Vec Ideal S10000x128 .f32) (W1 : Vec Ideal S128x128 .f32)
    (b1 g rm rv bt : Vec Ideal S1x128 .f32) (n : Fin 10000) (κ : Fin 128) :
    k1_pay2 (F := Ideal) x agg W1 b1 g rm rv bt (ix2 n κ) = Cert.Gine.hidden (R := 10000) x agg W1 b1 g bt rm rv n κ := by
  unfold k1_pay2
  simp only [truncf_apply, maximumf_apply, addf_apply, mulf_apply, subf_apply, broadcast_apply, shapeCast_self,
    broadcastTo_1b_ab_apply, matmul]
  rw [Cert.LibDot.matmul_rows_apply _ rfl rfl rfl rfl rfl rfl]
  simp only [truncf_apply, addf_apply, constant_apply, Ideal.ofBits_zero_f32, zero_add, rsqrt, Ideal.rsqrt_def,
    broadcast_apply]
  have h0 : (FloatOps.ofBits .f32 0#32 : Ideal .f32) = 0 := Ideal.ofBits_zero_f32
  rw [h0]
  rfl

private theorem pay3_apply1 (W2 : Vec Ideal S128x128 .f32) (κ j : Fin 128) : k1_pay3 (F := Ideal) W2 (ix2 κ j) = W2 (ix2 κ j) := by
  unfold k1_pay3
  simp only [truncf_apply, shapeCast_self]

private theorem out1_10_eq (x0 x1 : Vec Ideal S10000x128 .f32) (x2 : Vec Ideal S128x128 .f32)
    (x3 x4 x5 x6 x7 : Vec Ideal S1x128 .f32) (x8 : Vec Ideal S128x128 .f32) (x9 : Vec Ideal S1x128 .f32) :
    out1_10 (F := Ideal) x0 x1 x2 x3 x4 x5 x6 x7 x8 x9 = nodeRelu (R := 10000) x0 x1 x2 x3 x4 x5 x6 x7 x8 x9 := by
  funext j
  obtain ⟨p, q, rfl⟩ : ∃ p q, j = ix2 p q := ⟨j 0, j 1, eq_ix2 j⟩
  unfold out1_10
  rw [View.canon_unit_zero hz1]
  simp only [View.ld_unit_zero (S := S10000x128) hz1, View.ld_unit_zero (S := S128x128) hz1,
    View.ld_unit_zero (S := S1x128) hz1]
  unfold k1_pay1
  simp only [maximumf_apply, addf_apply, broadcast_apply, shapeCast_self, broadcastTo_1b_ab_apply, matmul]
  rw [Cert.LibDot.matmul_rows_apply _ rfl rfl rfl rfl rfl rfl]
  simp only [constant_apply, Ideal.ofBits_zero_f32, zero_add]
  rw [Finset.sum_congr rfl (fun κ _ => by rw [pay2_apply1, pay3_apply1])]
  have h0 : (FloatOps.ofBits .f32 0#32 : Ideal .f32) = 0 := Ideal.ofBits_zero_f32
  rw [h0]
  rfl

private theorem nodeRelu_of_rows {R R' : Nat} (x agg : Mat R 128) (x' agg' : Mat R' 128) (W1 : Mat 128 128)
    (b1 g bt rm rv : Mat 1 128) (W2 : Mat 128 128) (b2 : Mat 1 128)
    (i : (⟨2, ![R, 128]⟩ : Shape).Idx) (i' : (⟨2, ![R', 128]⟩ : Shape).Idx) (h1 : (i' 1 : Fin 128) = (i 1 : Fin 128))
    (hx : ∀ l : Fin 128, x' (ix2 (i' 0) l) = x (ix2 (i 0) l))
    (hagg : ∀ l : Fin 128, agg' (ix2 (i' 0) l) = agg (ix2 (i 0) l)) :
    nodeRelu x' agg' W1 b1 g bt rm rv W2 b2 i' = nodeRelu x agg W1 b1 g bt rm rv W2 b2 i := by
  unfold nodeRelu nodeLin Cert.Gine.hidden
  simp only [h1, hx, hagg]

private theorem idx_facts1 : ∀ t : Fin cfg1.N,
    win1_0.index t (0 : Fin 2) = win1_10.index t (0 : Fin 2) ∧ win1_0.index t (1 : Fin 2) = win1_10.index t (1 : Fin 2)
    ∧ win1_1.index t (0 : Fin 2) = win1_10.index t (0 : Fin 2) ∧ win1_1.index t (1 : Fin 2) = win1_10.index t (1 : Fin 2)
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

private theorem iblk1_2_eq (c : Dev nD) (t : Fin cfg1.N) : (iblk1 (F := Ideal) V c 2 t : Vec Ideal S128x128 .f32) = V c main_v15 := by
  have e := idx_facts1 t
  funext y
  unfold iblk1
  rw [View.read_apply]
  show V c main_v15 _ = V c main_v15 _
  congr 1
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

private theorem iblk1_3_eq (c : Dev nD) (t : Fin cfg1.N) : (iblk1 (F := Ideal) V c 3 t : Vec Ideal S1x128 .f32) = V c main_v30 := by
  have e := idx_facts1 t
  funext y
  unfold iblk1
  rw [View.read_apply]
  show V c main_v30 _ = V c main_v30 _
  congr 1
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

private theorem iblk1_4_eq (c : Dev nD) (t : Fin cfg1.N) : (iblk1 (F := Ideal) V c 4 t : Vec Ideal S1x128 .f32) = V c main_v31 := by
  have e := idx_facts1 t
  funext y
  unfold iblk1
  rw [View.read_apply]
  show V c main_v31 _ = V c main_v31 _
  congr 1
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

private theorem iblk1_5_eq (c : Dev nD) (t : Fin cfg1.N) : (iblk1 (F := Ideal) V c 5 t : Vec Ideal S1x128 .f32) = V c main_v32 := by
  have e := idx_facts1 t
  funext y
  unfold iblk1
  rw [View.read_apply]
  show V c main_v32 _ = V c main_v32 _
  congr 1
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

private theorem iblk1_6_eq (c : Dev nD) (t : Fin cfg1.N) : (iblk1 (F := Ideal) V c 6 t : Vec Ideal S1x128 .f32) = V c main_v33 := by
  have e := idx_facts1 t
  funext y
  unfold iblk1
  rw [View.read_apply]
  show V c main_v33 _ = V c main_v33 _
  congr 1
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

private theorem iblk1_7_eq (c : Dev nD) (t : Fin cfg1.N) : (iblk1 (F := Ideal) V c 7 t : Vec Ideal S1x128 .f32) = V c main_v34 := by
  have e := idx_facts1 t
  funext y
  unfold iblk1
  rw [View.read_apply]
  show V c main_v34 _ = V c main_v34 _
  congr 1
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

private theorem iblk1_8_eq (c : Dev nD) (t : Fin cfg1.N) : (iblk1 (F := Ideal) V c 8 t : Vec Ideal S128x128 .f32) = V c main_v27 := by
  have e := idx_facts1 t
  funext y
  unfold iblk1
  rw [View.read_apply]
  show V c main_v27 _ = V c main_v27 _
  congr 1
  funext a; apply Fin.ext
  match a with
  | ⟨0, _⟩ => show win1_8.index t (0 : Fin 2) * 128 + 1 * (y 0).val = (y 0).val; omega
  | ⟨1, _⟩ => show win1_8.index t (1 : Fin 2) * 128 + 1 * (y 1).val = (y 1).val; omega

private theorem iblk1_9_eq (c : Dev nD) (t : Fin cfg1.N) : (iblk1 (F := Ideal) V c 9 t : Vec Ideal S1x128 .f32) = V c main_v35 := by
  have e := idx_facts1 t
  funext y
  unfold iblk1
  rw [View.read_apply]
  show V c main_v35 _ = V c main_v35 _
  congr 1
  funext a; apply Fin.ext
  match a with
  | ⟨0, _⟩ => show win1_9.index t (0 : Fin 2) * 1 + 1 * (y 0).val = (y 0).val; omega
  | ⟨1, _⟩ => show win1_9.index t (1 : Fin 2) * 128 + 1 * (y 1).val = (y 1).val; omega

private theorem iblk1_0_apply (c : Dev nD) (t : Fin cfg1.N) (j : S10000x128.Idx) (l : Fin 128) :
    (iblk1 (F := Ideal) V c 0 t : Vec Ideal S10000x128 .f32) (ix2 (j 0) l)
      = (V c main_arg0 : S50000x128.Idx → Elt Ideal .f32) (ix2 ((((cfg1.win 10).blk t).view.emb j : S50000x128.Idx) 0) l) := by
  have e := idx_facts1 t
  unfold iblk1
  rw [View.read_apply]
  show V c main_arg0 _ = V c main_arg0 _
  congr 1
  funext a; apply Fin.ext
  match a with
  | ⟨0, _⟩ => show win1_0.index t (0 : Fin 2) * 10000 + 1 * (j 0).val = win1_10.index t (0 : Fin 2) * 10000 + 1 * (j 0).val; omega
  | ⟨1, _⟩ => show win1_0.index t (1 : Fin 2) * 128 + 1 * l.val = l.val; omega

private theorem iblk1_1_apply (c : Dev nD) (t : Fin cfg1.N) (j : S10000x128.Idx) (l : Fin 128) :
    (iblk1 (F := Ideal) V c 1 t : Vec Ideal S10000x128 .f32) (ix2 (j 0) l)
      = (V c main_v13 : S50000x128.Idx → Elt Ideal .f32) (ix2 ((((cfg1.win 10).blk t).view.emb j : S50000x128.Idx) 0) l) := by
  have e := idx_facts1 t
  unfold iblk1
  rw [View.read_apply]
  show V c main_v13 _ = V c main_v13 _
  congr 1
  funext a; apply Fin.ext
  match a with
  | ⟨0, _⟩ => show win1_1.index t (0 : Fin 2) * 10000 + 1 * (j 0).val = win1_10.index t (0 : Fin 2) * 10000 + 1 * (j 0).val; omega
  | ⟨1, _⟩ => show win1_1.index t (1 : Fin 2) * 128 + 1 * l.val = l.val; omega

private theorem flushed1_10_eq (c : Dev nD) (t : Fin cfg1.N) :
    (dat1 (F := Ideal) V c).flushed 10 t = ((cfg1.win 10).blk t).view.read (Elt Ideal)
      (nodeRelu (R := 50000) (V c main_arg0) (V c main_v13) (V c main_v15) (V c main_v30) (V c main_v31) (V c main_v32)
        (V c main_v33) (V c main_v34) (V c main_v27) (V c main_v35)) := by
  show (cfg1.win 10).cut (grid1.coords t) ((dat1 V c).after 10 t) = _
  rw [after1_10, out1_10_eq (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t),
    iblk1_2_eq V c t, iblk1_3_eq V c t, iblk1_4_eq V c t, iblk1_5_eq V c t, iblk1_6_eq V c t, iblk1_7_eq V c t,
    iblk1_8_eq V c t, iblk1_9_eq V c t]
  have e := idx_facts1 t
  funext j
  refine (nodeRelu_of_rows (R := 50000) (R' := 10000) (V c main_arg0) (V c main_v13) (iblk1 V c 0 t) (iblk1 V c 1 t)
    (V c main_v15) (V c main_v30) (V c main_v31) (V c main_v32) (V c main_v33) (V c main_v34) (V c main_v27)
    (V c main_v35) (((cfg1.win 10).blk t).view.emb j) j ?_ (fun l => iblk1_0_apply V c t j l)
    (fun l => iblk1_1_apply V c t j l))
  apply Fin.ext
  show (j 1).val = win1_10.index t (1 : Fin 2) * 128 + 1 * (j 1).val
  omega

theorem node1 (c : Dev nD) :
    (dat1 (F := Ideal) V c).arrAt 10 cfg1.N
      = nodeRelu (R := 50000) (V c main_arg0) (V c main_v13) (V c main_v15) (V c main_v30) (V c main_v31) (V c main_v32)
          (V c main_v33) (V c main_v34) (V c main_v27) (V c main_v35) := by
  refine (dat1 V c).arrAt_eq_of_cover 10 _ (fun t _ => flushed1_10_eq V c t) fun i => ?_
  have hi0 : ((i 0 : Fin 50000) : Nat) < 50000 := (i 0).isLt
  have hi1 : ((i 1 : Fin 128) : Nat) < 128 := (i 1).isLt
  have hN : cfg1.N = 5 := N_1
  obtain ⟨t, ht⟩ : ∃ t : Fin cfg1.N, t.val = ((i 0 : Fin 50000) : Nat) / 10000 := ⟨⟨_, by rw [hN]; omega⟩, rfl⟩
  have e := idx_facts1 t
  refine ⟨t, flush1_10 t, ?_⟩
  show i ∈ ((View.whole main_v36).slice (win1_10.rect t)).set
  rw [View.set_slice_whole, Rect.mem_set_unit]
  intro a
  match a with
  | ⟨0, _⟩ =>
    show win1_10.index t (0 : Fin 2) * 10000 ≤ ((i 0 : Fin 50000) : Nat)
      ∧ ((i 0 : Fin 50000) : Nat) < win1_10.index t (0 : Fin 2) * 10000 + 10000
    omega
  | ⟨1, _⟩ =>
    show win1_10.index t (1 : Fin 2) * 128 ≤ ((i 1 : Fin 128) : Nat)
      ∧ ((i 1 : Fin 128) : Nat) < win1_10.index t (1 : Fin 2) * 128 + 128
    omega

end Cert.KernelIdeal.Val

end
-- ==== Proof.KLayer0.lean ====
import proofs.«405621_j9088150798515_1_alg».proof.Proof.Gen.KernelIdeal.Frame
import proofs.«405621_j9088150798515_1_alg».proof.Proof.KDefs
import proofs.«405621_j9088150798515_1_alg».proof.Proof.KPass
import proofs.«405621_j9088150798515_1_alg».proof.Proof.KEdge0
import proofs.«405621_j9088150798515_1_alg».proof.Proof.KNode1
import Idealize.ShloMosaic.Lib.StableHlo.Run
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.Pass Cert.Gine

variable (m : (ℓ : Loc nD τ sig) → Buf (Elt Ideal) ℓ) (ρ : Dev nD → PrngReg)

private theorem src_v1 (c : Dev nD) :
    W1 (F := Ideal) m ρ c (Proc.devRef .tc main_v1) = srcK (m ((c : Thread nD τ).loc main_arg1)) := by
  show StableHlo.after hostOps0 (W0 m ρ c) (Proc.devRef .tc main_v1) = _
  after_results
  rfl

private theorem dst_v3 (c : Dev nD) :
    W1 (F := Ideal) m ρ c (Proc.devRef .tc main_v3) = dstK (m ((c : Thread nD τ).loc main_arg1)) := by
  show StableHlo.after hostOps0 (W0 m ρ c) (Proc.devRef .tc main_v3) = _
  after_results
  rfl

private theorem ofBuf_toBuf {T : BufTy} (x : TRef sig T) (v : T.Contents (Elt Ideal)) :
    x.ofBuf (x.toBuf v) = v := by
  obtain ⟨r, h, _, _⟩ := x
  subst h
  rfl

private theorem toBuf_eq_of {T : BufTy} (x : TRef sig T) (v : T.Contents (Elt Ideal)) (w : x.ref.ty.Contents (Elt Ideal))
    (h : HEq v w) : x.toBuf v = w :=
  eq_of_heq ((cast_heq _ _).trans h)

private theorem ofBuf_eq_of {T : BufTy} (x : TRef sig T) (w : x.ref.ty.Contents (Elt Ideal)) (v : T.Contents (Elt Ideal))
    (h : HEq w v) : x.ofBuf w = v :=
  eq_of_heq ((cast_heq _ _).trans h)

private theorem take_v4 (c : Dev nD) :
    W2 (F := Ideal) m ρ c (Proc.devRef .tc main_v4) = takeK (m ((c : Thread nD τ).loc main_arg1)) (m ((c : Thread nD τ).loc main_arg0)) := by
  show StableHlo.after hostOps0_1 (W1 m ρ c) (Proc.devRef .tc main_v4) = _
  generalize hV : W1 (F := Ideal) m ρ c = V1
  after_results_simp
  simp only [ofBuf_toBuf]
  subst hV
  rw [src_v1 m ρ c, (show W1 m ρ c (Proc.devRef .tc main_arg0) = _ from arg m ρ c main_arg0 1)]
  rw [ofBuf_eq_of (T := ⟨S600000, .i32⟩) (TRef.of main_v1 _ _ _) (srcK (m ((c : Thread nD τ).loc main_arg1))) (srcK (m ((c : Thread nD τ).loc main_arg1))) HEq.rfl,
      ofBuf_eq_of (T := ⟨S50000x128, .f32⟩) (TRef.of main_arg0 _ _ _) (m ((c : Thread nD τ).loc main_arg0)) (m ((c : Thread nD τ).loc main_arg0)) HEq.rfl]
  refine toBuf_eq_of _ _ _ (heq_of_eq ?_)
  unfold takeK fetchK inBounds posCol wrapPos
  rfl

private theorem we_v6 (c : Dev nD) :
    W3 (F := Ideal) m ρ c (Proc.devRef .tc main_v6) = weK (m ((c : Thread nD τ).loc main_arg4)) 0 := by
  show StableHlo.after hostOps0_2 (W2 m ρ c) (Proc.devRef .tc main_v6) = _
  after_results
  rfl

private theorem be_v9 (c : Dev nD) :
    W3 (F := Ideal) m ρ c (Proc.devRef .tc main_v9) = rowOf (vecK (m ((c : Thread nD τ).loc main_arg5)) 0) := by
  show StableHlo.after hostOps0_2 (W2 m ρ c) (Proc.devRef .tc main_v9) = _
  after_results
  exact shapeCast_row _ _

private theorem msg_v10 (c : Dev nD) :
    W4 (F := Ideal) m ρ c (Proc.devRef .tc main_v10)
      = edgeMsg (R := 600000) (takeK (m ((c : Thread nD τ).loc main_arg1)) (m ((c : Thread nD τ).loc main_arg0))) (m ((c : Thread nD τ).loc main_arg2)) (weK (m ((c : Thread nD τ).loc main_arg4)) 0) (rowOf (vecK (m ((c : Thread nD τ).loc main_arg5)) 0)) := by
  refine (W4_arr m ρ c 4).trans ?_
  rw [edge0 (V3 m ρ) c]
  show edgeMsg (R := 600000) (W3 m ρ c (Proc.devRef .tc main_v4)) (W3 m ρ c (Proc.devRef .tc main_arg2))
      (W3 m ρ c (Proc.devRef .tc main_v6)) (W3 m ρ c (Proc.devRef .tc main_v9)) = _
  rw [(show W3 m ρ c (Proc.devRef .tc main_v4) = W2 m ρ c (Proc.devRef .tc main_v4) from keep m ρ c main_v4 2 3), take_v4, (show W3 m ρ c (Proc.devRef .tc main_arg2) = _ from arg m ρ c main_arg2 3), we_v6, be_v9]

private theorem agg_v13 (c : Dev nD) :
    W5 (F := Ideal) m ρ c (Proc.devRef .tc main_v13)
      = aggK (m ((c : Thread nD τ).loc main_arg1))
          (edgeMsg (R := 600000) (takeK (m ((c : Thread nD τ).loc main_arg1)) (m ((c : Thread nD τ).loc main_arg0))) (m ((c : Thread nD τ).loc main_arg2)) (weK (m ((c : Thread nD τ).loc main_arg4)) 0) (rowOf (vecK (m ((c : Thread nD τ).loc main_arg5)) 0))) := by
  show StableHlo.after hostOps1 (W4 m ρ c) (Proc.devRef .tc main_v13) = _
  after_results
  rw [(show W4 m ρ c (Proc.devRef .tc main_v3) = W1 m ρ c (Proc.devRef .tc main_v3) from keep m ρ c main_v3 1 4), dst_v3, msg_v10]
  rfl

private theorem mat_v15 (c : Dev nD) :
    W5 (F := Ideal) m ρ c (Proc.devRef .tc main_v15) = matK (m ((c : Thread nD τ).loc main_arg6)) 0 := by
  show StableHlo.after hostOps1 (W4 m ρ c) (Proc.devRef .tc main_v15) = _
  after_results
  rw [(show W4 m ρ c (Proc.devRef .tc main_arg6) = _ from arg m ρ c main_arg6 4)]
  rfl

private theorem mat_v27 (c : Dev nD) :
    W5 (F := Ideal) m ρ c (Proc.devRef .tc main_v27) = matK (m ((c : Thread nD τ).loc main_arg12)) 0 := by
  show StableHlo.after hostOps1 (W4 m ρ c) (Proc.devRef .tc main_v27) = _
  after_results
  rw [(show W4 m ρ c (Proc.devRef .tc main_arg12) = _ from arg m ρ c main_arg12 4)]
  rfl

private theorem row_v30 (c : Dev nD) :
    W5 (F := Ideal) m ρ c (Proc.devRef .tc main_v30) = rowOf (vecK (m ((c : Thread nD τ).loc main_arg7)) 0) := by
  show StableHlo.after hostOps1 (W4 m ρ c) (Proc.devRef .tc main_v30) = _
  after_results
  rw [(show W4 m ρ c (Proc.devRef .tc main_arg7) = _ from arg m ρ c main_arg7 4)]
  exact shapeCast_row _ _

private theorem row_v31 (c : Dev nD) :
    W5 (F := Ideal) m ρ c (Proc.devRef .tc main_v31) = rowOf (vecK (m ((c : Thread nD τ).loc main_arg8)) 0) := by
  show StableHlo.after hostOps1 (W4 m ρ c) (Proc.devRef .tc main_v31) = _
  after_results
  rw [(show W4 m ρ c (Proc.devRef .tc main_arg8) = _ from arg m ρ c main_arg8 4)]
  exact shapeCast_row _ _

private theorem row_v32 (c : Dev nD) :
    W5 (F := Ideal) m ρ c (Proc.devRef .tc main_v32) = rowOf (vecK (m ((c : Thread nD τ).loc main_arg9)) 0) := by
  show StableHlo.after hostOps1 (W4 m ρ c) (Proc.devRef .tc main_v32) = _
  after_results
  rw [(show W4 m ρ c (Proc.devRef .tc main_arg9) = _ from arg m ρ c main_arg9 4)]
  exact shapeCast_row _ _

private theorem row_v33 (c : Dev nD) :
    W5 (F := Ideal) m ρ c (Proc.devRef .tc main_v33) = rowOf (vecK (m ((c : Thread nD τ).loc main_arg10)) 0) := by
  show StableHlo.after hostOps1 (W4 m ρ c) (Proc.devRef .tc main_v33) = _
  after_results
  rw [(show W4 m ρ c (Proc.devRef .tc main_arg10) = _ from arg m ρ c main_arg10 4)]
  exact shapeCast_row _ _

private theorem row_v34 (c : Dev nD) :
    W5 (F := Ideal) m ρ c (Proc.devRef .tc main_v34) = rowOf (vecK (m ((c : Thread nD τ).loc main_arg11)) 0) := by
  show StableHlo.after hostOps1 (W4 m ρ c) (Proc.devRef .tc main_v34) = _
  after_results
  rw [(show W4 m ρ c (Proc.devRef .tc main_arg11) = _ from arg m ρ c main_arg11 4)]
  exact shapeCast_row _ _

private theorem row_v35 (c : Dev nD) :
    W5 (F := Ideal) m ρ c (Proc.devRef .tc main_v35) = rowOf (vecK (m ((c : Thread nD τ).loc main_arg13)) 0) := by
  show StableHlo.after hostOps1 (W4 m ρ c) (Proc.devRef .tc main_v35) = _
  after_results
  rw [(show W4 m ρ c (Proc.devRef .tc main_arg13) = _ from arg m ρ c main_arg13 4)]
  exact shapeCast_row _ _

/-- The node array after layer 0: the launch's value, with each array it was handed read back to what wrote it. -/
theorem layer0 (c : Dev nD) :
    W6 (F := Ideal) m ρ c (Proc.devRef .tc main_v36)
      = layerRelu 0 (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
          (m ((c : Thread nD τ).loc main_arg0)) := by
  refine (W6_arr m ρ c 10).trans ?_
  rw [node1 (V5 m ρ) c]
  show nodeRelu (R := 50000) (W5 m ρ c (Proc.devRef .tc main_arg0)) (W5 m ρ c (Proc.devRef .tc main_v13))
      (W5 m ρ c (Proc.devRef .tc main_v15)) (W5 m ρ c (Proc.devRef .tc main_v30)) (W5 m ρ c (Proc.devRef .tc main_v31))
      (W5 m ρ c (Proc.devRef .tc main_v32)) (W5 m ρ c (Proc.devRef .tc main_v33)) (W5 m ρ c (Proc.devRef .tc main_v34))
      (W5 m ρ c (Proc.devRef .tc main_v27)) (W5 m ρ c (Proc.devRef .tc main_v35)) = _
  unfold layerRelu
  rw [(show W5 m ρ c (Proc.devRef .tc main_arg0) = _ from arg m ρ c main_arg0 5), agg_v13, mat_v15, row_v30, row_v31, row_v32, row_v33, row_v34, mat_v27, row_v35]

end Cert.KernelIdeal.Val

end
-- ==== Proof.KEdge2.lean ====
/-
  What edge-message launch 2 leaves in its output array.

  The launch walks 50 blocks of 12000 edges. At block t it reads rows 12000·t … 12000·t + 11999 of the source-row array
  and of the edge-attribute array, the whole 64 × 128 weight and the one bias row, and writes the same rows of the
  output. Each written row is the edge message of that edge (Spec: `edgeMsg`), which depends on that edge's rows only;
  so block t of the output is rows 12000·t … of the message array of the WHOLE inputs, the 50 blocks cover every edge,
  and the output array after the launch is the message array.
-/
import proofs.«405621_j9088150798515_1_alg».proof.Proof.Gen.KernelIdeal.Frame
import proofs.«405621_j9088150798515_1_alg».proof.Proof.Spec
import proofs.«405621_j9088150798515_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gine

variable (V : (c : Dev nD) → (b : Ref sig .tc) → Buf (Elt Ideal) ((c : Thread nD τ).loc b))

/-- The zero offsets of a whole-block rectangle, as the constant function. -/
private theorem hz2 : (![0, 0] : Fin 2 → Nat) = fun _ => 0 := funext fun a => by fin_cases a <;> rfl

/-- WHAT THE BODY LEAVES in the output block is the edge message of its four input blocks: at (p, q) the product reads
    Σ_κ ea (p, κ) · W (κ, q) into a zero accumulator, the one bias row is repeated down the rows, the format changes
    are the identity on the extended reals, and the clip is against the constant zero. -/
private theorem out2_4_eq (x0 : Vec Ideal S12000x128 .f32) (x1 : Vec Ideal S12000x64 .f32) (x2 : Vec Ideal S64x128 .f32)
    (x3 : Vec Ideal S1x128 .f32) :
    out2_4 (F := Ideal) x0 x1 x2 x3 = edgeMsg (R := 12000) x0 x1 x2 x3 := by
  funext j
  obtain ⟨p, q, rfl⟩ : ∃ p q, j = ix2 p q := ⟨j 0, j 1, eq_ix2 j⟩
  unfold out2_4
  rw [View.canon_unit_zero hz2]
  simp only [View.ld_unit_zero (S := S12000x128) hz2, View.ld_unit_zero (S := S12000x64) hz2,
    View.ld_unit_zero (S := S64x128) hz2, View.ld_unit_zero (S := S1x128) hz2]
  unfold k2_pay1
  simp only [maximumf_apply, addf_apply, broadcast_apply, shapeCast_self, matmul]
  rw [Cert.LibDot.matmul_rows_apply _ rfl rfl rfl rfl rfl rfl]
  rw [broadcastTo_apply x3 broadcasts_S1x128_S12000x128 (ix2 p q) (ix2 0 q) (fun a => by
    match a with
    | ⟨0, _⟩ => rfl
    | ⟨1, _⟩ => rfl)]
  simp only [constant_apply, truncf_apply, Ideal.ofBits_zero_f32, zero_add]
  rw [show (FloatOps.ofBits (F := Ideal) .f32 0x00000000#32) = (0 : EReal) from Ideal.ofBits_zero_f32]
  rfl

/-- A ROW OF THE MESSAGE DEPENDS ON THAT EDGE'S ROWS ONLY: if row r of one pair of row arrays is row r' of another, and
    the two weights and the two bias rows agree in column q, then the two messages agree at (r, q) and (r', q). -/
private theorem edgeMsg_row {R R' : Nat} (xs : Mat R 128) (ea : Mat R 64) (W : Mat 64 128) (b : Mat 1 128)
    (xs' : Mat R' 128) (ea' : Mat R' 64) (W' : Mat 64 128) (b' : Mat 1 128) (r : Fin R) (r' : Fin R') (q : Fin 128)
    (h0 : xs (ix2 r q) = xs' (ix2 r' q)) (h1 : ∀ κ : Fin 64, ea (ix2 r κ) = ea' (ix2 r' κ))
    (h2 : ∀ κ : Fin 64, W (ix2 κ q) = W' (ix2 κ q)) (h3 : b (ix2 0 q) = b' (ix2 0 q)) :
    edgeMsg xs ea W b (ix2 r q) = edgeMsg xs' ea' W' b' (ix2 r' q) := by
  show max (xs (ix2 r q) + ((∑ κ : Fin 64, ea (ix2 r κ) * W (ix2 κ q)) + b (ix2 0 q))) 0
    = max (xs' (ix2 r' q) + ((∑ κ : Fin 64, ea' (ix2 r' κ) * W' (ix2 κ q)) + b' (ix2 0 q))) 0
  rw [h0, h3, Finset.sum_congr rfl fun κ _ => by rw [h1 κ, h2 κ]]

/-- The printed index maps, decided over the 50 points: the two row-blocked inputs and the output sit at block row t,
    column block 0; the weight and the bias row sit at block (0, 0) at every point. -/
private theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT POINT t WRITES BACK is block t of the message array of the WHOLE inputs: the body leaves the message of its four
    blocks; the output block's (j₀, j₁) is the array's (12000·t + j₀, j₁); the two row-blocked inputs' blocks hold rows
    12000·t … of their arrays, the weight's and the bias row's blocks are their whole arrays; and a row of the message
    depends on that edge's rows only. -/
private theorem flushed2_4_eq (c : Dev nD) (t : Fin cfg2.N) :
    (dat2 (F := Ideal) V c).flushed 4 t
      = ((cfg2.win 4).blk t).view.read (Elt Ideal)
          (edgeMsg (R := 600000) (V c main_v37) (V c main_arg2) (V c main_v39) (V c main_v42)) := by
  show (cfg2.win 4).cut (grid2.coords t) ((dat2 (F := Ideal) V c).after 4 t) = _
  rw [after2_4]
  rw [out2_4_eq (iblk2 V c 0 t) (iblk2 V c 1 t) (iblk2 V c 2 t) (iblk2 V c 3 t)]
  obtain ⟨e00, e01, e10, e11, e20, e21, e30, e31, e40, e41⟩ := idx_facts2 t
  funext j
  have hj0 : (j 0).val < 12000 := (j 0).isLt
  have hj1 : (j 1).val < 128 := (j 1).isLt
  show edgeMsg (R := 12000) (iblk2 V c 0 t) (iblk2 V c 1 t) (iblk2 V c 2 t) (iblk2 V c 3 t)
      (ix2 (n0 := 12000) (n1 := 128) ⟨(j 0).val, hj0⟩ ⟨(j 1).val, hj1⟩)
    = edgeMsg (R := 600000) (V c main_v37) (V c main_arg2) (V c main_v39) (V c main_v42)
      (ix2 (n0 := 600000) (n1 := 128) ((((cfg2.win 4).blk t).view.emb j) 0) ((((cfg2.win 4).blk t).view.emb j) 1))
  have ht : t.val < 50 := lt_of_lt_of_eq t.isLt N_2
  have hE0 : ((cfg2.win 4).blk t).view.emb j 0 = (⟨t.val * 12000 + (j 0).val, by omega⟩ : Fin 600000) :=
    Fin.ext (by show win2_4.index t (0 : Fin 2) * 12000 + 1 * (j 0).val = t.val * 12000 + (j 0).val; omega)
  have hE1 : ((cfg2.win 4).blk t).view.emb j 1 = (⟨(j 1).val, hj1⟩ : Fin 128) :=
    Fin.ext (by show win2_4.index t (1 : Fin 2) * 128 + 1 * (j 1).val = (j 1).val; omega)
  rw [hE0, hE1]
  apply edgeMsg_row
  · show V c main_v37 (((cfg2.win 0).blk t).view.emb (ix2 (n0 := 12000) (n1 := 128) ⟨(j 0).val, hj0⟩ ⟨(j 1).val, hj1⟩)) = _
    refine congrArg (V c main_v37) (funext fun a => Fin.ext ?_)
    match a with
    | ⟨0, _⟩ => show win2_0.index t (0 : Fin 2) * 12000 + 1 * (j 0).val = t.val * 12000 + (j 0).val; omega
    | ⟨1, _⟩ => show win2_0.index t (1 : Fin 2) * 128 + 1 * (j 1).val = (j 1).val; omega
  · intro κ
    have hκ : κ.val < 64 := κ.isLt
    show V c main_arg2 (((cfg2.win 1).blk t).view.emb (ix2 (n0 := 12000) (n1 := 64) ⟨(j 0).val, hj0⟩ κ)) = _
    refine congrArg (V c main_arg2) (funext fun a => Fin.ext ?_)
    match a with
    | ⟨0, _⟩ => show win2_1.index t (0 : Fin 2) * 12000 + 1 * (j 0).val = t.val * 12000 + (j 0).val; omega
    | ⟨1, _⟩ => show win2_1.index t (1 : Fin 2) * 64 + 1 * κ.val = κ.val; omega
  · intro κ
    have hκ : κ.val < 64 := κ.isLt
    show V c main_v39 (((cfg2.win 2).blk t).view.emb (ix2 (n0 := 64) (n1 := 128) κ ⟨(j 1).val, hj1⟩)) = _
    refine congrArg (V c main_v39) (funext fun a => Fin.ext ?_)
    match a with
    | ⟨0, _⟩ => show win2_2.index t (0 : Fin 2) * 64 + 1 * κ.val = κ.val; omega
    | ⟨1, _⟩ => show win2_2.index t (1 : Fin 2) * 128 + 1 * (j 1).val = (j 1).val; omega
  · show V c main_v42 (((cfg2.win 3).blk t).view.emb (ix2 (n0 := 1) (n1 := 128) 0 ⟨(j 1).val, hj1⟩)) = _
    refine congrArg (V c main_v42) (funext fun a => Fin.ext ?_)
    match a with
    | ⟨0, _⟩ => show win2_3.index t (0 : Fin 2) * 1 + 1 * 0 = 0; omega
    | ⟨1, _⟩ => show win2_3.index t (1 : Fin 2) * 128 + 1 * (j 1).val = (j 1).val; omega

/-- An index of the output array is in point t's block iff each coordinate is in the block's range on its axis. -/
private theorem mem_blk2_4 (t : Fin cfg2.N) (i : S600000x128.Idx) :
    i ∈ ((cfg2.win 4).blk t).view.set ↔ ∀ a : Fin 2, win2_4.index t a * S12000x128.size a ≤ (i a).val
      ∧ (i a).val < win2_4.index t a * S12000x128.size a + S12000x128.size a := by
  show i ∈ ((View.whole main_v43).slice (win2_4.rect t)).set ↔ _
  rw [View.set_slice_whole, Rect.mem_set_unit]
  exact Iff.rfl

/-- THE BLOCKS COVER THE ARRAY: row r lies in the block of the point r / 12000, which is written back. -/
private theorem covered2_4 (i : S600000x128.Idx) :
    ∃ t : Fin cfg2.N, (cfg2.win 4).flush t = true ∧ i ∈ ((cfg2.win 4).blk t).view.set := by
  have hi0 : (i 0).val < 600000 := (i 0).isLt
  have hi1 : (i 1).val < 128 := (i 1).isLt
  obtain ⟨t, ht⟩ : ∃ t : Fin cfg2.N, t.val = (i 0).val / 12000 :=
    ⟨⟨(i 0).val / 12000, lt_of_lt_of_eq (by omega : (i 0).val / 12000 < 50) N_2.symm⟩, rfl⟩
  obtain ⟨-, -, -, -, -, -, -, -, e40, e41⟩ := idx_facts2 t
  refine ⟨t, flush2_4 t, ?_⟩
  rw [mem_blk2_4]
  intro a
  match a with
  | ⟨0, _⟩ =>
    show win2_4.index t (0 : Fin 2) * 12000 ≤ (i 0).val ∧ (i 0).val < win2_4.index t (0 : Fin 2) * 12000 + 12000
    omega
  | ⟨1, _⟩ =>
    show win2_4.index t (1 : Fin 2) * 128 ≤ (i 1).val ∧ (i 1).val < win2_4.index t (1 : Fin 2) * 128 + 128
    omega

/-- THE OUTPUT ARRAY OF LAUNCH 2 after its 50 blocks: the edge messages of the arrays the launch found. -/
theorem edge2 (c : Dev nD) :
    (dat2 (F := Ideal) V c).arrAt 4 cfg2.N
      = edgeMsg (R := 600000) (V c main_v37) (V c main_arg2) (V c main_v39) (V c main_v42) :=
  (dat2 (F := Ideal) V c).arrAt_eq_of_cover 4 _ (fun t _ => flushed2_4_eq V c t) covered2_4

end Cert.KernelIdeal.Val

end
-- ==== Proof.KNode3.lean ====
import proofs.«405621_j9088150798515_1_alg».proof.Proof.Gen.KernelIdeal.Frame
import proofs.«405621_j9088150798515_1_alg».proof.Proof.Spec
import proofs.«405621_j9088150798515_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gine

variable (V : (c : Dev nD) → (b : Ref sig .tc) → Buf (Elt Ideal) ((c : Thread nD τ).loc b))

private theorem hz3 : (![0, 0] : Fin 2 → Nat) = fun _ => 0 := funext fun a => by fin_cases a <;> rfl

private theorem pay2_apply3 (x agg : Vec Ideal S10000x128 .f32) (W1 : Vec Ideal S128x128 .f32)
    (b1 g rm rv bt : Vec Ideal S1x128 .f32) (n : Fin 10000) (κ : Fin 128) :
    k3_pay2 (F := Ideal) x agg W1 b1 g rm rv bt (ix2 n κ) = Cert.Gine.hidden (R := 10000) x agg W1 b1 g bt rm rv n κ := by
  unfold k3_pay2
  simp only [truncf_apply, maximumf_apply, addf_apply, mulf_apply, subf_apply, broadcast_apply, shapeCast_self,
    broadcastTo_1b_ab_apply, matmul]
  rw [Cert.LibDot.matmul_rows_apply _ rfl rfl rfl rfl rfl rfl]
  simp only [truncf_apply, addf_apply, constant_apply, Ideal.ofBits_zero_f32, zero_add, rsqrt, Ideal.rsqrt_def,
    broadcast_apply]
  have h0 : (FloatOps.ofBits .f32 0#32 : Ideal .f32) = 0 := Ideal.ofBits_zero_f32
  rw [h0]
  rfl

private theorem pay3_apply3 (W2 : Vec Ideal S128x128 .f32) (κ j : Fin 128) : k3_pay3 (F := Ideal) W2 (ix2 κ j) = W2 (ix2 κ j) := by
  unfold k3_pay3
  simp only [shapeCast_self]

private theorem out3_10_eq (x0 x1 : Vec Ideal S10000x128 .f32) (x2 : Vec Ideal S128x128 .f32)
    (x3 x4 x5 x6 x7 : Vec Ideal S1x128 .f32) (x8 : Vec Ideal S128x128 .f32) (x9 : Vec Ideal S1x128 .f32) :
    out3_10 (F := Ideal) x0 x1 x2 x3 x4 x5 x6 x7 x8 x9 = nodeRelu (R := 10000) x0 x1 x2 x3 x4 x5 x6 x7 x8 x9 := by
  funext j
  obtain ⟨p, q, rfl⟩ : ∃ p q, j = ix2 p q := ⟨j 0, j 1, eq_ix2 j⟩
  unfold out3_10
  rw [View.canon_unit_zero hz3]
  simp only [View.ld_unit_zero (S := S10000x128) hz3, View.ld_unit_zero (S := S128x128) hz3,
    View.ld_unit_zero (S := S1x128) hz3]
  unfold k3_pay1
  simp only [maximumf_apply, addf_apply, broadcast_apply, shapeCast_self, broadcastTo_1b_ab_apply, matmul]
  rw [Cert.LibDot.matmul_rows_apply _ rfl rfl rfl rfl rfl rfl]
  simp only [constant_apply, Ideal.ofBits_zero_f32, zero_add, truncf_apply]
  rw [Finset.sum_congr rfl (fun κ _ => by rw [pay2_apply3, pay3_apply3])]
  have h0 : (FloatOps.ofBits .f32 0#32 : Ideal .f32) = 0 := Ideal.ofBits_zero_f32
  rw [h0]
  rfl

private theorem nodeRelu_of_rows {R R' : Nat} (x agg : Mat R 128) (x' agg' : Mat R' 128) (W1 : Mat 128 128)
    (b1 g bt rm rv : Mat 1 128) (W2 : Mat 128 128) (b2 : Mat 1 128)
    (i : (⟨2, ![R, 128]⟩ : Shape).Idx) (i' : (⟨2, ![R', 128]⟩ : Shape).Idx) (h1 : (i' 1 : Fin 128) = (i 1 : Fin 128))
    (hx : ∀ l : Fin 128, x' (ix2 (i' 0) l) = x (ix2 (i 0) l))
    (hagg : ∀ l : Fin 128, agg' (ix2 (i' 0) l) = agg (ix2 (i 0) l)) :
    nodeRelu x' agg' W1 b1 g bt rm rv W2 b2 i' = nodeRelu x agg W1 b1 g bt rm rv W2 b2 i := by
  unfold nodeRelu nodeLin Cert.Gine.hidden
  simp only [h1, hx, hagg]

private theorem idx_facts3 : ∀ t : Fin cfg3.N,
    win3_0.index t (0 : Fin 2) = win3_10.index t (0 : Fin 2) ∧ win3_0.index t (1 : Fin 2) = win3_10.index t (1 : Fin 2)
    ∧ win3_1.index t (0 : Fin 2) = win3_10.index t (0 : Fin 2) ∧ win3_1.index t (1 : Fin 2) = win3_10.index t (1 : Fin 2)
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = t.val ∧ win3_10.index t (1 : Fin 2) = 0 :=
  (by decide +kernel : ∀ t : Fin grid3.N, _)

private theorem iblk3_2_eq (c : Dev nD) (t : Fin cfg3.N) : (iblk3 (F := Ideal) V c 2 t : Vec Ideal S128x128 .f32) = V c main_v48 := by
  have e := idx_facts3 t
  funext y
  unfold iblk3
  rw [View.read_apply]
  show V c main_v48 _ = V c main_v48 _
  congr 1
  funext a; apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega

private theorem iblk3_3_eq (c : Dev nD) (t : Fin cfg3.N) : (iblk3 (F := Ideal) V c 3 t : Vec Ideal S1x128 .f32) = V c main_v63 := by
  have e := idx_facts3 t
  funext y
  unfold iblk3
  rw [View.read_apply]
  show V c main_v63 _ = V c main_v63 _
  congr 1
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

private theorem iblk3_4_eq (c : Dev nD) (t : Fin cfg3.N) : (iblk3 (F := Ideal) V c 4 t : Vec Ideal S1x128 .f32) = V c main_v64 := by
  have e := idx_facts3 t
  funext y
  unfold iblk3
  rw [View.read_apply]
  show V c main_v64 _ = V c main_v64 _
  congr 1
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

private theorem iblk3_5_eq (c : Dev nD) (t : Fin cfg3.N) : (iblk3 (F := Ideal) V c 5 t : Vec Ideal S1x128 .f32) = V c main_v65 := by
  have e := idx_facts3 t
  funext y
  unfold iblk3
  rw [View.read_apply]
  show V c main_v65 _ = V c main_v65 _
  congr 1
  funext a; apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

private theorem iblk3_6_eq (c : Dev nD) (t : Fin cfg3.N) : (iblk3 (F := Ideal) V c 6 t : Vec Ideal S1x128 .f32) = V c main_v66 := by
  have e := idx_facts3 t
  funext y
  unfold iblk3
  rw [View.read_apply]
  show V c main_v66 _ = V c main_v66 _
  congr 1
  funext a; apply Fin.ext
  match a with
  | ⟨0, _⟩ => show win3_6.index t (0 : Fin 2) * 1 + 1 * (y 0).val = (y 0).val; omega
  | ⟨1, _⟩ => show win3_6.index t (1 : Fin 2) * 128 + 1 * (y 1).val = (y 1).val; omega

private theorem iblk3_7_eq (c : Dev nD) (t : Fin cfg3.N) : (iblk3 (F := Ideal) V c 7 t : Vec Ideal S1x128 .f32) = V c main_v67 := by
  have e := idx_facts3 t
  funext y
  unfold iblk3
  rw [View.read_apply]
  show V c main_v67 _ = V c main_v67 _
  congr 1
  funext a; apply Fin.ext
  match a with
  | ⟨0, _⟩ => show win3_7.index t (0 : Fin 2) * 1 + 1 * (y 0).val = (y 0).val; omega
  | ⟨1, _⟩ => show win3_7.index t (1 : Fin 2) * 128 + 1 * (y 1).val = (y 1).val; omega

private theorem iblk3_8_eq (c : Dev nD) (t : Fin cfg3.N) : (iblk3 (F := Ideal) V c 8 t : Vec Ideal S128x128 .f32) = V c main_v60 := by
  have e := idx_facts3 t
  funext y
  unfold iblk3
  rw [View.read_apply]
  show V c main_v60 _ = V c main_v60 _
  congr 1
  funext a; apply Fin.ext
  match a with
  | ⟨0, _⟩ => show win3_8.index t (0 : Fin 2) * 128 + 1 * (y 0).val = (y 0).val; omega
  | ⟨1, _⟩ => show win3_8.index t (1 : Fin 2) * 128 + 1 * (y 1).val = (y 1).val; omega

private theorem iblk3_9_eq (c : Dev nD) (t : Fin cfg3.N) : (iblk3 (F := Ideal) V c 9 t : Vec Ideal S1x128 .f32) = V c main_v68 := by
  have e := idx_facts3 t
  funext y
  unfold iblk3
  rw [View.read_apply]
  show V c main_v68 _ = V c main_v68 _
  congr 1
  funext a; apply Fin.ext
  match a with
  | ⟨0, _⟩ => show win3_9.index t (0 : Fin 2) * 1 + 1 * (y 0).val = (y 0).val; omega
  | ⟨1, _⟩ => show win3_9.index t (1 : Fin 2) * 128 + 1 * (y 1).val = (y 1).val; omega

private theorem iblk3_0_apply (c : Dev nD) (t : Fin cfg3.N) (j : S10000x128.Idx) (l : Fin 128) :
    (iblk3 (F := Ideal) V c 0 t : Vec Ideal S10000x128 .f32) (ix2 (j 0) l)
      = (V c main_v36 : S50000x128.Idx → Elt Ideal .f32) (ix2 ((((cfg3.win 10).blk t).view.emb j : S50000x128.Idx) 0) l) := by
  have e := idx_facts3 t
  unfold iblk3
  rw [View.read_apply]
  show V c main_v36 _ = V c main_v36 _
  congr 1
  funext a; apply Fin.ext
  match a with
  | ⟨0, _⟩ => show win3_0.index t (0 : Fin 2) * 10000 + 1 * (j 0).val = win3_10.index t (0 : Fin 2) * 10000 + 1 * (j 0).val; omega
  | ⟨1, _⟩ => show win3_0.index t (1 : Fin 2) * 128 + 1 * l.val = l.val; omega

private theorem iblk3_1_apply (c : Dev nD) (t : Fin cfg3.N) (j : S10000x128.Idx) (l : Fin 128) :
    (iblk3 (F := Ideal) V c 1 t : Vec Ideal S10000x128 .f32) (ix2 (j 0) l)
      = (V c main_v46 : S50000x128.Idx → Elt Ideal .f32) (ix2 ((((cfg3.win 10).blk t).view.emb j : S50000x128.Idx) 0) l) := by
  have e := idx_facts3 t
  unfold iblk3
  rw [View.read_apply]
  show V c main_v46 _ = V c main_v46 _
  congr 1
  funext a; apply Fin.ext
  match a with
  | ⟨0, _⟩ => show win3_1.index t (0 : Fin 2) * 10000 + 1 * (j 0).val = win3_10.index t (0 : Fin 2) * 10000 + 1 * (j 0).val; omega
  | ⟨1, _⟩ => show win3_1.index t (1 : Fin 2) * 128 + 1 * l.val = l.val; omega

private theorem flushed3_10_eq (c : Dev nD) (t : Fin cfg3.N) :
    (dat3 (F := Ideal) V c).flushed 10 t = ((cfg3.win 10).blk t).view.read (Elt Ideal)
      (nodeRelu (R := 50000) (V c main_v36) (V c main_v46) (V c main_v48) (V c main_v63) (V c main_v64) (V c main_v65)
        (V c main_v66) (V c main_v67) (V c main_v60) (V c main_v68)) := by
  show (cfg3.win 10).cut (grid3.coords t) ((dat3 V c).after 10 t) = _
  rw [after3_10, out3_10_eq (iblk3 V c 0 t) (iblk3 V c 1 t) (iblk3 V c 2 t) (iblk3 V c 3 t) (iblk3 V c 4 t)
    (iblk3 V c 5 t) (iblk3 V c 6 t) (iblk3 V c 7 t) (iblk3 V c 8 t) (iblk3 V c 9 t),
    iblk3_2_eq V c t, iblk3_3_eq V c t, iblk3_4_eq V c t, iblk3_5_eq V c t, iblk3_6_eq V c t, iblk3_7_eq V c t,
    iblk3_8_eq V c t, iblk3_9_eq V c t]
  have e := idx_facts3 t
  funext j
  refine (nodeRelu_of_rows (R := 50000) (R' := 10000) (V c main_v36) (V c main_v46) (iblk3 V c 0 t) (iblk3 V c 1 t)
    (V c main_v48) (V c main_v63) (V c main_v64) (V c main_v65) (V c main_v66) (V c main_v67) (V c main_v60)
    (V c main_v68) (((cfg3.win 10).blk t).view.emb j) j ?_ (fun l => iblk3_0_apply V c t j l)
    (fun l => iblk3_1_apply V c t j l))
  apply Fin.ext
  show (j 1).val = win3_10.index t (1 : Fin 2) * 128 + 1 * (j 1).val
  omega

theorem node3 (c : Dev nD) :
    (dat3 (F := Ideal) V c).arrAt 10 cfg3.N
      = nodeRelu (R := 50000) (V c main_v36) (V c main_v46) (V c main_v48) (V c main_v63) (V c main_v64) (V c main_v65)
          (V c main_v66) (V c main_v67) (V c main_v60) (V c main_v68) := by
  refine (dat3 V c).arrAt_eq_of_cover 10 _ (fun t _ => flushed3_10_eq V c t) fun i => ?_
  have hi0 : ((i 0 : Fin 50000) : Nat) < 50000 := (i 0).isLt
  have hi1 : ((i 1 : Fin 128) : Nat) < 128 := (i 1).isLt
  have hN : cfg3.N = 5 := N_3
  obtain ⟨t, ht⟩ : ∃ t : Fin cfg3.N, t.val = ((i 0 : Fin 50000) : Nat) / 10000 := ⟨⟨_, by rw [hN]; omega⟩, rfl⟩
  have e := idx_facts3 t
  refine ⟨t, flush3_10 t, ?_⟩
  show i ∈ ((View.whole main_v69).slice (win3_10.rect t)).set
  rw [View.set_slice_whole, Rect.mem_set_unit]
  intro a
  match a with
  | ⟨0, _⟩ =>
    show win3_10.index t (0 : Fin 2) * 10000 ≤ ((i 0 : Fin 50000) : Nat)
      ∧ ((i 0 : Fin 50000) : Nat) < win3_10.index t (0 : Fin 2) * 10000 + 10000
    omega
  | ⟨1, _⟩ =>
    show win3_10.index t (1 : Fin 2) * 128 ≤ ((i 1 : Fin 128) : Nat)
      ∧ ((i 1 : Fin 128) : Nat) < win3_10.index t (1 : Fin 2) * 128 + 128
    omega

end Cert.KernelIdeal.Val

end
-- ==== Proof.KLayer1.lean ====
import proofs.«405621_j9088150798515_1_alg».proof.Proof.Gen.KernelIdeal.Frame
import proofs.«405621_j9088150798515_1_alg».proof.Proof.KDefs
import proofs.«405621_j9088150798515_1_alg».proof.Proof.KPass
import proofs.«405621_j9088150798515_1_alg».proof.Proof.KEdge2
import proofs.«405621_j9088150798515_1_alg».proof.Proof.KNode3
import Idealize.ShloMosaic.Lib.StableHlo.Run
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.Pass Cert.Gine

variable (m : (ℓ : Loc nD τ sig) → Buf (Elt Ideal) ℓ) (ρ : Dev nD → PrngReg)

private theorem srcRow (c : Dev nD) :
    W1 (F := Ideal) m ρ c (Proc.devRef .tc main_v1) = srcK (m ((c : Thread nD τ).loc main_arg1)) := by
  show StableHlo.after hostOps0 (W0 m ρ c) (Proc.devRef .tc main_v1) = _
  after_results
  rfl

private theorem dstRow (c : Dev nD) :
    W1 (F := Ideal) m ρ c (Proc.devRef .tc main_v3) = dstK (m ((c : Thread nD τ).loc main_arg1)) := by
  show StableHlo.after hostOps0 (W0 m ρ c) (Proc.devRef .tc main_v3) = _
  after_results
  rfl

private theorem readRows (c : Dev nD) :
    W7 (F := Ideal) m ρ c (Proc.devRef .tc main_v37)
      = takeK (m ((c : Thread nD τ).loc main_arg1)) (W6 m ρ c (Proc.devRef .tc main_v36)) := by
  show StableHlo.after hostOps2 (W6 m ρ c) (Proc.devRef .tc main_v37) = _
  after_results_simp
  simp only [TRef.ofBuf, TRef.toBuf, cast_eq]
  rw [(show W6 m ρ c (Proc.devRef .tc main_v1) = W1 m ρ c (Proc.devRef .tc main_v1) from keep m ρ c main_v1 1 6), srcRow m ρ c]
  unfold takeK fetchK inBounds posCol wrapPos
  rfl

private theorem edgeWeight (c : Dev nD) :
    W8 (F := Ideal) m ρ c (Proc.devRef .tc main_v39) = weK (m ((c : Thread nD τ).loc main_arg4)) 1 := by
  show StableHlo.after hostOps2_1 (W7 m ρ c) (Proc.devRef .tc main_v39) = _
  after_results
  rw [(show W6 m ρ c (Proc.devRef .tc main_arg4) = _ from arg m ρ c main_arg4 6)]
  rfl

private theorem edgeBias (c : Dev nD) :
    W8 (F := Ideal) m ρ c (Proc.devRef .tc main_v42) = rowOf (vecK (m ((c : Thread nD τ).loc main_arg5)) 1) := by
  show StableHlo.after hostOps2_1 (W7 m ρ c) (Proc.devRef .tc main_v42) = _
  after_results
  rw [(show W6 m ρ c (Proc.devRef .tc main_arg5) = _ from arg m ρ c main_arg5 6)]
  exact shapeCast_row _ _

private theorem messages (c : Dev nD) :
    W9 (F := Ideal) m ρ c (Proc.devRef .tc main_v43)
      = edgeMsg (R := 600000) (takeK (m ((c : Thread nD τ).loc main_arg1)) (W6 m ρ c (Proc.devRef .tc main_v36)))
          (m ((c : Thread nD τ).loc main_arg2)) (weK (m ((c : Thread nD τ).loc main_arg4)) 1) (rowOf (vecK (m ((c : Thread nD τ).loc main_arg5)) 1)) := by
  refine ((W9_arr m ρ c 4).trans (edge2 (V8 m ρ) c)).trans ?_
  show edgeMsg (R := 600000) (W8 m ρ c (Proc.devRef .tc main_v37)) (W8 m ρ c (Proc.devRef .tc main_arg2))
      (W8 m ρ c (Proc.devRef .tc main_v39)) (W8 m ρ c (Proc.devRef .tc main_v42)) = _
  rw [(show W8 m ρ c (Proc.devRef .tc main_v37) = W7 m ρ c (Proc.devRef .tc main_v37) from keep m ρ c main_v37 7 8), readRows m ρ c, (show W8 m ρ c (Proc.devRef .tc main_arg2) = _ from arg m ρ c main_arg2 8), edgeWeight m ρ c, edgeBias m ρ c]

private theorem messageSum (c : Dev nD) :
    W10 (F := Ideal) m ρ c (Proc.devRef .tc main_v46)
      = aggK (m ((c : Thread nD τ).loc main_arg1)) (W9 m ρ c (Proc.devRef .tc main_v43)) := by
  show StableHlo.after hostOps3 (W9 m ρ c) (Proc.devRef .tc main_v46) = _
  after_results
  rw [(show W9 m ρ c (Proc.devRef .tc main_v3) = W1 m ρ c (Proc.devRef .tc main_v3) from keep m ρ c main_v3 1 9), dstRow m ρ c]
  rfl

private theorem weight1 (c : Dev nD) :
    W10 (F := Ideal) m ρ c (Proc.devRef .tc main_v48) = matK (m ((c : Thread nD τ).loc main_arg6)) 1 := by
  show StableHlo.after hostOps3 (W9 m ρ c) (Proc.devRef .tc main_v48) = _
  after_results
  rw [(show W9 m ρ c (Proc.devRef .tc main_arg6) = _ from arg m ρ c main_arg6 9)]
  rfl

private theorem weight2 (c : Dev nD) :
    W10 (F := Ideal) m ρ c (Proc.devRef .tc main_v60) = matK (m ((c : Thread nD τ).loc main_arg12)) 1 := by
  show StableHlo.after hostOps3 (W9 m ρ c) (Proc.devRef .tc main_v60) = _
  after_results
  rw [(show W9 m ρ c (Proc.devRef .tc main_arg12) = _ from arg m ρ c main_arg12 9)]
  rfl

private theorem bias1_row (c : Dev nD) :
    W10 (F := Ideal) m ρ c (Proc.devRef .tc main_v63) = rowOf (vecK (m ((c : Thread nD τ).loc main_arg7)) 1) := by
  show StableHlo.after hostOps3 (W9 m ρ c) (Proc.devRef .tc main_v63) = _
  after_results
  rw [(show W9 m ρ c (Proc.devRef .tc main_arg7) = _ from arg m ρ c main_arg7 9)]
  exact shapeCast_row _ _

private theorem scale_row (c : Dev nD) :
    W10 (F := Ideal) m ρ c (Proc.devRef .tc main_v64) = rowOf (vecK (m ((c : Thread nD τ).loc main_arg8)) 1) := by
  show StableHlo.after hostOps3 (W9 m ρ c) (Proc.devRef .tc main_v64) = _
  after_results
  rw [(show W9 m ρ c (Proc.devRef .tc main_arg8) = _ from arg m ρ c main_arg8 9)]
  exact shapeCast_row _ _

private theorem shift_row (c : Dev nD) :
    W10 (F := Ideal) m ρ c (Proc.devRef .tc main_v65) = rowOf (vecK (m ((c : Thread nD τ).loc main_arg9)) 1) := by
  show StableHlo.after hostOps3 (W9 m ρ c) (Proc.devRef .tc main_v65) = _
  after_results
  rw [(show W9 m ρ c (Proc.devRef .tc main_arg9) = _ from arg m ρ c main_arg9 9)]
  exact shapeCast_row _ _

private theorem mean_row (c : Dev nD) :
    W10 (F := Ideal) m ρ c (Proc.devRef .tc main_v66) = rowOf (vecK (m ((c : Thread nD τ).loc main_arg10)) 1) := by
  show StableHlo.after hostOps3 (W9 m ρ c) (Proc.devRef .tc main_v66) = _
  after_results
  rw [(show W9 m ρ c (Proc.devRef .tc main_arg10) = _ from arg m ρ c main_arg10 9)]
  exact shapeCast_row _ _

private theorem var_row (c : Dev nD) :
    W10 (F := Ideal) m ρ c (Proc.devRef .tc main_v67) = rowOf (vecK (m ((c : Thread nD τ).loc main_arg11)) 1) := by
  show StableHlo.after hostOps3 (W9 m ρ c) (Proc.devRef .tc main_v67) = _
  after_results
  rw [(show W9 m ρ c (Proc.devRef .tc main_arg11) = _ from arg m ρ c main_arg11 9)]
  exact shapeCast_row _ _

private theorem bias2_row (c : Dev nD) :
    W10 (F := Ideal) m ρ c (Proc.devRef .tc main_v68) = rowOf (vecK (m ((c : Thread nD τ).loc main_arg13)) 1) := by
  show StableHlo.after hostOps3 (W9 m ρ c) (Proc.devRef .tc main_v68) = _
  after_results
  rw [(show W9 m ρ c (Proc.devRef .tc main_arg13) = _ from arg m ρ c main_arg13 9)]
  exact shapeCast_row _ _

/-- The node array after layer 1: the launch's value, with each array it was handed read back to what wrote it. -/
theorem layer1 (c : Dev nD) :
    W11 (F := Ideal) m ρ c (Proc.devRef .tc main_v69)
      = layerRelu 1 (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
          (W6 m ρ c (Proc.devRef .tc main_v36)) := by
  refine ((W11_arr m ρ c 10).trans (node3 (V10 m ρ) c)).trans ?_
  show nodeRelu (R := 50000) (W10 m ρ c (Proc.devRef .tc main_v36)) (W10 m ρ c (Proc.devRef .tc main_v46))
      (W10 m ρ c (Proc.devRef .tc main_v48)) (W10 m ρ c (Proc.devRef .tc main_v63)) (W10 m ρ c (Proc.devRef .tc main_v64))
      (W10 m ρ c (Proc.devRef .tc main_v65)) (W10 m ρ c (Proc.devRef .tc main_v66)) (W10 m ρ c (Proc.devRef .tc main_v67))
      (W10 m ρ c (Proc.devRef .tc main_v60)) (W10 m ρ c (Proc.devRef .tc main_v68)) = _
  rw [(show W10 m ρ c (Proc.devRef .tc main_v36) = W6 m ρ c (Proc.devRef .tc main_v36) from keep m ρ c main_v36 6 10), messageSum m ρ c, messages m ρ c, weight1 m ρ c, bias1_row m ρ c, scale_row m ρ c,
    shift_row m ρ c, mean_row m ρ c, var_row m ρ c, weight2 m ρ c, bias2_row m ρ c]
  rfl

end Cert.KernelIdeal.Val

end
-- ==== Proof.KEdge4.lean ====
/-
  What edge-message launch 4 leaves in its output array.

  The launch walks 50 blocks of 12000 edges. At block t it reads rows 12000·t … 12000·t + 11999 of the source-row array
  and of the edge-attribute array, the whole 64 × 128 weight and the one bias row, and writes the same rows of the
  output. Each written row is the edge message of that edge (Spec: `edgeMsg`), which depends on that edge's rows only;
  so block t of the output is rows 12000·t … of the message array of the WHOLE inputs, the 50 blocks cover every edge,
  and the output array after the launch is the message array.
-/
import proofs.«405621_j9088150798515_1_alg».proof.Proof.Gen.KernelIdeal.Frame
import proofs.«405621_j9088150798515_1_alg».proof.Proof.Spec
import proofs.«405621_j9088150798515_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gine

variable (V : (c : Dev nD) → (b : Ref sig .tc) → Buf (Elt Ideal) ((c : Thread nD τ).loc b))

/-- The zero offsets of a whole-block rectangle, as the constant function. -/
private theorem hz4 : (![0, 0] : Fin 2 → Nat) = fun _ => 0 := funext fun a => by fin_cases a <;> rfl

/-- WHAT THE BODY LEAVES in the output block is the edge message of its four input blocks: at (p, q) the product reads
    Σ_κ ea (p, κ) · W (κ, q) into a zero accumulator, the one bias row is repeated down the rows, the format changes
    are the identity on the extended reals, and the clip is against the constant zero. -/
private theorem out4_4_eq (x0 : Vec Ideal S12000x128 .f32) (x1 : Vec Ideal S12000x64 .f32) (x2 : Vec Ideal S64x128 .f32)
    (x3 : Vec Ideal S1x128 .f32) :
    out4_4 (F := Ideal) x0 x1 x2 x3 = edgeMsg (R := 12000) x0 x1 x2 x3 := by
  funext j
  obtain ⟨p, q, rfl⟩ : ∃ p q, j = ix2 p q := ⟨j 0, j 1, eq_ix2 j⟩
  unfold out4_4
  rw [View.canon_unit_zero hz4]
  simp only [View.ld_unit_zero (S := S12000x128) hz4, View.ld_unit_zero (S := S12000x64) hz4,
    View.ld_unit_zero (S := S64x128) hz4, View.ld_unit_zero (S := S1x128) hz4]
  unfold k4_pay1
  simp only [maximumf_apply, addf_apply, broadcast_apply, shapeCast_self, matmul]
  rw [Cert.LibDot.matmul_rows_apply _ rfl rfl rfl rfl rfl rfl]
  rw [broadcastTo_apply x3 broadcasts_S1x128_S12000x128 (ix2 p q) (ix2 0 q) (fun a => by
    match a with
    | ⟨0, _⟩ => rfl
    | ⟨1, _⟩ => rfl)]
  simp only [constant_apply, truncf_apply, Ideal.ofBits_zero_f32, zero_add]
  rw [show (FloatOps.ofBits (F := Ideal) .f32 0x00000000#32) = (0 : EReal) from Ideal.ofBits_zero_f32]
  rfl

/-- A ROW OF THE MESSAGE DEPENDS ON THAT EDGE'S ROWS ONLY: if row r of one pair of row arrays is row r' of another, and
    the two weights and the two bias rows agree in column q, then the two messages agree at (r, q) and (r', q). -/
private theorem edgeMsg_row {R R' : Nat} (xs : Mat R 128) (ea : Mat R 64) (W : Mat 64 128) (b : Mat 1 128)
    (xs' : Mat R' 128) (ea' : Mat R' 64) (W' : Mat 64 128) (b' : Mat 1 128) (r : Fin R) (r' : Fin R') (q : Fin 128)
    (h0 : xs (ix2 r q) = xs' (ix2 r' q)) (h1 : ∀ κ : Fin 64, ea (ix2 r κ) = ea' (ix2 r' κ))
    (h2 : ∀ κ : Fin 64, W (ix2 κ q) = W' (ix2 κ q)) (h3 : b (ix2 0 q) = b' (ix2 0 q)) :
    edgeMsg xs ea W b (ix2 r q) = edgeMsg xs' ea' W' b' (ix2 r' q) := by
  show max (xs (ix2 r q) + ((∑ κ : Fin 64, ea (ix2 r κ) * W (ix2 κ q)) + b (ix2 0 q))) 0
    = max (xs' (ix2 r' q) + ((∑ κ : Fin 64, ea' (ix2 r' κ) * W' (ix2 κ q)) + b' (ix2 0 q))) 0
  rw [h0, h3, Finset.sum_congr rfl fun κ _ => by rw [h1 κ, h2 κ]]

/-- The printed index maps, decided over the 50 points: the two row-blocked inputs and the output sit at block row t,
    column block 0; the weight and the bias row sit at block (0, 0) at every point. -/
private theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- WHAT POINT t WRITES BACK is block t of the message array of the WHOLE inputs: the body leaves the message of its four
    blocks; the output block's (j₀, j₁) is the array's (12000·t + j₀, j₁); the two row-blocked inputs' blocks hold rows
    12000·t … of their arrays, the weight's and the bias row's blocks are their whole arrays; and a row of the message
    depends on that edge's rows only. -/
private theorem flushed4_4_eq (c : Dev nD) (t : Fin cfg4.N) :
    (dat4 (F := Ideal) V c).flushed 4 t
      = ((cfg4.win 4).blk t).view.read (Elt Ideal)
          (edgeMsg (R := 600000) (V c main_v70) (V c main_arg2) (V c main_v72) (V c main_v75)) := by
  show (cfg4.win 4).cut (grid4.coords t) ((dat4 (F := Ideal) V c).after 4 t) = _
  rw [after4_4]
  rw [out4_4_eq (iblk4 V c 0 t) (iblk4 V c 1 t) (iblk4 V c 2 t) (iblk4 V c 3 t)]
  obtain ⟨e00, e01, e10, e11, e20, e21, e30, e31, e40, e41⟩ := idx_facts4 t
  funext j
  have hj0 : (j 0).val < 12000 := (j 0).isLt
  have hj1 : (j 1).val < 128 := (j 1).isLt
  show edgeMsg (R := 12000) (iblk4 V c 0 t) (iblk4 V c 1 t) (iblk4 V c 2 t) (iblk4 V c 3 t)
      (ix2 (n0 := 12000) (n1 := 128) ⟨(j 0).val, hj0⟩ ⟨(j 1).val, hj1⟩)
    = edgeMsg (R := 600000) (V c main_v70) (V c main_arg2) (V c main_v72) (V c main_v75)
      (ix2 (n0 := 600000) (n1 := 128) ((((cfg4.win 4).blk t).view.emb j) 0) ((((cfg4.win 4).blk t).view.emb j) 1))
  have ht : t.val < 50 := lt_of_lt_of_eq t.isLt N_4
  have hE0 : ((cfg4.win 4).blk t).view.emb j 0 = (⟨t.val * 12000 + (j 0).val, by omega⟩ : Fin 600000) :=
    Fin.ext (by show win4_4.index t (0 : Fin 2) * 12000 + 1 * (j 0).val = t.val * 12000 + (j 0).val; omega)
  have hE1 : ((cfg4.win 4).blk t).view.emb j 1 = (⟨(j 1).val, hj1⟩ : Fin 128) :=
    Fin.ext (by show win4_4.index t (1 : Fin 2) * 128 + 1 * (j 1).val = (j 1).val; omega)
  rw [hE0, hE1]
  apply edgeMsg_row
  · show V c main_v70 (((cfg4.win 0).blk t).view.emb (ix2 (n0 := 12000) (n1 := 128) ⟨(j 0).val, hj0⟩ ⟨(j 1).val, hj1⟩)) = _
    refine congrArg (V c main_v70) (funext fun a => Fin.ext ?_)
    match a with
    | ⟨0, _⟩ => show win4_0.index t (0 : Fin 2) * 12000 + 1 * (j 0).val = t.val * 12000 + (j 0).val; omega
    | ⟨1, _⟩ => show win4_0.index t (1 : Fin 2) * 128 + 1 * (j 1).val = (j 1).val; omega
  · intro κ
    have hκ : κ.val < 64 := κ.isLt
    show V c main_arg2 (((cfg4.win 1).blk t).view.emb (ix2 (n0 := 12000) (n1 := 64) ⟨(j 0).val, hj0⟩ κ)) = _
    refine congrArg (V c main_arg2) (funext fun a => Fin.ext ?_)
    match a with
    | ⟨0, _⟩ => show win4_1.index t (0 : Fin 2) * 12000 + 1 * (j 0).val = t.val * 12000 + (j 0).val; omega
    | ⟨1, _⟩ => show win4_1.index t (1 : Fin 2) * 64 + 1 * κ.val = κ.val; omega
  · intro κ
    have hκ : κ.val < 64 := κ.isLt
    show V c main_v72 (((cfg4.win 2).blk t).view.emb (ix2 (n0 := 64) (n1 := 128) κ ⟨(j 1).val, hj1⟩)) = _
    refine congrArg (V c main_v72) (funext fun a => Fin.ext ?_)
    match a with
    | ⟨0, _⟩ => show win4_2.index t (0 : Fin 2) * 64 + 1 * κ.val = κ.val; omega
    | ⟨1, _⟩ => show win4_2.index t (1 : Fin 2) * 128 + 1 * (j 1).val = (j 1).val; omega
  · show V c main_v75 (((cfg4.win 3).blk t).view.emb (ix2 (n0 := 1) (n1 := 128) 0 ⟨(j 1).val, hj1⟩)) = _
    refine congrArg (V c main_v75) (funext fun a => Fin.ext ?_)
    match a with
    | ⟨0, _⟩ => show win4_3.index t (0 : Fin 2) * 1 + 1 * 0 = 0; omega
    | ⟨1, _⟩ => show win4_3.index t (1 : Fin 2) * 128 + 1 * (j 1).val = (j 1).val; omega

/-- An index of the output array is in point t's block iff each coordinate is in the block's range on its axis. -/
private theorem mem_blk4_4 (t : Fin cfg4.N) (i : S600000x128.Idx) :
    i ∈ ((cfg4.win 4).blk t).view.set ↔ ∀ a : Fin 2, win4_4.index t a * S12000x128.size a ≤ (i a).val
      ∧ (i a).val < win4_4.index t a * S12000x128.size a + S12000x128.size a := by
  show i ∈ ((View.whole main_v76).slice (win4_4.rect t)).set ↔ _
  rw [View.set_slice_whole, Rect.mem_set_unit]
  exact Iff.rfl

/-- THE BLOCKS COVER THE ARRAY: row r lies in the block of the point r / 12000, which is written back. -/
private theorem covered4_4 (i : S600000x128.Idx) :
    ∃ t : Fin cfg4.N, (cfg4.win 4).flush t = true ∧ i ∈ ((cfg4.win 4).blk t).view.set := by
  have hi0 : (i 0).val < 600000 := (i 0).isLt
  have hi1 : (i 1).val < 128 := (i 1).isLt
  obtain ⟨t, ht⟩ : ∃ t : Fin cfg4.N, t.val = (i 0).val / 12000 :=
    ⟨⟨(i 0).val / 12000, lt_of_lt_of_eq (by omega : (i 0).val / 12000 < 50) N_4.symm⟩, rfl⟩
  obtain ⟨-, -, -, -, -, -, -, -, e40, e41⟩ := idx_facts4 t
  refine ⟨t, flush4_4 t, ?_⟩
  rw [mem_blk4_4]
  intro a
  match a with
  | ⟨0, _⟩ =>
    show win4_4.index t (0 : Fin 2) * 12000 ≤ (i 0).val ∧ (i 0).val < win4_4.index t (0 : Fin 2) * 12000 + 12000
    omega
  | ⟨1, _⟩ =>
    show win4_4.index t (1 : Fin 2) * 128 ≤ (i 1).val ∧ (i 1).val < win4_4.index t (1 : Fin 2) * 128 + 128
    omega

/-- THE OUTPUT ARRAY OF LAUNCH 4 after its 50 blocks: the edge messages of the arrays the launch found. -/
theorem edge4 (c : Dev nD) :
    (dat4 (F := Ideal) V c).arrAt 4 cfg4.N
      = edgeMsg (R := 600000) (V c main_v70) (V c main_arg2) (V c main_v72) (V c main_v75) :=
  (dat4 (F := Ideal) V c).arrAt_eq_of_cover 4 _ (fun t _ => flushed4_4_eq V c t) covered4_4

end Cert.KernelIdeal.Val

end
-- ==== Proof.KNode5.lean ====
/-
  What node-update launch 5 leaves in its output array: the node update (Spec: `nodeRelu`) of the arrays it found, block by
  block over 5 blocks of 10000 nodes, as for launch 1.
-/
import proofs.«405621_j9088150798515_1_alg».proof.Proof.Gen.KernelIdeal.Frame
import proofs.«405621_j9088150798515_1_alg».proof.Proof.Spec
import proofs.«405621_j9088150798515_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gine

variable (V : (c : Dev nD) → (b : Ref sig .tc) → Buf (Elt Ideal) ((c : Thread nD τ).loc b))

/-- The zero offsets of a whole-block rectangle. -/
private theorem hz5 : (![0, 0] : Fin 2 → Nat) = fun _ => 0 := funext fun a => by fin_cases a <;> rfl

/-- THE HIDDEN ROW of a block of 10000 nodes, coordinate by coordinate: the body's first product of the summed rows
    with the first weight, plus the first bias, normalised (scale · (· − mean) · rsqrt (variance + ε) + shift) and
    clipped at zero. The two format changes are the identity on extended reals, and the product into the zero
    accumulator is the bare sum. -/
private theorem pay2_apply5 (x agg : Vec Ideal S10000x128 .f32) (W1 : Vec Ideal S128x128 .f32)
    (b1 g rm rv bt : Vec Ideal S1x128 .f32) (n : Fin 10000) (κ : Fin 128) :
    k5_pay2 (F := Ideal) x agg W1 b1 g rm rv bt (ix2 n κ) = Cert.Gine.hidden (R := 10000) x agg W1 b1 g bt rm rv n κ := by
  unfold k5_pay2
  simp only [truncf_apply, maximumf_apply, addf_apply, mulf_apply, subf_apply, broadcast_apply, shapeCast_self,
    broadcastTo_1b_ab_apply, matmul]
  rw [Cert.LibDot.matmul_rows_apply _ rfl rfl rfl rfl rfl rfl]
  simp only [truncf_apply, addf_apply, constant_apply, Ideal.ofBits_zero_f32, zero_add, rsqrt, Ideal.rsqrt_def,
    broadcast_apply]
  have h0 : (FloatOps.ofBits .f32 0#32 : Ideal .f32) = 0 := Ideal.ofBits_zero_f32
  rw [h0]
  rfl

/-- The second weight as the body hands it on: a reshape to its own shape, the identity. -/
private theorem pay3_apply5 (W2 : Vec Ideal S128x128 .f32) (κ j : Fin 128) : k5_pay3 (F := Ideal) W2 (ix2 κ j) = W2 (ix2 κ j) := by
  unfold k5_pay3
  simp only [shapeCast_self]

/-- WHAT THE BODY LEAVES in the output block, as a function of the ten blocks it read: the node update of those
    10000 rows. -/
private theorem out5_10_eq (x0 x1 : Vec Ideal S10000x128 .f32) (x2 : Vec Ideal S128x128 .f32)
    (x3 x4 x5 x6 x7 : Vec Ideal S1x128 .f32) (x8 : Vec Ideal S128x128 .f32) (x9 : Vec Ideal S1x128 .f32) :
    out5_10 (F := Ideal) x0 x1 x2 x3 x4 x5 x6 x7 x8 x9 = nodeRelu (R := 10000) x0 x1 x2 x3 x4 x5 x6 x7 x8 x9 := by
  funext j
  obtain ⟨p, q, rfl⟩ : ∃ p q, j = ix2 p q := ⟨j 0, j 1, eq_ix2 j⟩
  unfold out5_10
  rw [View.canon_unit_zero hz5]
  simp only [View.ld_unit_zero (S := S10000x128) hz5, View.ld_unit_zero (S := S128x128) hz5,
    View.ld_unit_zero (S := S1x128) hz5]
  unfold k5_pay1
  simp only [maximumf_apply, addf_apply, broadcast_apply, shapeCast_self, broadcastTo_1b_ab_apply, matmul]
  rw [Cert.LibDot.matmul_rows_apply _ rfl rfl rfl rfl rfl rfl]
  simp only [constant_apply, Ideal.ofBits_zero_f32, zero_add, truncf_apply]
  rw [Finset.sum_congr rfl (fun κ _ => by rw [pay2_apply5, pay3_apply5])]
  have h0 : (FloatOps.ofBits .f32 0#32 : Ideal .f32) = 0 := Ideal.ofBits_zero_f32
  rw [h0]
  rfl

/-- The node update of a row depends on that row of the node array and of the aggregated messages only: two
    pairs of arrays, of any heights, that agree on one row each give that row the same update. -/
private theorem nodeRelu_of_rows {R R' : Nat} (x agg : Mat R 128) (x' agg' : Mat R' 128) (W1 : Mat 128 128)
    (b1 g bt rm rv : Mat 1 128) (W2 : Mat 128 128) (b2 : Mat 1 128)
    (i : (⟨2, ![R, 128]⟩ : Shape).Idx) (i' : (⟨2, ![R', 128]⟩ : Shape).Idx) (h1 : (i' 1 : Fin 128) = (i 1 : Fin 128))
    (hx : ∀ l : Fin 128, x' (ix2 (i' 0) l) = x (ix2 (i 0) l))
    (hagg : ∀ l : Fin 128, agg' (ix2 (i' 0) l) = agg (ix2 (i 0) l)) :
    nodeRelu x' agg' W1 b1 g bt rm rv W2 b2 i' = nodeRelu x agg W1 b1 g bt rm rv W2 b2 i := by
  unfold nodeRelu nodeLin Cert.Gine.hidden
  simp only [h1, hx, hagg]

/-- The printed index maps, decided over the grid: the two row windows move with the output window along the
    rows and stay at column block 0, as the output does; the weights' and the rows-of-128 windows stay at
    block (0, 0), so each of their blocks is its whole array. -/
private theorem idx_facts5 : ∀ t : Fin cfg5.N,
    win5_0.index t (0 : Fin 2) = win5_10.index t (0 : Fin 2) ∧ win5_0.index t (1 : Fin 2) = win5_10.index t (1 : Fin 2)
    ∧ win5_1.index t (0 : Fin 2) = win5_10.index t (0 : Fin 2) ∧ win5_1.index t (1 : Fin 2) = win5_10.index t (1 : Fin 2)
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = 0 ∧ win5_9.index t (1 : Fin 2) = 0
    ∧ win5_10.index t (0 : Fin 2) = t.val ∧ win5_10.index t (1 : Fin 2) = 0 :=
  (by decide +kernel : ∀ t : Fin grid5.N, _)

/-- The first weight's block at any point is the whole array. -/
private theorem iblk5_2_eq (c : Dev nD) (t : Fin cfg5.N) : (iblk5 (F := Ideal) V c 2 t : Vec Ideal S128x128 .f32) = V c main_v81 := by
  have e := idx_facts5 t
  funext y
  unfold iblk5
  rw [View.read_apply]
  show V c main_v81 _ = V c main_v81 _
  congr 1
  funext a; apply Fin.ext
  match a with
  | ⟨0, _⟩ => show win5_2.index t (0 : Fin 2) * 128 + 1 * (y 0).val = (y 0).val; omega
  | ⟨1, _⟩ => show win5_2.index t (1 : Fin 2) * 128 + 1 * (y 1).val = (y 1).val; omega

/-- The first bias's block at any point is the whole array. -/
private theorem iblk5_3_eq (c : Dev nD) (t : Fin cfg5.N) : (iblk5 (F := Ideal) V c 3 t : Vec Ideal S1x128 .f32) = V c main_v96 := by
  have e := idx_facts5 t
  funext y
  unfold iblk5
  rw [View.read_apply]
  show V c main_v96 _ = V c main_v96 _
  congr 1
  funext a; apply Fin.ext
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- The scale's block at any point is the whole array. -/
private theorem iblk5_4_eq (c : Dev nD) (t : Fin cfg5.N) : (iblk5 (F := Ideal) V c 4 t : Vec Ideal S1x128 .f32) = V c main_v97 := by
  have e := idx_facts5 t
  funext y
  unfold iblk5
  rw [View.read_apply]
  show V c main_v97 _ = V c main_v97 _
  congr 1
  funext a; apply Fin.ext
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- The shift's block at any point is the whole array. -/
private theorem iblk5_5_eq (c : Dev nD) (t : Fin cfg5.N) : (iblk5 (F := Ideal) V c 5 t : Vec Ideal S1x128 .f32) = V c main_v98 := by
  have e := idx_facts5 t
  funext y
  unfold iblk5
  rw [View.read_apply]
  show V c main_v98 _ = V c main_v98 _
  congr 1
  funext a; apply Fin.ext
  match a with
  | ⟨0, _⟩ => show win5_5.index t (0 : Fin 2) * 1 + 1 * (y 0).val = (y 0).val; omega
  | ⟨1, _⟩ => show win5_5.index t (1 : Fin 2) * 128 + 1 * (y 1).val = (y 1).val; omega

/-- The mean's block at any point is the whole array. -/
private theorem iblk5_6_eq (c : Dev nD) (t : Fin cfg5.N) : (iblk5 (F := Ideal) V c 6 t : Vec Ideal S1x128 .f32) = V c main_v99 := by
  have e := idx_facts5 t
  funext y
  unfold iblk5
  rw [View.read_apply]
  show V c main_v99 _ = V c main_v99 _
  congr 1
  funext a; apply Fin.ext
  match a with
  | ⟨0, _⟩ => show win5_6.index t (0 : Fin 2) * 1 + 1 * (y 0).val = (y 0).val; omega
  | ⟨1, _⟩ => show win5_6.index t (1 : Fin 2) * 128 + 1 * (y 1).val = (y 1).val; omega

/-- The variance's block at any point is the whole array. -/
private theorem iblk5_7_eq (c : Dev nD) (t : Fin cfg5.N) : (iblk5 (F := Ideal) V c 7 t : Vec Ideal S1x128 .f32) = V c main_v100 := by
  have e := idx_facts5 t
  funext y
  unfold iblk5
  rw [View.read_apply]
  show V c main_v100 _ = V c main_v100 _
  congr 1
  funext a; apply Fin.ext
  match a with
  | ⟨0, _⟩ => show win5_7.index t (0 : Fin 2) * 1 + 1 * (y 0).val = (y 0).val; omega
  | ⟨1, _⟩ => show win5_7.index t (1 : Fin 2) * 128 + 1 * (y 1).val = (y 1).val; omega

/-- The second weight's block at any point is the whole array. -/
private theorem iblk5_8_eq (c : Dev nD) (t : Fin cfg5.N) : (iblk5 (F := Ideal) V c 8 t : Vec Ideal S128x128 .f32) = V c main_v93 := by
  have e := idx_facts5 t
  funext y
  unfold iblk5
  rw [View.read_apply]
  show V c main_v93 _ = V c main_v93 _
  congr 1
  funext a; apply Fin.ext
  match a with
  | ⟨0, _⟩ => show win5_8.index t (0 : Fin 2) * 128 + 1 * (y 0).val = (y 0).val; omega
  | ⟨1, _⟩ => show win5_8.index t (1 : Fin 2) * 128 + 1 * (y 1).val = (y 1).val; omega

/-- The second bias's block at any point is the whole array. -/
private theorem iblk5_9_eq (c : Dev nD) (t : Fin cfg5.N) : (iblk5 (F := Ideal) V c 9 t : Vec Ideal S1x128 .f32) = V c main_v101 := by
  have e := idx_facts5 t
  funext y
  unfold iblk5
  rw [View.read_apply]
  show V c main_v101 _ = V c main_v101 _
  congr 1
  funext a; apply Fin.ext
  match a with
  | ⟨0, _⟩ => show win5_9.index t (0 : Fin 2) * 1 + 1 * (y 0).val = (y 0).val; omega
  | ⟨1, _⟩ => show win5_9.index t (1 : Fin 2) * 128 + 1 * (y 1).val = (y 1).val; omega

/-- The node rows' block at a point, read at a row and a column, is the array read where the output's block puts that
    row and column. -/
private theorem iblk5_0_apply (c : Dev nD) (t : Fin cfg5.N) (j : S10000x128.Idx) (l : Fin 128) :
    (iblk5 (F := Ideal) V c 0 t : Vec Ideal S10000x128 .f32) (ix2 (j 0) l)
      = (V c main_v69 : S50000x128.Idx → Elt Ideal .f32) (ix2 ((((cfg5.win 10).blk t).view.emb j : S50000x128.Idx) 0) l) := by
  have e := idx_facts5 t
  unfold iblk5
  rw [View.read_apply]
  show V c main_v69 _ = V c main_v69 _
  congr 1
  funext a; apply Fin.ext
  match a with
  | ⟨0, _⟩ => show win5_0.index t (0 : Fin 2) * 10000 + 1 * (j 0).val = win5_10.index t (0 : Fin 2) * 10000 + 1 * (j 0).val; omega
  | ⟨1, _⟩ => show win5_0.index t (1 : Fin 2) * 128 + 1 * l.val = l.val; omega

/-- The aggregated messages' block at a point, read at a row and a column, is the array read where the output's block puts that
    row and column. -/
private theorem iblk5_1_apply (c : Dev nD) (t : Fin cfg5.N) (j : S10000x128.Idx) (l : Fin 128) :
    (iblk5 (F := Ideal) V c 1 t : Vec Ideal S10000x128 .f32) (ix2 (j 0) l)
      = (V c main_v79 : S50000x128.Idx → Elt Ideal .f32) (ix2 ((((cfg5.win 10).blk t).view.emb j : S50000x128.Idx) 0) l) := by
  have e := idx_facts5 t
  unfold iblk5
  rw [View.read_apply]
  show V c main_v79 _ = V c main_v79 _
  congr 1
  funext a; apply Fin.ext
  match a with
  | ⟨0, _⟩ => show win5_1.index t (0 : Fin 2) * 10000 + 1 * (j 0).val = win5_10.index t (0 : Fin 2) * 10000 + 1 * (j 0).val; omega
  | ⟨1, _⟩ => show win5_1.index t (1 : Fin 2) * 128 + 1 * l.val = l.val; omega

/-- WHAT POINT t WRITES BACK is block t of the node update of the WHOLE arrays as the launch found them: the body
    leaves the update of its 10000 rows; the eight small windows hold their whole arrays; and a row of the update
    reads that row of the two row arrays only, which the two row windows hold where the output's block puts it. -/
private theorem flushed5_10_eq (c : Dev nD) (t : Fin cfg5.N) :
    (dat5 (F := Ideal) V c).flushed 10 t = ((cfg5.win 10).blk t).view.read (Elt Ideal)
      (nodeRelu (R := 50000) (V c main_v69) (V c main_v79) (V c main_v81) (V c main_v96) (V c main_v97) (V c main_v98)
        (V c main_v99) (V c main_v100) (V c main_v93) (V c main_v101)) := by
  show (cfg5.win 10).cut (grid5.coords t) ((dat5 V c).after 10 t) = _
  rw [after5_10, out5_10_eq (iblk5 V c 0 t) (iblk5 V c 1 t) (iblk5 V c 2 t) (iblk5 V c 3 t) (iblk5 V c 4 t)
    (iblk5 V c 5 t) (iblk5 V c 6 t) (iblk5 V c 7 t) (iblk5 V c 8 t) (iblk5 V c 9 t),
    iblk5_2_eq V c t, iblk5_3_eq V c t, iblk5_4_eq V c t, iblk5_5_eq V c t, iblk5_6_eq V c t, iblk5_7_eq V c t,
    iblk5_8_eq V c t, iblk5_9_eq V c t]
  have e := idx_facts5 t
  funext j
  refine (nodeRelu_of_rows (R := 50000) (R' := 10000) (V c main_v69) (V c main_v79) (iblk5 V c 0 t) (iblk5 V c 1 t)
    (V c main_v81) (V c main_v96) (V c main_v97) (V c main_v98) (V c main_v99) (V c main_v100) (V c main_v93)
    (V c main_v101) (((cfg5.win 10).blk t).view.emb j) j ?_ (fun l => iblk5_0_apply V c t j l)
    (fun l => iblk5_1_apply V c t j l))
  apply Fin.ext
  show (j 1).val = win5_10.index t (1 : Fin 2) * 128 + 1 * (j 1).val
  omega

/-- THE OUTPUT ARRAY OF LAUNCH 5 after its 5 blocks: the node update of the arrays the launch found: node rows,
    aggregated messages, first weight, first bias, scale, shift, mean, variance, second weight, second bias. -/
theorem node5 (c : Dev nD) :
    (dat5 (F := Ideal) V c).arrAt 10 cfg5.N
      = nodeRelu (R := 50000) (V c main_v69) (V c main_v79) (V c main_v81) (V c main_v96) (V c main_v97) (V c main_v98)
          (V c main_v99) (V c main_v100) (V c main_v93) (V c main_v101) := by
  -- every point writes its block back, and row r of the array lies in the block of point r / 10000
  refine (dat5 V c).arrAt_eq_of_cover 10 _ (fun t _ => flushed5_10_eq V c t) fun i => ?_
  have hi0 : ((i 0 : Fin 50000) : Nat) < 50000 := (i 0).isLt
  have hi1 : ((i 1 : Fin 128) : Nat) < 128 := (i 1).isLt
  have hN : cfg5.N = 5 := N_5
  obtain ⟨t, ht⟩ : ∃ t : Fin cfg5.N, t.val = ((i 0 : Fin 50000) : Nat) / 10000 := ⟨⟨_, by rw [hN]; omega⟩, rfl⟩
  have e := idx_facts5 t
  refine ⟨t, flush5_10 t, ?_⟩
  show i ∈ ((View.whole main_v102).slice (win5_10.rect t)).set
  rw [View.set_slice_whole, Rect.mem_set_unit]
  intro a
  match a with
  | ⟨0, _⟩ =>
    show win5_10.index t (0 : Fin 2) * 10000 ≤ ((i 0 : Fin 50000) : Nat)
      ∧ ((i 0 : Fin 50000) : Nat) < win5_10.index t (0 : Fin 2) * 10000 + 10000
    omega
  | ⟨1, _⟩ =>
    show win5_10.index t (1 : Fin 2) * 128 ≤ ((i 1 : Fin 128) : Nat)
      ∧ ((i 1 : Fin 128) : Nat) < win5_10.index t (1 : Fin 2) * 128 + 128
    omega

end Cert.KernelIdeal.Val

end
-- ==== Proof.KLayer2.lean ====
import proofs.«405621_j9088150798515_1_alg».proof.Proof.Gen.KernelIdeal.Frame
import proofs.«405621_j9088150798515_1_alg».proof.Proof.KDefs
import proofs.«405621_j9088150798515_1_alg».proof.Proof.KPass
import proofs.«405621_j9088150798515_1_alg».proof.Proof.KEdge4
import proofs.«405621_j9088150798515_1_alg».proof.Proof.KNode5
import Idealize.ShloMosaic.Lib.StableHlo.Run
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.Pass Cert.Gine

variable (m : (ℓ : Loc nD τ sig) → Buf (Elt Ideal) ℓ) (ρ : Dev nD → PrngReg)

private theorem src_at1 (c : Dev nD) :
    W1 (F := Ideal) m ρ c (Proc.devRef .tc main_v1) = srcK (m ((c : Thread nD τ).loc main_arg1)) := by
  show StableHlo.after hostOps0 (W0 m ρ c) (Proc.devRef .tc main_v1) = _
  after_results
  rfl

private theorem dst_at1 (c : Dev nD) :
    W1 (F := Ideal) m ρ c (Proc.devRef .tc main_v3) = dstK (m ((c : Thread nD τ).loc main_arg1)) := by
  show StableHlo.after hostOps0 (W0 m ρ c) (Proc.devRef .tc main_v3) = _
  after_results
  rfl

private theorem we_at13 (c : Dev nD) :
    W13 (F := Ideal) m ρ c (Proc.devRef .tc main_v72) = weK (m ((c : Thread nD τ).loc main_arg4)) 2 := by
  show StableHlo.after hostOps4_1 (W12 m ρ c) (Proc.devRef .tc main_v72) = _
  after_results
  rw [(show W11 m ρ c (Proc.devRef .tc main_arg4) = _ from arg m ρ c main_arg4 11)]
  rfl

private theorem be_at13 (c : Dev nD) :
    W13 (F := Ideal) m ρ c (Proc.devRef .tc main_v75) = rowOf (vecK (m ((c : Thread nD τ).loc main_arg5)) 2) := by
  show StableHlo.after hostOps4_1 (W12 m ρ c) (Proc.devRef .tc main_v75) = _
  after_results
  rw [(show W11 m ρ c (Proc.devRef .tc main_arg5) = _ from arg m ρ c main_arg5 11)]
  exact shapeCast_row (vecK (m ((c : Thread nD τ).loc main_arg5)) 2) shapeCasts_S128_S1x128

private theorem take_at12 (c : Dev nD) :
    W12 (F := Ideal) m ρ c (Proc.devRef .tc main_v70)
      = takeK (m ((c : Thread nD τ).loc main_arg1)) (W11 m ρ c (Proc.devRef .tc main_v69)) := by
  show StableHlo.after hostOps4 (W11 m ρ c) (Proc.devRef .tc main_v70) = _
  after_results_simp
  simp only [TRef.ofBuf, TRef.toBuf, cast_eq]
  rw [(show W11 m ρ c (Proc.devRef .tc main_v1) = W1 m ρ c (Proc.devRef .tc main_v1) from keep m ρ c main_v1 1 11), src_at1 m ρ c]
  unfold takeK fetchK inBounds posCol wrapPos
  rfl

private theorem agg_at15 (c : Dev nD) :
    W15 (F := Ideal) m ρ c (Proc.devRef .tc main_v79)
      = aggK (m ((c : Thread nD τ).loc main_arg1)) (W14 m ρ c (Proc.devRef .tc main_v76)) := by
  show StableHlo.after hostOps5 (W14 m ρ c) (Proc.devRef .tc main_v79) = _
  after_results
  rw [(show W14 m ρ c (Proc.devRef .tc main_v3) = W1 m ρ c (Proc.devRef .tc main_v3) from keep m ρ c main_v3 1 14), dst_at1 m ρ c]
  rfl

private theorem w1_at15 (c : Dev nD) :
    W15 (F := Ideal) m ρ c (Proc.devRef .tc main_v81) = matK (m ((c : Thread nD τ).loc main_arg6)) 2 := by
  show StableHlo.after hostOps5 (W14 m ρ c) (Proc.devRef .tc main_v81) = _
  after_results
  rw [(show W14 m ρ c (Proc.devRef .tc main_arg6) = _ from arg m ρ c main_arg6 14)]
  rfl

private theorem b1_at15 (c : Dev nD) :
    W15 (F := Ideal) m ρ c (Proc.devRef .tc main_v96) = rowOf (vecK (m ((c : Thread nD τ).loc main_arg7)) 2) := by
  show StableHlo.after hostOps5 (W14 m ρ c) (Proc.devRef .tc main_v96) = _
  after_results
  rw [(show W14 m ρ c (Proc.devRef .tc main_arg7) = _ from arg m ρ c main_arg7 14)]
  exact shapeCast_row (vecK (m ((c : Thread nD τ).loc main_arg7)) 2) shapeCasts_S128_S1x128

private theorem g_at15 (c : Dev nD) :
    W15 (F := Ideal) m ρ c (Proc.devRef .tc main_v97) = rowOf (vecK (m ((c : Thread nD τ).loc main_arg8)) 2) := by
  show StableHlo.after hostOps5 (W14 m ρ c) (Proc.devRef .tc main_v97) = _
  after_results
  rw [(show W14 m ρ c (Proc.devRef .tc main_arg8) = _ from arg m ρ c main_arg8 14)]
  exact shapeCast_row (vecK (m ((c : Thread nD τ).loc main_arg8)) 2) shapeCasts_S128_S1x128

private theorem bt_at15 (c : Dev nD) :
    W15 (F := Ideal) m ρ c (Proc.devRef .tc main_v98) = rowOf (vecK (m ((c : Thread nD τ).loc main_arg9)) 2) := by
  show StableHlo.after hostOps5 (W14 m ρ c) (Proc.devRef .tc main_v98) = _
  after_results
  rw [(show W14 m ρ c (Proc.devRef .tc main_arg9) = _ from arg m ρ c main_arg9 14)]
  exact shapeCast_row (vecK (m ((c : Thread nD τ).loc main_arg9)) 2) shapeCasts_S128_S1x128

private theorem rm_at15 (c : Dev nD) :
    W15 (F := Ideal) m ρ c (Proc.devRef .tc main_v99) = rowOf (vecK (m ((c : Thread nD τ).loc main_arg10)) 2) := by
  show StableHlo.after hostOps5 (W14 m ρ c) (Proc.devRef .tc main_v99) = _
  after_results
  rw [(show W14 m ρ c (Proc.devRef .tc main_arg10) = _ from arg m ρ c main_arg10 14)]
  exact shapeCast_row (vecK (m ((c : Thread nD τ).loc main_arg10)) 2) shapeCasts_S128_S1x128

private theorem rv_at15 (c : Dev nD) :
    W15 (F := Ideal) m ρ c (Proc.devRef .tc main_v100) = rowOf (vecK (m ((c : Thread nD τ).loc main_arg11)) 2) := by
  show StableHlo.after hostOps5 (W14 m ρ c) (Proc.devRef .tc main_v100) = _
  after_results
  rw [(show W14 m ρ c (Proc.devRef .tc main_arg11) = _ from arg m ρ c main_arg11 14)]
  exact shapeCast_row (vecK (m ((c : Thread nD τ).loc main_arg11)) 2) shapeCasts_S128_S1x128

private theorem w2_at15 (c : Dev nD) :
    W15 (F := Ideal) m ρ c (Proc.devRef .tc main_v93) = matK (m ((c : Thread nD τ).loc main_arg12)) 2 := by
  show StableHlo.after hostOps5 (W14 m ρ c) (Proc.devRef .tc main_v93) = _
  after_results
  rw [(show W14 m ρ c (Proc.devRef .tc main_arg12) = _ from arg m ρ c main_arg12 14)]
  rfl

private theorem b2_at15 (c : Dev nD) :
    W15 (F := Ideal) m ρ c (Proc.devRef .tc main_v101) = rowOf (vecK (m ((c : Thread nD τ).loc main_arg13)) 2) := by
  show StableHlo.after hostOps5 (W14 m ρ c) (Proc.devRef .tc main_v101) = _
  after_results
  rw [(show W14 m ρ c (Proc.devRef .tc main_arg13) = _ from arg m ρ c main_arg13 14)]
  exact shapeCast_row (vecK (m ((c : Thread nD τ).loc main_arg13)) 2) shapeCasts_S128_S1x128

private theorem msg_at14 (c : Dev nD) :
    W14 (F := Ideal) m ρ c (Proc.devRef .tc main_v76)
      = edgeMsg (R := 600000)
          (takeK (m ((c : Thread nD τ).loc main_arg1)) (W11 m ρ c (Proc.devRef .tc main_v69)))
          (m ((c : Thread nD τ).loc main_arg2)) (weK (m ((c : Thread nD τ).loc main_arg4)) 2)
          (rowOf (vecK (m ((c : Thread nD τ).loc main_arg5)) 2)) := by
  refine ((W14_arr m ρ c 4).trans (edge4 (V13 m ρ) c)).trans ?_
  show edgeMsg (R := 600000) (W13 m ρ c (Proc.devRef .tc main_v70)) (W13 m ρ c (Proc.devRef .tc main_arg2))
      (W13 m ρ c (Proc.devRef .tc main_v72)) (W13 m ρ c (Proc.devRef .tc main_v75)) = _
  rw [(show W13 m ρ c (Proc.devRef .tc main_v70) = W12 m ρ c (Proc.devRef .tc main_v70) from keep m ρ c main_v70 12 13), take_at12 m ρ c, (show W13 m ρ c (Proc.devRef .tc main_arg2) = _ from arg m ρ c main_arg2 13), we_at13 m ρ c, be_at13 m ρ c]

/-- The node array after layer 2: the launch's value, with each array it was handed read back to what wrote it. -/
theorem layer2 (c : Dev nD) :
    W16 (F := Ideal) m ρ c (Proc.devRef .tc main_v102)
      = layerRelu 2 (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
          (W11 m ρ c (Proc.devRef .tc main_v69)) := by
  refine ((W16_arr m ρ c 10).trans (node5 (V15 m ρ) c)).trans ?_
  show nodeRelu (R := 50000) (W15 m ρ c (Proc.devRef .tc main_v69)) (W15 m ρ c (Proc.devRef .tc main_v79))
      (W15 m ρ c (Proc.devRef .tc main_v81)) (W15 m ρ c (Proc.devRef .tc main_v96)) (W15 m ρ c (Proc.devRef .tc main_v97))
      (W15 m ρ c (Proc.devRef .tc main_v98)) (W15 m ρ c (Proc.devRef .tc main_v99)) (W15 m ρ c (Proc.devRef .tc main_v100))
      (W15 m ρ c (Proc.devRef .tc main_v93)) (W15 m ρ c (Proc.devRef .tc main_v101)) = _
  rw [(show W15 m ρ c (Proc.devRef .tc main_v69) = W11 m ρ c (Proc.devRef .tc main_v69) from keep m ρ c main_v69 11 15), agg_at15 m ρ c, msg_at14 m ρ c, w1_at15 m ρ c, b1_at15 m ρ c, g_at15 m ρ c, bt_at15 m ρ c,
    rm_at15 m ρ c, rv_at15 m ρ c, w2_at15 m ρ c, b2_at15 m ρ c]
  rfl

end Cert.KernelIdeal.Val

end
-- ==== Proof.KEdge6.lean ====
/-
  What edge-message launch 6 leaves in its output array.

  The launch walks 50 blocks of 12000 edges. At block t it reads rows 12000·t … 12000·t + 11999 of the source-row array
  and of the edge-attribute array, the whole 64 × 128 weight and the one bias row, and writes the same rows of the
  output. Each written row is the edge message of that edge (Spec: `edgeMsg`), which depends on that edge's rows only;
  so block t of the output is rows 12000·t … of the message array of the WHOLE inputs, the 50 blocks cover every edge,
  and the output array after the launch is the message array.
-/
import proofs.«405621_j9088150798515_1_alg».proof.Proof.Gen.KernelIdeal.Frame
import proofs.«405621_j9088150798515_1_alg».proof.Proof.Spec
import proofs.«405621_j9088150798515_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gine

variable (V : (c : Dev nD) → (b : Ref sig .tc) → Buf (Elt Ideal) ((c : Thread nD τ).loc b))

/-- The zero offsets of a whole-block rectangle, as the constant function. -/
private theorem hz6 : (![0, 0] : Fin 2 → Nat) = fun _ => 0 := funext fun a => by fin_cases a <;> rfl

/-- WHAT THE BODY LEAVES in the output block is the edge message of its four input blocks: at (p, q) the product reads
    Σ_κ ea (p, κ) · W (κ, q) into a zero accumulator, the one bias row is repeated down the rows, the format changes
    are the identity on the extended reals, and the clip is against the constant zero. -/
private theorem out6_4_eq (x0 : Vec Ideal S12000x128 .f32) (x1 : Vec Ideal S12000x64 .f32) (x2 : Vec Ideal S64x128 .f32)
    (x3 : Vec Ideal S1x128 .f32) :
    out6_4 (F := Ideal) x0 x1 x2 x3 = edgeMsg (R := 12000) x0 x1 x2 x3 := by
  funext j
  obtain ⟨p, q, rfl⟩ : ∃ p q, j = ix2 p q := ⟨j 0, j 1, eq_ix2 j⟩
  unfold out6_4
  rw [View.canon_unit_zero hz6]
  simp only [View.ld_unit_zero (S := S12000x128) hz6, View.ld_unit_zero (S := S12000x64) hz6,
    View.ld_unit_zero (S := S64x128) hz6, View.ld_unit_zero (S := S1x128) hz6]
  unfold k6_pay1
  simp only [maximumf_apply, addf_apply, broadcast_apply, shapeCast_self, matmul]
  rw [Cert.LibDot.matmul_rows_apply _ rfl rfl rfl rfl rfl rfl]
  rw [broadcastTo_apply x3 broadcasts_S1x128_S12000x128 (ix2 p q) (ix2 0 q) (fun a => by
    match a with
    | ⟨0, _⟩ => rfl
    | ⟨1, _⟩ => rfl)]
  simp only [constant_apply, truncf_apply, Ideal.ofBits_zero_f32, zero_add]
  rw [show (FloatOps.ofBits (F := Ideal) .f32 0x00000000#32) = (0 : EReal) from Ideal.ofBits_zero_f32]
  rfl

/-- A ROW OF THE MESSAGE DEPENDS ON THAT EDGE'S ROWS ONLY: if row r of one pair of row arrays is row r' of another, and
    the two weights and the two bias rows agree in column q, then the two messages agree at (r, q) and (r', q). -/
private theorem edgeMsg_row {R R' : Nat} (xs : Mat R 128) (ea : Mat R 64) (W : Mat 64 128) (b : Mat 1 128)
    (xs' : Mat R' 128) (ea' : Mat R' 64) (W' : Mat 64 128) (b' : Mat 1 128) (r : Fin R) (r' : Fin R') (q : Fin 128)
    (h0 : xs (ix2 r q) = xs' (ix2 r' q)) (h1 : ∀ κ : Fin 64, ea (ix2 r κ) = ea' (ix2 r' κ))
    (h2 : ∀ κ : Fin 64, W (ix2 κ q) = W' (ix2 κ q)) (h3 : b (ix2 0 q) = b' (ix2 0 q)) :
    edgeMsg xs ea W b (ix2 r q) = edgeMsg xs' ea' W' b' (ix2 r' q) := by
  show max (xs (ix2 r q) + ((∑ κ : Fin 64, ea (ix2 r κ) * W (ix2 κ q)) + b (ix2 0 q))) 0
    = max (xs' (ix2 r' q) + ((∑ κ : Fin 64, ea' (ix2 r' κ) * W' (ix2 κ q)) + b' (ix2 0 q))) 0
  rw [h0, h3, Finset.sum_congr rfl fun κ _ => by rw [h1 κ, h2 κ]]

/-- The printed index maps, decided over the 50 points: the two row-blocked inputs and the output sit at block row t,
    column block 0; the weight and the bias row sit at block (0, 0) at every point. -/
private theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- WHAT POINT t WRITES BACK is block t of the message array of the WHOLE inputs: the body leaves the message of its four
    blocks; the output block's (j₀, j₁) is the array's (12000·t + j₀, j₁); the two row-blocked inputs' blocks hold rows
    12000·t … of their arrays, the weight's and the bias row's blocks are their whole arrays; and a row of the message
    depends on that edge's rows only. -/
private theorem flushed6_4_eq (c : Dev nD) (t : Fin cfg6.N) :
    (dat6 (F := Ideal) V c).flushed 4 t
      = ((cfg6.win 4).blk t).view.read (Elt Ideal)
          (edgeMsg (R := 600000) (V c main_v103) (V c main_arg2) (V c main_v105) (V c main_v108)) := by
  show (cfg6.win 4).cut (grid6.coords t) ((dat6 (F := Ideal) V c).after 4 t) = _
  rw [after6_4]
  rw [out6_4_eq (iblk6 V c 0 t) (iblk6 V c 1 t) (iblk6 V c 2 t) (iblk6 V c 3 t)]
  obtain ⟨e00, e01, e10, e11, e20, e21, e30, e31, e40, e41⟩ := idx_facts6 t
  funext j
  have hj0 : (j 0).val < 12000 := (j 0).isLt
  have hj1 : (j 1).val < 128 := (j 1).isLt
  show edgeMsg (R := 12000) (iblk6 V c 0 t) (iblk6 V c 1 t) (iblk6 V c 2 t) (iblk6 V c 3 t)
      (ix2 (n0 := 12000) (n1 := 128) ⟨(j 0).val, hj0⟩ ⟨(j 1).val, hj1⟩)
    = edgeMsg (R := 600000) (V c main_v103) (V c main_arg2) (V c main_v105) (V c main_v108)
      (ix2 (n0 := 600000) (n1 := 128) ((((cfg6.win 4).blk t).view.emb j) 0) ((((cfg6.win 4).blk t).view.emb j) 1))
  have ht : t.val < 50 := lt_of_lt_of_eq t.isLt N_6
  have hE0 : ((cfg6.win 4).blk t).view.emb j 0 = (⟨t.val * 12000 + (j 0).val, by omega⟩ : Fin 600000) :=
    Fin.ext (by show win6_4.index t (0 : Fin 2) * 12000 + 1 * (j 0).val = t.val * 12000 + (j 0).val; omega)
  have hE1 : ((cfg6.win 4).blk t).view.emb j 1 = (⟨(j 1).val, hj1⟩ : Fin 128) :=
    Fin.ext (by show win6_4.index t (1 : Fin 2) * 128 + 1 * (j 1).val = (j 1).val; omega)
  rw [hE0, hE1]
  apply edgeMsg_row
  · show V c main_v103 (((cfg6.win 0).blk t).view.emb (ix2 (n0 := 12000) (n1 := 128) ⟨(j 0).val, hj0⟩ ⟨(j 1).val, hj1⟩)) = _
    refine congrArg (V c main_v103) (funext fun a => Fin.ext ?_)
    match a with
    | ⟨0, _⟩ => show win6_0.index t (0 : Fin 2) * 12000 + 1 * (j 0).val = t.val * 12000 + (j 0).val; omega
    | ⟨1, _⟩ => show win6_0.index t (1 : Fin 2) * 128 + 1 * (j 1).val = (j 1).val; omega
  · intro κ
    have hκ : κ.val < 64 := κ.isLt
    show V c main_arg2 (((cfg6.win 1).blk t).view.emb (ix2 (n0 := 12000) (n1 := 64) ⟨(j 0).val, hj0⟩ κ)) = _
    refine congrArg (V c main_arg2) (funext fun a => Fin.ext ?_)
    match a with
    | ⟨0, _⟩ => show win6_1.index t (0 : Fin 2) * 12000 + 1 * (j 0).val = t.val * 12000 + (j 0).val; omega
    | ⟨1, _⟩ => show win6_1.index t (1 : Fin 2) * 64 + 1 * κ.val = κ.val; omega
  · intro κ
    have hκ : κ.val < 64 := κ.isLt
    show V c main_v105 (((cfg6.win 2).blk t).view.emb (ix2 (n0 := 64) (n1 := 128) κ ⟨(j 1).val, hj1⟩)) = _
    refine congrArg (V c main_v105) (funext fun a => Fin.ext ?_)
    match a with
    | ⟨0, _⟩ => show win6_2.index t (0 : Fin 2) * 64 + 1 * κ.val = κ.val; omega
    | ⟨1, _⟩ => show win6_2.index t (1 : Fin 2) * 128 + 1 * (j 1).val = (j 1).val; omega
  · show V c main_v108 (((cfg6.win 3).blk t).view.emb (ix2 (n0 := 1) (n1 := 128) 0 ⟨(j 1).val, hj1⟩)) = _
    refine congrArg (V c main_v108) (funext fun a => Fin.ext ?_)
    match a with
    | ⟨0, _⟩ => show win6_3.index t (0 : Fin 2) * 1 + 1 * 0 = 0; omega
    | ⟨1, _⟩ => show win6_3.index t (1 : Fin 2) * 128 + 1 * (j 1).val = (j 1).val; omega

/-- An index of the output array is in point t's block iff each coordinate is in the block's range on its axis. -/
private theorem mem_blk6_4 (t : Fin cfg6.N) (i : S600000x128.Idx) :
    i ∈ ((cfg6.win 4).blk t).view.set ↔ ∀ a : Fin 2, win6_4.index t a * S12000x128.size a ≤ (i a).val
      ∧ (i a).val < win6_4.index t a * S12000x128.size a + S12000x128.size a := by
  show i ∈ ((View.whole main_v109).slice (win6_4.rect t)).set ↔ _
  rw [View.set_slice_whole, Rect.mem_set_unit]
  exact Iff.rfl

/-- THE BLOCKS COVER THE ARRAY: row r lies in the block of the point r / 12000, which is written back. -/
private theorem covered6_4 (i : S600000x128.Idx) :
    ∃ t : Fin cfg6.N, (cfg6.win 4).flush t = true ∧ i ∈ ((cfg6.win 4).blk t).view.set := by
  have hi0 : (i 0).val < 600000 := (i 0).isLt
  have hi1 : (i 1).val < 128 := (i 1).isLt
  obtain ⟨t, ht⟩ : ∃ t : Fin cfg6.N, t.val = (i 0).val / 12000 :=
    ⟨⟨(i 0).val / 12000, lt_of_lt_of_eq (by omega : (i 0).val / 12000 < 50) N_6.symm⟩, rfl⟩
  obtain ⟨-, -, -, -, -, -, -, -, e40, e41⟩ := idx_facts6 t
  refine ⟨t, flush6_4 t, ?_⟩
  rw [mem_blk6_4]
  intro a
  match a with
  | ⟨0, _⟩ =>
    show win6_4.index t (0 : Fin 2) * 12000 ≤ (i 0).val ∧ (i 0).val < win6_4.index t (0 : Fin 2) * 12000 + 12000
    omega
  | ⟨1, _⟩ =>
    show win6_4.index t (1 : Fin 2) * 128 ≤ (i 1).val ∧ (i 1).val < win6_4.index t (1 : Fin 2) * 128 + 128
    omega

/-- THE OUTPUT ARRAY OF LAUNCH 6 after its 50 blocks: the edge messages of the arrays the launch found. -/
theorem edge6 (c : Dev nD) :
    (dat6 (F := Ideal) V c).arrAt 4 cfg6.N
      = edgeMsg (R := 600000) (V c main_v103) (V c main_arg2) (V c main_v105) (V c main_v108) :=
  (dat6 (F := Ideal) V c).arrAt_eq_of_cover 4 _ (fun t _ => flushed6_4_eq V c t) covered6_4

end Cert.KernelIdeal.Val

end
-- ==== Proof.KNode7.lean ====
import proofs.«405621_j9088150798515_1_alg».proof.Proof.Gen.KernelIdeal.Frame
import proofs.«405621_j9088150798515_1_alg».proof.Proof.Spec
import proofs.«405621_j9088150798515_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gine

variable (V : (c : Dev nD) → (b : Ref sig .tc) → Buf (Elt Ideal) ((c : Thread nD τ).loc b))

private theorem hz7 : (![0, 0] : Fin 2 → Nat) = fun _ => 0 := funext fun a => by fin_cases a <;> rfl

private theorem pay2_apply7 (x agg : Vec Ideal S10000x128 .f32) (W1 : Vec Ideal S128x128 .f32)
    (b1 g rm rv bt : Vec Ideal S1x128 .f32) (n : Fin 10000) (κ : Fin 128) :
    k7_pay2 (F := Ideal) x agg W1 b1 g rm rv bt (ix2 n κ) = Cert.Gine.hidden (R := 10000) x agg W1 b1 g bt rm rv n κ := by
  unfold k7_pay2
  simp only [truncf_apply, maximumf_apply, addf_apply, mulf_apply, subf_apply, broadcast_apply, shapeCast_self,
    broadcastTo_1b_ab_apply, matmul]
  rw [Cert.LibDot.matmul_rows_apply _ rfl rfl rfl rfl rfl rfl]
  simp only [truncf_apply, addf_apply, constant_apply, Ideal.ofBits_zero_f32, zero_add, rsqrt, Ideal.rsqrt_def,
    broadcast_apply]
  have h0 : (FloatOps.ofBits .f32 0#32 : Ideal .f32) = 0 := Ideal.ofBits_zero_f32
  rw [h0]
  rfl

private theorem pay3_apply7 (W2 : Vec Ideal S128x128 .f32) (κ j : Fin 128) : k7_pay3 (F := Ideal) W2 (ix2 κ j) = W2 (ix2 κ j) := by
  unfold k7_pay3
  simp only [shapeCast_self]

private theorem out7_10_eq (x0 x1 : Vec Ideal S10000x128 .f32) (x2 : Vec Ideal S128x128 .f32)
    (x3 x4 x5 x6 x7 : Vec Ideal S1x128 .f32) (x8 : Vec Ideal S128x128 .f32) (x9 : Vec Ideal S1x128 .f32) :
    out7_10 (F := Ideal) x0 x1 x2 x3 x4 x5 x6 x7 x8 x9 = nodeLin (R := 10000) x0 x1 x2 x3 x4 x5 x6 x7 x8 x9 := by
  funext j
  obtain ⟨p, q, rfl⟩ : ∃ p q, j = ix2 p q := ⟨j 0, j 1, eq_ix2 j⟩
  unfold out7_10
  rw [View.canon_unit_zero hz7]
  simp only [View.ld_unit_zero (S := S10000x128) hz7, View.ld_unit_zero (S := S128x128) hz7,
    View.ld_unit_zero (S := S1x128) hz7]
  unfold k7_pay1
  simp only [addf_apply, shapeCast_self, broadcastTo_1b_ab_apply, matmul]
  rw [Cert.LibDot.matmul_rows_apply _ rfl rfl rfl rfl rfl rfl]
  simp only [constant_apply, Ideal.ofBits_zero_f32, zero_add, truncf_apply]
  rw [Finset.sum_congr rfl (fun κ _ => by rw [pay2_apply7, pay3_apply7])]
  rfl

private theorem nodeLin_of_rows {R R' : Nat} (x agg : Mat R 128) (x' agg' : Mat R' 128) (W1 : Mat 128 128)
    (b1 g bt rm rv : Mat 1 128) (W2 : Mat 128 128) (b2 : Mat 1 128)
    (i : (⟨2, ![R, 128]⟩ : Shape).Idx) (i' : (⟨2, ![R', 128]⟩ : Shape).Idx) (h1 : (i' 1 : Fin 128) = (i 1 : Fin 128))
    (hx : ∀ l : Fin 128, x' (ix2 (i' 0) l) = x (ix2 (i 0) l))
    (hagg : ∀ l : Fin 128, agg' (ix2 (i' 0) l) = agg (ix2 (i 0) l)) :
    nodeLin x' agg' W1 b1 g bt rm rv W2 b2 i' = nodeLin x agg W1 b1 g bt rm rv W2 b2 i := by
  unfold nodeLin Cert.Gine.hidden
  simp only [h1, hx, hagg]

private theorem idx_facts7 : ∀ t : Fin cfg7.N,
    win7_0.index t (0 : Fin 2) = win7_10.index t (0 : Fin 2) ∧ win7_0.index t (1 : Fin 2) = win7_10.index t (1 : Fin 2)
    ∧ win7_1.index t (0 : Fin 2) = win7_10.index t (0 : Fin 2) ∧ win7_1.index t (1 : Fin 2) = win7_10.index t (1 : Fin 2)
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = 0 ∧ win7_8.index t (1 : Fin 2) = 0
    ∧ win7_9.index t (0 : Fin 2) = 0 ∧ win7_9.index t (1 : Fin 2) = 0
    ∧ win7_10.index t (0 : Fin 2) = t.val ∧ win7_10.index t (1 : Fin 2) = 0 :=
  (by decide +kernel : ∀ t : Fin grid7.N, _)

private theorem iblk7_2_eq (c : Dev nD) (t : Fin cfg7.N) : (iblk7 (F := Ideal) V c 2 t : Vec Ideal S128x128 .f32) = V c main_v114 := by
  have e := idx_facts7 t
  funext y
  unfold iblk7
  rw [View.read_apply]
  show V c main_v114 _ = V c main_v114 _
  congr 1
  funext a; apply Fin.ext
  match a with
  | ⟨0, _⟩ => show win7_2.index t (0 : Fin 2) * 128 + 1 * (y 0).val = (y 0).val; omega
  | ⟨1, _⟩ => show win7_2.index t (1 : Fin 2) * 128 + 1 * (y 1).val = (y 1).val; omega

private theorem iblk7_3_eq (c : Dev nD) (t : Fin cfg7.N) : (iblk7 (F := Ideal) V c 3 t : Vec Ideal S1x128 .f32) = V c main_v129 := by
  have e := idx_facts7 t
  funext y
  unfold iblk7
  rw [View.read_apply]
  show V c main_v129 _ = V c main_v129 _
  congr 1
  funext a; apply Fin.ext
  match a with
  | ⟨0, _⟩ => show win7_3.index t (0 : Fin 2) * 1 + 1 * (y 0).val = (y 0).val; omega
  | ⟨1, _⟩ => show win7_3.index t (1 : Fin 2) * 128 + 1 * (y 1).val = (y 1).val; omega

private theorem iblk7_4_eq (c : Dev nD) (t : Fin cfg7.N) : (iblk7 (F := Ideal) V c 4 t : Vec Ideal S1x128 .f32) = V c main_v130 := by
  have e := idx_facts7 t
  funext y
  unfold iblk7
  rw [View.read_apply]
  show V c main_v130 _ = V c main_v130 _
  congr 1
  funext a; apply Fin.ext
  match a with
  | ⟨0, _⟩ => show win7_4.index t (0 : Fin 2) * 1 + 1 * (y 0).val = (y 0).val; omega
  | ⟨1, _⟩ => show win7_4.index t (1 : Fin 2) * 128 + 1 * (y 1).val = (y 1).val; omega

private theorem iblk7_5_eq (c : Dev nD) (t : Fin cfg7.N) : (iblk7 (F := Ideal) V c 5 t : Vec Ideal S1x128 .f32) = V c main_v131 := by
  have e := idx_facts7 t
  funext y
  unfold iblk7
  rw [View.read_apply]
  show V c main_v131 _ = V c main_v131 _
  congr 1
  funext a; apply Fin.ext
  match a with
  | ⟨0, _⟩ => show win7_5.index t (0 : Fin 2) * 1 + 1 * (y 0).val = (y 0).val; omega
  | ⟨1, _⟩ => show win7_5.index t (1 : Fin 2) * 128 + 1 * (y 1).val = (y 1).val; omega

private theorem iblk7_6_eq (c : Dev nD) (t : Fin cfg7.N) : (iblk7 (F := Ideal) V c 6 t : Vec Ideal S1x128 .f32) = V c main_v132 := by
  have e := idx_facts7 t
  funext y
  unfold iblk7
  rw [View.read_apply]
  show V c main_v132 _ = V c main_v132 _
  congr 1
  funext a; apply Fin.ext
  match a with
  | ⟨0, _⟩ => show win7_6.index t (0 : Fin 2) * 1 + 1 * (y 0).val = (y 0).val; omega
  | ⟨1, _⟩ => show win7_6.index t (1 : Fin 2) * 128 + 1 * (y 1).val = (y 1).val; omega

private theorem iblk7_7_eq (c : Dev nD) (t : Fin cfg7.N) : (iblk7 (F := Ideal) V c 7 t : Vec Ideal S1x128 .f32) = V c main_v133 := by
  have e := idx_facts7 t
  funext y
  unfold iblk7
  rw [View.read_apply]
  show V c main_v133 _ = V c main_v133 _
  congr 1
  funext a; apply Fin.ext
  match a with
  | ⟨0, _⟩ => show win7_7.index t (0 : Fin 2) * 1 + 1 * (y 0).val = (y 0).val; omega
  | ⟨1, _⟩ => show win7_7.index t (1 : Fin 2) * 128 + 1 * (y 1).val = (y 1).val; omega

private theorem iblk7_8_eq (c : Dev nD) (t : Fin cfg7.N) : (iblk7 (F := Ideal) V c 8 t : Vec Ideal S128x128 .f32) = V c main_v126 := by
  have e := idx_facts7 t
  funext y
  unfold iblk7
  rw [View.read_apply]
  show V c main_v126 _ = V c main_v126 _
  congr 1
  funext a; apply Fin.ext
  match a with
  | ⟨0, _⟩ => show win7_8.index t (0 : Fin 2) * 128 + 1 * (y 0).val = (y 0).val; omega
  | ⟨1, _⟩ => show win7_8.index t (1 : Fin 2) * 128 + 1 * (y 1).val = (y 1).val; omega

private theorem iblk7_9_eq (c : Dev nD) (t : Fin cfg7.N) : (iblk7 (F := Ideal) V c 9 t : Vec Ideal S1x128 .f32) = V c main_v134 := by
  have e := idx_facts7 t
  funext y
  unfold iblk7
  rw [View.read_apply]
  show V c main_v134 _ = V c main_v134 _
  congr 1
  funext a; apply Fin.ext
  match a with
  | ⟨0, _⟩ => show win7_9.index t (0 : Fin 2) * 1 + 1 * (y 0).val = (y 0).val; omega
  | ⟨1, _⟩ => show win7_9.index t (1 : Fin 2) * 128 + 1 * (y 1).val = (y 1).val; omega

private theorem iblk7_0_apply (c : Dev nD) (t : Fin cfg7.N) (j : S10000x128.Idx) (l : Fin 128) :
    (iblk7 (F := Ideal) V c 0 t : Vec Ideal S10000x128 .f32) (ix2 (j 0) l)
      = (V c main_v102 : S50000x128.Idx → Elt Ideal .f32) (ix2 ((((cfg7.win 10).blk t).view.emb j : S50000x128.Idx) 0) l) := by
  have e := idx_facts7 t
  unfold iblk7
  rw [View.read_apply]
  show V c main_v102 _ = V c main_v102 _
  congr 1
  funext a; apply Fin.ext
  match a with
  | ⟨0, _⟩ => show win7_0.index t (0 : Fin 2) * 10000 + 1 * (j 0).val = win7_10.index t (0 : Fin 2) * 10000 + 1 * (j 0).val; omega
  | ⟨1, _⟩ => show win7_0.index t (1 : Fin 2) * 128 + 1 * l.val = l.val; omega

private theorem iblk7_1_apply (c : Dev nD) (t : Fin cfg7.N) (j : S10000x128.Idx) (l : Fin 128) :
    (iblk7 (F := Ideal) V c 1 t : Vec Ideal S10000x128 .f32) (ix2 (j 0) l)
      = (V c main_v112 : S50000x128.Idx → Elt Ideal .f32) (ix2 ((((cfg7.win 10).blk t).view.emb j : S50000x128.Idx) 0) l) := by
  have e := idx_facts7 t
  unfold iblk7
  rw [View.read_apply]
  show V c main_v112 _ = V c main_v112 _
  congr 1
  funext a; apply Fin.ext
  match a with
  | ⟨0, _⟩ => show win7_1.index t (0 : Fin 2) * 10000 + 1 * (j 0).val = win7_10.index t (0 : Fin 2) * 10000 + 1 * (j 0).val; omega
  | ⟨1, _⟩ => show win7_1.index t (1 : Fin 2) * 128 + 1 * l.val = l.val; omega

private theorem flushed7_10_eq (c : Dev nD) (t : Fin cfg7.N) :
    (dat7 (F := Ideal) V c).flushed 10 t = ((cfg7.win 10).blk t).view.read (Elt Ideal)
      (nodeLin (R := 50000) (V c main_v102) (V c main_v112) (V c main_v114) (V c main_v129) (V c main_v130) (V c main_v131)
        (V c main_v132) (V c main_v133) (V c main_v126) (V c main_v134)) := by
  show (cfg7.win 10).cut (grid7.coords t) ((dat7 V c).after 10 t) = _
  rw [after7_10, out7_10_eq (iblk7 V c 0 t) (iblk7 V c 1 t) (iblk7 V c 2 t) (iblk7 V c 3 t) (iblk7 V c 4 t)
    (iblk7 V c 5 t) (iblk7 V c 6 t) (iblk7 V c 7 t) (iblk7 V c 8 t) (iblk7 V c 9 t),
    iblk7_2_eq V c t, iblk7_3_eq V c t, iblk7_4_eq V c t, iblk7_5_eq V c t, iblk7_6_eq V c t, iblk7_7_eq V c t,
    iblk7_8_eq V c t, iblk7_9_eq V c t]
  have e := idx_facts7 t
  funext j
  refine (nodeLin_of_rows (R := 50000) (R' := 10000) (V c main_v102) (V c main_v112) (iblk7 V c 0 t) (iblk7 V c 1 t)
    (V c main_v114) (V c main_v129) (V c main_v130) (V c main_v131) (V c main_v132) (V c main_v133) (V c main_v126)
    (V c main_v134) (((cfg7.win 10).blk t).view.emb j) j ?_ (fun l => iblk7_0_apply V c t j l)
    (fun l => iblk7_1_apply V c t j l))
  apply Fin.ext
  show (j 1).val = win7_10.index t (1 : Fin 2) * 128 + 1 * (j 1).val
  omega

theorem node7 (c : Dev nD) :
    (dat7 (F := Ideal) V c).arrAt 10 cfg7.N
      = nodeLin (R := 50000) (V c main_v102) (V c main_v112) (V c main_v114) (V c main_v129) (V c main_v130) (V c main_v131)
          (V c main_v132) (V c main_v133) (V c main_v126) (V c main_v134) := by
  refine (dat7 V c).arrAt_eq_of_cover 10 _ (fun t _ => flushed7_10_eq V c t) fun i => ?_
  have hi0 : ((i 0 : Fin 50000) : Nat) < 50000 := (i 0).isLt
  have hi1 : ((i 1 : Fin 128) : Nat) < 128 := (i 1).isLt
  have hN : cfg7.N = 5 := N_7
  obtain ⟨t, ht⟩ : ∃ t : Fin cfg7.N, t.val = ((i 0 : Fin 50000) : Nat) / 10000 := ⟨⟨_, by rw [hN]; omega⟩, rfl⟩
  have e := idx_facts7 t
  refine ⟨t, flush7_10 t, ?_⟩
  show i ∈ ((View.whole main_v135).slice (win7_10.rect t)).set
  rw [View.set_slice_whole, Rect.mem_set_unit]
  intro a
  match a with
  | ⟨0, _⟩ =>
    show win7_10.index t (0 : Fin 2) * 10000 ≤ ((i 0 : Fin 50000) : Nat)
      ∧ ((i 0 : Fin 50000) : Nat) < win7_10.index t (0 : Fin 2) * 10000 + 10000
    omega
  | ⟨1, _⟩ =>
    show win7_10.index t (1 : Fin 2) * 128 ≤ ((i 1 : Fin 128) : Nat)
      ∧ ((i 1 : Fin 128) : Nat) < win7_10.index t (1 : Fin 2) * 128 + 128
    omega

end Cert.KernelIdeal.Val

end
-- ==== Proof.KLayer3.lean ====
import proofs.«405621_j9088150798515_1_alg».proof.Proof.Gen.KernelIdeal.Frame
import proofs.«405621_j9088150798515_1_alg».proof.Proof.KDefs
import proofs.«405621_j9088150798515_1_alg».proof.Proof.KPass
import proofs.«405621_j9088150798515_1_alg».proof.Proof.KEdge6
import proofs.«405621_j9088150798515_1_alg».proof.Proof.KNode7
import Idealize.ShloMosaic.Lib.StableHlo.Run
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.Pass Cert.Gine

variable (m : (ℓ : Loc nD τ sig) → Buf (Elt Ideal) ℓ) (ρ : Dev nD → PrngReg)

section Stretches

variable (X : Valuation τ sig (Elt Ideal))

private theorem src_ops :
    StableHlo.after (hostOps0 (F := Ideal)) X (Proc.devRef .tc main_v1) = srcK (X (Proc.devRef .tc main_arg1)) := by
  after_results <;> rfl

private theorem dst_ops :
    StableHlo.after (hostOps0 (F := Ideal)) X (Proc.devRef .tc main_v3) = dstK (X (Proc.devRef .tc main_arg1)) := by
  after_results <;> rfl

private theorem take_ops :
    StableHlo.after (hostOps6 (F := Ideal)) X (Proc.devRef .tc main_v103)
      = select
          (broadcastInDim S600000x128 ![0] bcast_S600000_S600000x128_0
            (inBounds bcast_S_S600000 bcast_S600000_S600000x1_0 bcast_S_S600000x1 bcast_S1_S1x1_1 bcast_S1x1_S600000x1_0_1
              reducesTo_S600000x1_S600000_d1 h_S_ (X (Proc.devRef .tc main_v1))))
          (Host.gather gather_S50000x128_S600000x1_S600000x128_1_0_n_n_0_1_1128 (X (Proc.devRef .tc main_v102))
            (posCol bcast_S_S600000 bcast_S600000_S600000x1_0 (X (Proc.devRef .tc main_v1))))
          (broadcastInDim S600000x128 ![] bcast_S_S600000x128 (constant (F := Ideal) S_ .f32 0x7FC00000#32)) := by
  after_results_simp
  simp only [TRef.ofBuf, TRef.toBuf, cast_eq]
  unfold inBounds posCol wrapPos
  rfl

private theorem we_ops :
    StableHlo.after (hostOps6_1 (F := Ideal)) X (Proc.devRef .tc main_v105) = weK (X (Proc.devRef .tc main_arg4)) 3 := by
  after_results <;> rfl

private theorem be_ops :
    StableHlo.after (hostOps6_1 (F := Ideal)) X (Proc.devRef .tc main_v108) = rowOf (vecK (X (Proc.devRef .tc main_arg5)) 3) := by
  after_results
  exact shapeCast_row (vecK (X (Proc.devRef .tc main_arg5)) 3) shapeCasts_S128_S1x128

private theorem agg_ops :
    StableHlo.after (hostOps7 (F := Ideal)) X (Proc.devRef .tc main_v112)
      = Host.scatterAdd scatter_S50000x128_S600000x1_S600000x128_1_0_0_1
          (broadcastInDim S50000x128 ![] bcast_S_S50000x128 (constant (F := Ideal) S_ .f32 0x00000000#32))
          (broadcastInDim S600000x1 ![0] bcast_S600000_S600000x1_0 (X (Proc.devRef .tc main_v3)))
          (X (Proc.devRef .tc main_v109)) := by
  after_results <;> rfl

private theorem w1_ops :
    StableHlo.after (hostOps7 (F := Ideal)) X (Proc.devRef .tc main_v114) = matK (X (Proc.devRef .tc main_arg6)) 3 := by
  after_results <;> rfl

private theorem w2_ops :
    StableHlo.after (hostOps7 (F := Ideal)) X (Proc.devRef .tc main_v126) = matK (X (Proc.devRef .tc main_arg12)) 3 := by
  after_results <;> rfl

private theorem row129_ops :
    StableHlo.after (hostOps7 (F := Ideal)) X (Proc.devRef .tc main_v129) = rowOf (vecK (X (Proc.devRef .tc main_arg7)) 3) := by
  after_results
  exact shapeCast_row (vecK (X (Proc.devRef .tc main_arg7)) 3) shapeCasts_S128_S1x128

private theorem row130_ops :
    StableHlo.after (hostOps7 (F := Ideal)) X (Proc.devRef .tc main_v130) = rowOf (vecK (X (Proc.devRef .tc main_arg8)) 3) := by
  after_results
  exact shapeCast_row (vecK (X (Proc.devRef .tc main_arg8)) 3) shapeCasts_S128_S1x128

private theorem row131_ops :
    StableHlo.after (hostOps7 (F := Ideal)) X (Proc.devRef .tc main_v131) = rowOf (vecK (X (Proc.devRef .tc main_arg9)) 3) := by
  after_results
  exact shapeCast_row (vecK (X (Proc.devRef .tc main_arg9)) 3) shapeCasts_S128_S1x128

private theorem row132_ops :
    StableHlo.after (hostOps7 (F := Ideal)) X (Proc.devRef .tc main_v132) = rowOf (vecK (X (Proc.devRef .tc main_arg10)) 3) := by
  after_results
  exact shapeCast_row (vecK (X (Proc.devRef .tc main_arg10)) 3) shapeCasts_S128_S1x128

private theorem row133_ops :
    StableHlo.after (hostOps7 (F := Ideal)) X (Proc.devRef .tc main_v133) = rowOf (vecK (X (Proc.devRef .tc main_arg11)) 3) := by
  after_results
  exact shapeCast_row (vecK (X (Proc.devRef .tc main_arg11)) 3) shapeCasts_S128_S1x128

private theorem row134_ops :
    StableHlo.after (hostOps7 (F := Ideal)) X (Proc.devRef .tc main_v134) = rowOf (vecK (X (Proc.devRef .tc main_arg13)) 3) := by
  after_results
  exact shapeCast_row (vecK (X (Proc.devRef .tc main_arg13)) 3) shapeCasts_S128_S1x128

end Stretches

private theorem src_at (c : Dev nD) :
    W1 (F := Ideal) m ρ c (Proc.devRef .tc main_v1) = srcK (m ((c : Thread nD τ).loc main_arg1)) :=
  src_ops (W0 m ρ c)

private theorem dst_at (c : Dev nD) :
    W1 (F := Ideal) m ρ c (Proc.devRef .tc main_v3) = dstK (m ((c : Thread nD τ).loc main_arg1)) :=
  dst_ops (W0 m ρ c)

private theorem take_at (c : Dev nD) :
    W17 (F := Ideal) m ρ c (Proc.devRef .tc main_v103) = takeK (m ((c : Thread nD τ).loc main_arg1)) (W16 m ρ c (Proc.devRef .tc main_v102)) := by
  show StableHlo.after hostOps6 (W16 m ρ c) (Proc.devRef .tc main_v103) = _
  rw [take_ops, (show W16 m ρ c (Proc.devRef .tc main_v1) = W1 m ρ c (Proc.devRef .tc main_v1) from keep m ρ c main_v1 1 16), src_at m ρ c]
  rfl

private theorem we_at (c : Dev nD) :
    W18 (F := Ideal) m ρ c (Proc.devRef .tc main_v105) = weK (m ((c : Thread nD τ).loc main_arg4)) 3 := by
  show StableHlo.after hostOps6_1 (W17 m ρ c) (Proc.devRef .tc main_v105) = _
  rw [we_ops, (show W17 m ρ c (Proc.devRef .tc main_arg4) = _ from arg m ρ c main_arg4 17)]

private theorem be_at (c : Dev nD) :
    W18 (F := Ideal) m ρ c (Proc.devRef .tc main_v108) = rowOf (vecK (m ((c : Thread nD τ).loc main_arg5)) 3) := by
  show StableHlo.after hostOps6_1 (W17 m ρ c) (Proc.devRef .tc main_v108) = _
  rw [be_ops, (show W17 m ρ c (Proc.devRef .tc main_arg5) = _ from arg m ρ c main_arg5 17)]

private theorem msg_at (c : Dev nD) :
    W19 (F := Ideal) m ρ c (Proc.devRef .tc main_v109) = (edgeMsg (R := 600000) (takeK (m ((c : Thread nD τ).loc main_arg1)) (W16 m ρ c (Proc.devRef .tc main_v102))) (m ((c : Thread nD τ).loc main_arg2)) (weK (m ((c : Thread nD τ).loc main_arg4)) 3) (rowOf (vecK (m ((c : Thread nD τ).loc main_arg5)) 3))) := by
  refine (W19_arr (F := Ideal) m ρ c 4).trans ?_
  rw [edge6 (V18 m ρ) c]
  show edgeMsg (R := 600000) (W18 m ρ c (Proc.devRef .tc main_v103)) (W18 m ρ c (Proc.devRef .tc main_arg2))
      (W18 m ρ c (Proc.devRef .tc main_v105)) (W18 m ρ c (Proc.devRef .tc main_v108)) = _
  rw [(show W18 m ρ c (Proc.devRef .tc main_v103) = W17 m ρ c (Proc.devRef .tc main_v103) from keep m ρ c main_v103 17 18), take_at m ρ c, (show W18 m ρ c (Proc.devRef .tc main_arg2) = _ from arg m ρ c main_arg2 18), we_at m ρ c, be_at m ρ c]

private theorem agg_at (c : Dev nD) :
    W20 (F := Ideal) m ρ c (Proc.devRef .tc main_v112) = aggK (m ((c : Thread nD τ).loc main_arg1)) (edgeMsg (R := 600000) (takeK (m ((c : Thread nD τ).loc main_arg1)) (W16 m ρ c (Proc.devRef .tc main_v102))) (m ((c : Thread nD τ).loc main_arg2)) (weK (m ((c : Thread nD τ).loc main_arg4)) 3) (rowOf (vecK (m ((c : Thread nD τ).loc main_arg5)) 3))) := by
  show StableHlo.after hostOps7 (W19 m ρ c) (Proc.devRef .tc main_v112) = _
  rw [agg_ops, (show W19 m ρ c (Proc.devRef .tc main_v3) = W1 m ρ c (Proc.devRef .tc main_v3) from keep m ρ c main_v3 1 19), dst_at m ρ c, msg_at m ρ c]
  rfl

private theorem w1_at (c : Dev nD) :
    W20 (F := Ideal) m ρ c (Proc.devRef .tc main_v114) = matK (m ((c : Thread nD τ).loc main_arg6)) 3 := by
  show StableHlo.after hostOps7 (W19 m ρ c) (Proc.devRef .tc main_v114) = _
  rw [w1_ops, (show W19 m ρ c (Proc.devRef .tc main_arg6) = _ from arg m ρ c main_arg6 19)]

private theorem w2_at (c : Dev nD) :
    W20 (F := Ideal) m ρ c (Proc.devRef .tc main_v126) = matK (m ((c : Thread nD τ).loc main_arg12)) 3 := by
  show StableHlo.after hostOps7 (W19 m ρ c) (Proc.devRef .tc main_v126) = _
  rw [w2_ops, (show W19 m ρ c (Proc.devRef .tc main_arg12) = _ from arg m ρ c main_arg12 19)]

private theorem row129_at (c : Dev nD) :
    W20 (F := Ideal) m ρ c (Proc.devRef .tc main_v129) = rowOf (vecK (m ((c : Thread nD τ).loc main_arg7)) 3) := by
  show StableHlo.after hostOps7 (W19 m ρ c) (Proc.devRef .tc main_v129) = _
  rw [row129_ops, (show W19 m ρ c (Proc.devRef .tc main_arg7) = _ from arg m ρ c main_arg7 19)]

private theorem row130_at (c : Dev nD) :
    W20 (F := Ideal) m ρ c (Proc.devRef .tc main_v130) = rowOf (vecK (m ((c : Thread nD τ).loc main_arg8)) 3) := by
  show StableHlo.after hostOps7 (W19 m ρ c) (Proc.devRef .tc main_v130) = _
  rw [row130_ops, (show W19 m ρ c (Proc.devRef .tc main_arg8) = _ from arg m ρ c main_arg8 19)]

private theorem row131_at (c : Dev nD) :
    W20 (F := Ideal) m ρ c (Proc.devRef .tc main_v131) = rowOf (vecK (m ((c : Thread nD τ).loc main_arg9)) 3) := by
  show StableHlo.after hostOps7 (W19 m ρ c) (Proc.devRef .tc main_v131) = _
  rw [row131_ops, (show W19 m ρ c (Proc.devRef .tc main_arg9) = _ from arg m ρ c main_arg9 19)]

private theorem row132_at (c : Dev nD) :
    W20 (F := Ideal) m ρ c (Proc.devRef .tc main_v132) = rowOf (vecK (m ((c : Thread nD τ).loc main_arg10)) 3) := by
  show StableHlo.after hostOps7 (W19 m ρ c) (Proc.devRef .tc main_v132) = _
  rw [row132_ops, (show W19 m ρ c (Proc.devRef .tc main_arg10) = _ from arg m ρ c main_arg10 19)]

private theorem row133_at (c : Dev nD) :
    W20 (F := Ideal) m ρ c (Proc.devRef .tc main_v133) = rowOf (vecK (m ((c : Thread nD τ).loc main_arg11)) 3) := by
  show StableHlo.after hostOps7 (W19 m ρ c) (Proc.devRef .tc main_v133) = _
  rw [row133_ops, (show W19 m ρ c (Proc.devRef .tc main_arg11) = _ from arg m ρ c main_arg11 19)]

private theorem row134_at (c : Dev nD) :
    W20 (F := Ideal) m ρ c (Proc.devRef .tc main_v134) = rowOf (vecK (m ((c : Thread nD τ).loc main_arg13)) 3) := by
  show StableHlo.after hostOps7 (W19 m ρ c) (Proc.devRef .tc main_v134) = _
  rw [row134_ops, (show W19 m ρ c (Proc.devRef .tc main_arg13) = _ from arg m ρ c main_arg13 19)]

/-- The node array after layer 3: the launch's value, with each array it was handed read back to what wrote it. -/
theorem layer3 (c : Dev nD) :
    W21 (F := Ideal) m ρ c (Proc.devRef .tc main_v135)
      = layerLin 3 (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
          (W16 m ρ c (Proc.devRef .tc main_v102)) := by
  refine (W21_arr (F := Ideal) m ρ c 10).trans ?_
  rw [node7 (V20 m ρ) c]
  show nodeLin (R := 50000) (W20 m ρ c (Proc.devRef .tc main_v102)) (W20 m ρ c (Proc.devRef .tc main_v112)) (W20 m ρ c (Proc.devRef .tc main_v114))
      (W20 m ρ c (Proc.devRef .tc main_v129)) (W20 m ρ c (Proc.devRef .tc main_v130)) (W20 m ρ c (Proc.devRef .tc main_v131))
      (W20 m ρ c (Proc.devRef .tc main_v132)) (W20 m ρ c (Proc.devRef .tc main_v133)) (W20 m ρ c (Proc.devRef .tc main_v126))
      (W20 m ρ c (Proc.devRef .tc main_v134)) = _
  rw [(show W20 m ρ c (Proc.devRef .tc main_v102) = W16 m ρ c (Proc.devRef .tc main_v102) from keep m ρ c main_v102 16 20), agg_at m ρ c, w1_at m ρ c, row129_at m ρ c, row130_at m ρ c, row131_at m ρ c,
    row132_at m ρ c, row133_at m ρ c, w2_at m ρ c, row134_at m ρ c]
  rfl

end Cert.KernelIdeal.Val

end
-- ==== Proof.KTail.lean ====
import proofs.«405621_j9088150798515_1_alg».proof.Proof.Gen.KernelIdeal.Frame
import proofs.«405621_j9088150798515_1_alg».proof.Proof.KDefs
import proofs.«405621_j9088150798515_1_alg».proof.Proof.KPass

import Idealize.ShloMosaic.Lib.StableHlo.Run
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.Pass Cert.Gine

variable (m : (ℓ : Loc nD τ sig) → Buf (Elt Ideal) ℓ) (ρ : Dev nD → PrngReg)

def poolK (batch : IVec S50000 32) (X : FVec Ideal S50000x128 .f32) : FVec Ideal S128x128 .f32 :=
  Host.divf
    (Host.scatterAdd scatter_S128x128_S50000x1_S50000x128_1_0_0_1
      (broadcastInDim S128x128 ![] bcast_S_S128x128 (constant (F := Ideal) S_ .f32 0x00000000#32))
      (broadcastInDim S50000x1 ![0] bcast_S50000_S50000x1_0 batch) X)
    (broadcastInDim S128x128 ![0, 1] bcast_S128x1_S128x128_0_1
      (broadcastInDim S128x1 ![0] bcast_S128_S128x1_0
        (maximumf
          (Host.scatterAdd scatter_S128_S50000x1_S50000_n_0_0_1
            (broadcastInDim S128 ![] bcast_S_S128 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S128 ![] bcast_S_S128 (constant (F := Ideal) S_ .f32 0x3F800000#32)))))

/-- The result buffer is the mean pooling of the last layer's node array by graph. -/
theorem tail (c : Dev nD) :
    W22 (F := Ideal) m ρ c (Proc.devRef .tc main_v147)
      = poolK (m ((c : Thread nD τ).loc main_arg3)) (W21 m ρ c (Proc.devRef .tc main_v135)) := by
  show StableHlo.after hostOps8 (W21 m ρ c) (Proc.devRef .tc main_v147) = _
  after_results_simp
  rw [(show W21 m ρ c (Proc.devRef .tc main_arg3) = _ from arg m ρ c main_arg3 21)]
  rfl

end Cert.KernelIdeal.Val

end
-- ==== Proof.RefRead.lean ====
import proofs.«405621_j9088150798515_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

variable (x0 : (⟨S50000x128, .f32⟩ : BufTy).Contents (Elt F)) (x1 : (⟨S2x600000, .i32⟩ : BufTy).Contents (Elt F))
  (x2 : (⟨S600000x64, .f32⟩ : BufTy).Contents (Elt F)) (x3 : (⟨S50000, .i32⟩ : BufTy).Contents (Elt F))
  (x4 : (⟨S4x64x128, .f32⟩ : BufTy).Contents (Elt F)) (x5 : (⟨S4x128, .f32⟩ : BufTy).Contents (Elt F))
  (x6 : (⟨S4x128x128, .f32⟩ : BufTy).Contents (Elt F)) (x7 x8 x9 x10 x11 : (⟨S4x128, .f32⟩ : BufTy).Contents (Elt F))
  (x12 : (⟨S4x128x128, .f32⟩ : BufTy).Contents (Elt F)) (x13 : (⟨S4x128, .f32⟩ : BufTy).Contents (Elt F))

def val_main_v0 : (⟨S1x600000, .i32⟩ : BufTy).Contents (Elt F) :=
  extractStridedSlice S1x600000 ![0, 0] (x1) slices_S2x600000_S1x600000_0_0

def val_main_v1 : (⟨S600000, .i32⟩ : BufTy).Contents (Elt F) :=
  shapeCast _ (val_main_v0 (F := F) x1) shapeCasts_S1x600000_S600000

def val_main_v2 : (⟨S1x600000, .i32⟩ : BufTy).Contents (Elt F) :=
  extractStridedSlice S1x600000 ![1, 0] (x1) slices_S2x600000_S1x600000_1_0

def val_main_v3 : (⟨S600000, .i32⟩ : BufTy).Contents (Elt F) :=
  shapeCast _ (val_main_v2 (F := F) x1) shapeCasts_S1x600000_S600000

def val_main_v4 : (⟨S1x64x128, .f32⟩ : BufTy).Contents (Elt F) :=
  extractStridedSlice S1x64x128 ![0, 0, 0] (x4) slices_S4x64x128_S1x64x128_0_0_0

def val_main_v5 : (⟨S64x128, .f32⟩ : BufTy).Contents (Elt F) :=
  shapeCast _ (val_main_v4 (F := F) x4) shapeCasts_S1x64x128_S64x128

def val_main_v6 : (⟨S600000x128, .f32⟩ : BufTy).Contents (Elt F) :=
  Host.dotGeneral dot_S600000x64_S64x128_S600000x128_1_0_0_1_n_n none (x2) (val_main_v5 (F := F) x4)

def val_main_v7 : (⟨S1x128, .f32⟩ : BufTy).Contents (Elt F) :=
  extractStridedSlice S1x128 ![0, 0] (x5) slices_S4x128_S1x128_0_0

def val_main_v8 : (⟨S128, .f32⟩ : BufTy).Contents (Elt F) :=
  shapeCast _ (val_main_v7 (F := F) x5) shapeCasts_S1x128_S128

def val_main_v9 : (⟨S1x128, .f32⟩ : BufTy).Contents (Elt F) :=
  broadcastInDim S1x128 ![1] bcast_S128_S1x128_1 (val_main_v8 (F := F) x5)

def val_main_v10 : (⟨S600000x128, .f32⟩ : BufTy).Contents (Elt F) :=
  broadcastInDim S600000x128 ![0, 1] bcast_S1x128_S600000x128_0_1 (val_main_v9 (F := F) x5)

def val_main_v11 : (⟨S600000x128, .f32⟩ : BufTy).Contents (Elt F) :=
  addf (val_main_v6 (F := F) x2 x4) (val_main_v10 (F := F) x5)

def val_main_c : (⟨S_, .i32⟩ : BufTy).Contents (Elt F) :=
  constantI S_ 32 0#32

def val_main_v12 : (⟨S600000, .i32⟩ : BufTy).Contents (Elt F) :=
  broadcastInDim S600000 ![] bcast_S_S600000 (val_main_c (F := F))

def val_main_v13 : (⟨S600000, .i1⟩ : BufTy).Contents (Elt F) :=
  cmpi .slt (val_main_v1 (F := F) x1) (val_main_v12 (F := F))

def val_main_c_0 : (⟨S_, .i32⟩ : BufTy).Contents (Elt F) :=
  constantI S_ 32 50000#32

def val_main_v14 : (⟨S600000, .i32⟩ : BufTy).Contents (Elt F) :=
  broadcastInDim S600000 ![] bcast_S_S600000 (val_main_c_0 (F := F))

def val_main_v15 : (⟨S600000, .i32⟩ : BufTy).Contents (Elt F) :=
  addi (val_main_v1 (F := F) x1) (val_main_v14 (F := F))

def val_main_v16 : (⟨S600000, .i32⟩ : BufTy).Contents (Elt F) :=
  select (val_main_v13 (F := F) x1) (val_main_v15 (F := F) x1) (val_main_v1 (F := F) x1)

def val_main_v17 : (⟨S600000x1, .i32⟩ : BufTy).Contents (Elt F) :=
  broadcastInDim S600000x1 ![0] bcast_S600000_S600000x1_0 (val_main_v16 (F := F) x1)

def val_main_v18 : (⟨S600000x128, .f32⟩ : BufTy).Contents (Elt F) :=
  Host.gather gather_S50000x128_S600000x1_S600000x128_1_0_n_n_0_1_1128 (x0) (val_main_v17 (F := F) x1)

def val_main_v19 : (⟨S600000x128, .f32⟩ : BufTy).Contents (Elt F) :=
  addf (val_main_v18 (F := F) x0 x1) (val_main_v11 (F := F) x2 x4 x5)

def val_main_call0_cst : (⟨S_, .f32⟩ : BufTy).Contents (Elt F) :=
  constant S_ .f32 0x00000000#32

def val_main_call0_v0 : (⟨S600000x128, .f32⟩ : BufTy).Contents (Elt F) :=
  broadcastInDim S600000x128 ![] bcast_S_S600000x128 (val_main_call0_cst (F := F))

def val_main_v20 : (⟨S600000x128, .f32⟩ : BufTy).Contents (Elt F) :=
  maximumf (val_main_v19 (F := F) x0 x1 x2 x4 x5) (val_main_call0_v0 (F := F))

def val_main_cst : (⟨S_, .f32⟩ : BufTy).Contents (Elt F) :=
  constant S_ .f32 0x00000000#32

def val_main_v21 : (⟨S50000x128, .f32⟩ : BufTy).Contents (Elt F) :=
  broadcastInDim S50000x128 ![] bcast_S_S50000x128 (val_main_cst (F := F))

def val_main_v22 : (⟨S600000x1, .i32⟩ : BufTy).Contents (Elt F) :=
  broadcastInDim S600000x1 ![0] bcast_S600000_S600000x1_0 (val_main_v3 (F := F) x1)

def val_main_v23 : (⟨S50000x128, .f32⟩ : BufTy).Contents (Elt F) :=
  Host.scatterAdd scatter_S50000x128_S600000x1_S600000x128_1_0_0_1 (val_main_v21 (F := F)) (val_main_v22 (F := F) x1) (val_main_v20 (F := F) x0 x1 x2 x4 x5)

def val_main_v24 : (⟨S50000x128, .f32⟩ : BufTy).Contents (Elt F) :=
  addf (x0) (val_main_v23 (F := F) x0 x1 x2 x4 x5)

def val_main_v25 : (⟨S1x128x128, .f32⟩ : BufTy).Contents (Elt F) :=
  extractStridedSlice S1x128x128 ![0, 0, 0] (x6) slices_S4x128x128_S1x128x128_0_0_0

def val_main_v26 : (⟨S128x128, .f32⟩ : BufTy).Contents (Elt F) :=
  shapeCast _ (val_main_v25 (F := F) x6) shapeCasts_S1x128x128_S128x128

def val_main_v27 : (⟨S50000x128, .f32⟩ : BufTy).Contents (Elt F) :=
  Host.dotGeneral dot_S50000x128_S128x128_S50000x128_1_0_0_1_n_n none (val_main_v24 (F := F) x0 x1 x2 x4 x5) (val_main_v26 (F := F) x6)

def val_main_v28 : (⟨S1x128, .f32⟩ : BufTy).Contents (Elt F) :=
  extractStridedSlice S1x128 ![0, 0] (x7) slices_S4x128_S1x128_0_0

def val_main_v29 : (⟨S128, .f32⟩ : BufTy).Contents (Elt F) :=
  shapeCast _ (val_main_v28 (F := F) x7) shapeCasts_S1x128_S128

def val_main_v30 : (⟨S1x128, .f32⟩ : BufTy).Contents (Elt F) :=
  broadcastInDim S1x128 ![1] bcast_S128_S1x128_1 (val_main_v29 (F := F) x7)

def val_main_v31 : (⟨S50000x128, .f32⟩ : BufTy).Contents (Elt F) :=
  broadcastInDim S50000x128 ![0, 1] bcast_S1x128_S50000x128_0_1 (val_main_v30 (F := F) x7)

def val_main_v32 : (⟨S50000x128, .f32⟩ : BufTy).Contents (Elt F) :=
  addf (val_main_v27 (F := F) x0 x1 x2 x4 x5 x6) (val_main_v31 (F := F) x7)

def val_main_v33 : (⟨S1x128, .f32⟩ : BufTy).Contents (Elt F) :=
  extractStridedSlice S1x128 ![0, 0] (x8) slices_S4x128_S1x128_0_0

def val_main_v34 : (⟨S128, .f32⟩ : BufTy).Contents (Elt F) :=
  shapeCast _ (val_main_v33 (F := F) x8) shapeCasts_S1x128_S128

def val_main_v35 : (⟨S1x128, .f32⟩ : BufTy).Contents (Elt F) :=
  extractStridedSlice S1x128 ![0, 0] (x10) slices_S4x128_S1x128_0_0

def val_main_v36 : (⟨S128, .f32⟩ : BufTy).Contents (Elt F) :=
  shapeCast _ (val_main_v35 (F := F) x10) shapeCasts_S1x128_S128

def val_main_v37 : (⟨S1x128, .f32⟩ : BufTy).Contents (Elt F) :=
  broadcastInDim S1x128 ![1] bcast_S128_S1x128_1 (val_main_v36 (F := F) x10)

def val_main_v38 : (⟨S50000x128, .f32⟩ : BufTy).Contents (Elt F) :=
  broadcastInDim S50000x128 ![0, 1] bcast_S1x128_S50000x128_0_1 (val_main_v37 (F := F) x10)

def val_main_v39 : (⟨S50000x128, .f32⟩ : BufTy).Contents (Elt F) :=
  subf (val_main_v32 (F := F) x0 x1 x2 x4 x5 x6 x7) (val_main_v38 (F := F) x10)

def val_main_v40 : (⟨S1x128, .f32⟩ : BufTy).Contents (Elt F) :=
  broadcastInDim S1x128 ![1] bcast_S128_S1x128_1 (val_main_v34 (F := F) x8)

def val_main_v41 : (⟨S50000x128, .f32⟩ : BufTy).Contents (Elt F) :=
  broadcastInDim S50000x128 ![0, 1] bcast_S1x128_S50000x128_0_1 (val_main_v40 (F := F) x8)

def val_main_v42 : (⟨S50000x128, .f32⟩ : BufTy).Contents (Elt F) :=
  mulf (val_main_v41 (F := F) x8) (val_main_v39 (F := F) x0 x1 x2 x4 x5 x6 x7 x10)

def val_main_v43 : (⟨S1x128, .f32⟩ : BufTy).Contents (Elt F) :=
  extractStridedSlice S1x128 ![0, 0] (x11) slices_S4x128_S1x128_0_0

def val_main_v44 : (⟨S128, .f32⟩ : BufTy).Contents (Elt F) :=
  shapeCast _ (val_main_v43 (F := F) x11) shapeCasts_S1x128_S128

def val_main_cst_1 : (⟨S_, .f32⟩ : BufTy).Contents (Elt F) :=
  constant S_ .f32 0x3727C5AC#32

def val_main_v45 : (⟨S128, .f32⟩ : BufTy).Contents (Elt F) :=
  broadcastInDim S128 ![] bcast_S_S128 (val_main_cst_1 (F := F))

def val_main_v46 : (⟨S128, .f32⟩ : BufTy).Contents (Elt F) :=
  addf (val_main_v44 (F := F) x11) (val_main_v45 (F := F))

def val_main_v47 : (⟨S128, .f32⟩ : BufTy).Contents (Elt F) :=
  Host.rsqrt (val_main_v46 (F := F) x11)

def val_main_v48 : (⟨S1x128, .f32⟩ : BufTy).Contents (Elt F) :=
  broadcastInDim S1x128 ![1] bcast_S128_S1x128_1 (val_main_v47 (F := F) x11)

def val_main_v49 : (⟨S50000x128, .f32⟩ : BufTy).Contents (Elt F) :=
  broadcastInDim S50000x128 ![0, 1] bcast_S1x128_S50000x128_0_1 (val_main_v48 (F := F) x11)

def val_main_v50 : (⟨S50000x128, .f32⟩ : BufTy).Contents (Elt F) :=
  mulf (val_main_v42 (F := F) x0 x1 x2 x4 x5 x6 x7 x8 x10) (val_main_v49 (F := F) x11)

def val_main_v51 : (⟨S1x128, .f32⟩ : BufTy).Contents (Elt F) :=
  extractStridedSlice S1x128 ![0, 0] (x9) slices_S4x128_S1x128_0_0

def val_main_v52 : (⟨S128, .f32⟩ : BufTy).Contents (Elt F) :=
  shapeCast _ (val_main_v51 (F := F) x9) shapeCasts_S1x128_S128

def val_main_v53 : (⟨S1x128, .f32⟩ : BufTy).Contents (Elt F) :=
  broadcastInDim S1x128 ![1] bcast_S128_S1x128_1 (val_main_v52 (F := F) x9)

def val_main_v54 : (⟨S50000x128, .f32⟩ : BufTy).Contents (Elt F) :=
  broadcastInDim S50000x128 ![0, 1] bcast_S1x128_S50000x128_0_1 (val_main_v53 (F := F) x9)

def val_main_v55 : (⟨S50000x128, .f32⟩ : BufTy).Contents (Elt F) :=
  addf (val_main_v50 (F := F) x0 x1 x2 x4 x5 x6 x7 x8 x10 x11) (val_main_v54 (F := F) x9)

def val_main_call1_cst : (⟨S_, .f32⟩ : BufTy).Contents (Elt F) :=
  constant S_ .f32 0x00000000#32

def val_main_call1_v0 : (⟨S50000x128, .f32⟩ : BufTy).Contents (Elt F) :=
  broadcastInDim S50000x128 ![] bcast_S_S50000x128 (val_main_call1_cst (F := F))

def val_main_v56 : (⟨S50000x128, .f32⟩ : BufTy).Contents (Elt F) :=
  maximumf (val_main_v55 (F := F) x0 x1 x2 x4 x5 x6 x7 x8 x9 x10 x11) (val_main_call1_v0 (F := F))

def val_main_v57 : (⟨S1x128x128, .f32⟩ : BufTy).Contents (Elt F) :=
  extractStridedSlice S1x128x128 ![0, 0, 0] (x12) slices_S4x128x128_S1x128x128_0_0_0

def val_main_v58 : (⟨S128x128, .f32⟩ : BufTy).Contents (Elt F) :=
  shapeCast _ (val_main_v57 (F := F) x12) shapeCasts_S1x128x128_S128x128

def val_main_v59 : (⟨S50000x128, .f32⟩ : BufTy).Contents (Elt F) :=
  Host.dotGeneral dot_S50000x128_S128x128_S50000x128_1_0_0_1_n_n none (val_main_v56 (F := F) x0 x1 x2 x4 x5 x6 x7 x8 x9 x10 x11) (val_main_v58 (F := F) x12)

def val_main_v60 : (⟨S1x128, .f32⟩ : BufTy).Contents (Elt F) :=
  extractStridedSlice S1x128 ![0, 0] (x13) slices_S4x128_S1x128_0_0

def val_main_v61 : (⟨S128, .f32⟩ : BufTy).Contents (Elt F) :=
  shapeCast _ (val_main_v60 (F := F) x13) shapeCasts_S1x128_S128

def val_main_v62 : (⟨S1x128, .f32⟩ : BufTy).Contents (Elt F) :=
  broadcastInDim S1x128 ![1] bcast_S128_S1x128_1 (val_main_v61 (F := F) x13)

def val_main_v63 : (⟨S50000x128, .f32⟩ : BufTy).Contents (Elt F) :=
  broadcastInDim S50000x128 ![0, 1] bcast_S1x128_S50000x128_0_1 (val_main_v62 (F := F) x13)

def val_main_v64 : (⟨S50000x128, .f32⟩ : BufTy).Contents (Elt F) :=
  addf (val_main_v59 (F := F) x0 x1 x2 x4 x5 x6 x7 x8 x9 x10 x11 x12) (val_main_v63 (F := F) x13)

def val_main_call2_cst : (⟨S_, .f32⟩ : BufTy).Contents (Elt F) :=
  constant S_ .f32 0x00000000#32

def val_main_call2_v0 : (⟨S50000x128, .f32⟩ : BufTy).Contents (Elt F) :=
  broadcastInDim S50000x128 ![] bcast_S_S50000x128 (val_main_call2_cst (F := F))

def val_main_v65 : (⟨S50000x128, .f32⟩ : BufTy).Contents (Elt F) :=
  maximumf (val_main_v64 (F := F) x0 x1 x2 x4 x5 x6 x7 x8 x9 x10 x11 x12 x13) (val_main_call2_v0 (F := F))

def val_main_v66 : (⟨S1x64x128, .f32⟩ : BufTy).Contents (Elt F) :=
  extractStridedSlice S1x64x128 ![1, 0, 0] (x4) slices_S4x64x128_S1x64x128_1_0_0

def val_main_v67 : (⟨S64x128, .f32⟩ : BufTy).Contents (Elt F) :=
  shapeCast _ (val_main_v66 (F := F) x4) shapeCasts_S1x64x128_S64x128

def val_main_v68 : (⟨S600000x128, .f32⟩ : BufTy).Contents (Elt F) :=
  Host.dotGeneral dot_S600000x64_S64x128_S600000x128_1_0_0_1_n_n none (x2) (val_main_v67 (F := F) x4)

def val_main_v69 : (⟨S1x128, .f32⟩ : BufTy).Contents (Elt F) :=
  extractStridedSlice S1x128 ![1, 0] (x5) slices_S4x128_S1x128_1_0

def val_main_v70 : (⟨S128, .f32⟩ : BufTy).Contents (Elt F) :=
  shapeCast _ (val_main_v69 (F := F) x5) shapeCasts_S1x128_S128

def val_main_v71 : (⟨S1x128, .f32⟩ : BufTy).Contents (Elt F) :=
  broadcastInDim S1x128 ![1] bcast_S128_S1x128_1 (val_main_v70 (F := F) x5)

def val_main_v72 : (⟨S600000x128, .f32⟩ : BufTy).Contents (Elt F) :=
  broadcastInDim S600000x128 ![0, 1] bcast_S1x128_S600000x128_0_1 (val_main_v71 (F := F) x5)

def val_main_v73 : (⟨S600000x128, .f32⟩ : BufTy).Contents (Elt F) :=
  addf (val_main_v68 (F := F) x2 x4) (val_main_v72 (F := F) x5)

def val_main_c_2 : (⟨S_, .i32⟩ : BufTy).Contents (Elt F) :=
  constantI S_ 32 0#32

def val_main_v74 : (⟨S600000, .i32⟩ : BufTy).Contents (Elt F) :=
  broadcastInDim S600000 ![] bcast_S_S600000 (val_main_c_2 (F := F))

def val_main_v75 : (⟨S600000, .i1⟩ : BufTy).Contents (Elt F) :=
  cmpi .slt (val_main_v1 (F := F) x1) (val_main_v74 (F := F))

def val_main_c_3 : (⟨S_, .i32⟩ : BufTy).Contents (Elt F) :=
  constantI S_ 32 50000#32

def val_main_v76 : (⟨S600000, .i32⟩ : BufTy).Contents (Elt F) :=
  broadcastInDim S600000 ![] bcast_S_S600000 (val_main_c_3 (F := F))

def val_main_v77 : (⟨S600000, .i32⟩ : BufTy).Contents (Elt F) :=
  addi (val_main_v1 (F := F) x1) (val_main_v76 (F := F))

def val_main_v78 : (⟨S600000, .i32⟩ : BufTy).Contents (Elt F) :=
  select (val_main_v75 (F := F) x1) (val_main_v77 (F := F) x1) (val_main_v1 (F := F) x1)

def val_main_v79 : (⟨S600000x1, .i32⟩ : BufTy).Contents (Elt F) :=
  broadcastInDim S600000x1 ![0] bcast_S600000_S600000x1_0 (val_main_v78 (F := F) x1)

def val_main_v80 : (⟨S600000x128, .f32⟩ : BufTy).Contents (Elt F) :=
  Host.gather gather_S50000x128_S600000x1_S600000x128_1_0_n_n_0_1_1128 (val_main_v65 (F := F) x0 x1 x2 x4 x5 x6 x7 x8 x9 x10 x11 x12 x13) (val_main_v79 (F := F) x1)

def val_main_v81 : (⟨S600000x128, .f32⟩ : BufTy).Contents (Elt F) :=
  addf (val_main_v80 (F := F) x0 x1 x2 x4 x5 x6 x7 x8 x9 x10 x11 x12 x13) (val_main_v73 (F := F) x2 x4 x5)

def val_main_call3_cst : (⟨S_, .f32⟩ : BufTy).Contents (Elt F) :=
  constant S_ .f32 0x00000000#32

def val_main_call3_v0 : (⟨S600000x128, .f32⟩ : BufTy).Contents (Elt F) :=
  broadcastInDim S600000x128 ![] bcast_S_S600000x128 (val_main_call3_cst (F := F))

def val_main_v82 : (⟨S600000x128, .f32⟩ : BufTy).Contents (Elt F) :=
  maximumf (val_main_v81 (F := F) x0 x1 x2 x4 x5 x6 x7 x8 x9 x10 x11 x12 x13) (val_main_call3_v0 (F := F))

def val_main_cst_4 : (⟨S_, .f32⟩ : BufTy).Contents (Elt F) :=
  constant S_ .f32 0x00000000#32

def val_main_v83 : (⟨S50000x128, .f32⟩ : BufTy).Contents (Elt F) :=
  broadcastInDim S50000x128 ![] bcast_S_S50000x128 (val_main_cst_4 (F := F))

def val_main_v84 : (⟨S600000x1, .i32⟩ : BufTy).Contents (Elt F) :=
  broadcastInDim S600000x1 ![0] bcast_S600000_S600000x1_0 (val_main_v3 (F := F) x1)

def val_main_v85 : (⟨S50000x128, .f32⟩ : BufTy).Contents (Elt F) :=
  Host.scatterAdd scatter_S50000x128_S600000x1_S600000x128_1_0_0_1 (val_main_v83 (F := F)) (val_main_v84 (F := F) x1) (val_main_v82 (F := F) x0 x1 x2 x4 x5 x6 x7 x8 x9 x10 x11 x12 x13)

def val_main_v86 : (⟨S50000x128, .f32⟩ : BufTy).Contents (Elt F) :=
  addf (val_main_v65 (F := F) x0 x1 x2 x4 x5 x6 x7 x8 x9 x10 x11 x12 x13) (val_main_v85 (F := F) x0 x1 x2 x4 x5 x6 x7 x8 x9 x10 x11 x12 x13)

def val_main_v87 : (⟨S1x128x128, .f32⟩ : BufTy).Contents (Elt F) :=
  extractStridedSlice S1x128x128 ![1, 0, 0] (x6) slices_S4x128x128_S1x128x128_1_0_0

def val_main_v88 : (⟨S128x128, .f32⟩ : BufTy).Contents (Elt F) :=
  shapeCast _ (val_main_v87 (F := F) x6) shapeCasts_S1x128x128_S128x128

def val_main_v89 : (⟨S50000x128, .f32⟩ : BufTy).Contents (Elt F) :=
  Host.dotGeneral dot_S50000x128_S128x128_S50000x128_1_0_0_1_n_n none (val_main_v86 (F := F) x0 x1 x2 x4 x5 x6 x7 x8 x9 x10 x11 x12 x13) (val_main_v88 (F := F) x6)

def val_main_v90 : (⟨S1x128, .f32⟩ : BufTy).Contents (Elt F) :=
  extractStridedSlice S1x128 ![1, 0] (x7) slices_S4x128_S1x128_1_0

def val_main_v91 : (⟨S128, .f32⟩ : BufTy).Contents (Elt F) :=
  shapeCast _ (val_main_v90 (F := F) x7) shapeCasts_S1x128_S128

def val_main_v92 : (⟨S1x128, .f32⟩ : BufTy).Contents (Elt F) :=
  broadcastInDim S1x128 ![1] bcast_S128_S1x128_1 (val_main_v91 (F := F) x7)

def val_main_v93 : (⟨S50000x128, .f32⟩ : BufTy).Contents (Elt F) :=
  broadcastInDim S50000x128 ![0, 1] bcast_S1x128_S50000x128_0_1 (val_main_v92 (F := F) x7)

def val_main_v94 : (⟨S50000x128, .f32⟩ : BufTy).Contents (Elt F) :=
  addf (val_main_v89 (F := F) x0 x1 x2 x4 x5 x6 x7 x8 x9 x10 x11 x12 x13) (val_main_v93 (F := F) x7)

def val_main_v95 : (⟨S1x128, .f32⟩ : BufTy).Contents (Elt F) :=
  extractStridedSlice S1x128 ![1, 0] (x8) slices_S4x128_S1x128_1_0

def val_main_v96 : (⟨S128, .f32⟩ : BufTy).Contents (Elt F) :=
  shapeCast _ (val_main_v95 (F := F) x8) shapeCasts_S1x128_S128

def val_main_v97 : (⟨S1x128, .f32⟩ : BufTy).Contents (Elt F) :=
  extractStridedSlice S1x128 ![1, 0] (x10) slices_S4x128_S1x128_1_0

def val_main_v98 : (⟨S128, .f32⟩ : BufTy).Contents (Elt F) :=
  shapeCast _ (val_main_v97 (F := F) x10) shapeCasts_S1x128_S128

def val_main_v99 : (⟨S1x128, .f32⟩ : BufTy).Contents (Elt F) :=
  broadcastInDim S1x128 ![1] bcast_S128_S1x128_1 (val_main_v98 (F := F) x10)

def val_main_v100 : (⟨S50000x128, .f32⟩ : BufTy).Contents (Elt F) :=
  broadcastInDim S50000x128 ![0, 1] bcast_S1x128_S50000x128_0_1 (val_main_v99 (F := F) x10)

def val_main_v101 : (⟨S50000x128, .f32⟩ : BufTy).Contents (Elt F) :=
  subf (val_main_v94 (F := F) x0 x1 x2 x4 x5 x6 x7 x8 x9 x10 x11 x12 x13) (val_main_v100 (F := F) x10)

def val_main_v102 : (⟨S1x128, .f32⟩ : BufTy).Contents (Elt F) :=
  broadcastInDim S1x128 ![1] bcast_S128_S1x128_1 (val_main_v96 (F := F) x8)

def val_main_v103 : (⟨S50000x128, .f32⟩ : BufTy).Contents (Elt F) :=
  broadcastInDim S50000x128 ![0, 1] bcast_S1x128_S50000x128_0_1 (val_main_v102 (F := F) x8)

def val_main_v104 : (⟨S50000x128, .f32⟩ : BufTy).Contents (Elt F) :=
  mulf (val_main_v103 (F := F) x8) (val_main_v101 (F := F) x0 x1 x2 x4 x5 x6 x7 x8 x9 x10 x11 x12 x13)

def val_main_v105 : (⟨S1x128, .f32⟩ : BufTy).Contents (Elt F) :=
  extractStridedSlice S1x128 ![1, 0] (x11) slices_S4x128_S1x128_1_0

def val_main_v106 : (⟨S128, .f32⟩ : BufTy).Contents (Elt F) :=
  shapeCast _ (val_main_v105 (F := F) x11) shapeCasts_S1x128_S128

def val_main_cst_5 : (⟨S_, .f32⟩ : BufTy).Contents (Elt F) :=
  constant S_ .f32 0x3727C5AC#32

def val_main_v107 : (⟨S128, .f32⟩ : BufTy).Contents (Elt F) :=
  broadcastInDim S128 ![] bcast_S_S128 (val_main_cst_5 (F := F))

def val_main_v108 : (⟨S128, .f32⟩ : BufTy).Contents (Elt F) :=
  addf (val_main_v106 (F := F) x11) (val_main_v107 (F := F))

def val_main_v109 : (⟨S128, .f32⟩ : BufTy).Contents (Elt F) :=
  Host.rsqrt (val_main_v108 (F := F) x11)

def val_main_v110 : (⟨S1x128, .f32⟩ : BufTy).Contents (Elt F) :=
  broadcastInDim S1x128 ![1] bcast_S128_S1x128_1 (val_main_v109 (F := F) x11)

def val_main_v111 : (⟨S50000x128, .f32⟩ : BufTy).Contents (Elt F) :=
  broadcastInDim S50000x128 ![0, 1] bcast_S1x128_S50000x128_0_1 (val_main_v110 (F := F) x11)

def val_main_v112 : (⟨S50000x128, .f32⟩ : BufTy).Contents (Elt F) :=
  mulf (val_main_v104 (F := F) x0 x1 x2 x4 x5 x6 x7 x8 x9 x10 x11 x12 x13) (val_main_v111 (F := F) x11)

def val_main_v113 : (⟨S1x128, .f32⟩ : BufTy).Contents (Elt F) :=
  extractStridedSlice S1x128 ![1, 0] (x9) slices_S4x128_S1x128_1_0

def val_main_v114 : (⟨S128, .f32⟩ : BufTy).Contents (Elt F) :=
  shapeCast _ (val_main_v113 (F := F) x9) shapeCasts_S1x128_S128

def val_main_v115 : (⟨S1x128, .f32⟩ : BufTy).Contents (Elt F) :=
  broadcastInDim S1x128 ![1] bcast_S128_S1x128_1 (val_main_v114 (F := F) x9)

def val_main_v116 : (⟨S50000x128, .f32⟩ : BufTy).Contents (Elt F) :=
  broadcastInDim S50000x128 ![0, 1] bcast_S1x128_S50000x128_0_1 (val_main_v115 (F := F) x9)

def val_main_v117 : (⟨S50000x128, .f32⟩ : BufTy).Contents (Elt F) :=
  addf (val_main_v112 (F := F) x0 x1 x2 x4 x5 x6 x7 x8 x9 x10 x11 x12 x13) (val_main_v116 (F := F) x9)

def val_main_call4_cst : (⟨S_, .f32⟩ : BufTy).Contents (Elt F) :=
  constant S_ .f32 0x00000000#32

def val_main_call4_v0 : (⟨S50000x128, .f32⟩ : BufTy).Contents (Elt F) :=
  broadcastInDim S50000x128 ![] bcast_S_S50000x128 (val_main_call4_cst (F := F))

def val_main_v118 : (⟨S50000x128, .f32⟩ : BufTy).Contents (Elt F) :=
  maximumf (val_main_v117 (F := F) x0 x1 x2 x4 x5 x6 x7 x8 x9 x10 x11 x12 x13) (val_main_call4_v0 (F := F))

def val_main_v119 : (⟨S1x128x128, .f32⟩ : BufTy).Contents (Elt F) :=
  extractStridedSlice S1x128x128 ![1, 0, 0] (x12) slices_S4x128x128_S1x128x128_1_0_0

def val_main_v120 : (⟨S128x128, .f32⟩ : BufTy).Contents (Elt F) :=
  shapeCast _ (val_main_v119 (F := F) x12) shapeCasts_S1x128x128_S128x128

def val_main_v121 : (⟨S50000x128, .f32⟩ : BufTy).Contents (Elt F) :=
  Host.dotGeneral dot_S50000x128_S128x128_S50000x128_1_0_0_1_n_n none (val_main_v118 (F := F) x0 x1 x2 x4 x5 x6 x7 x8 x9 x10 x11 x12 x13) (val_main_v120 (F := F) x12)

def val_main_v122 : (⟨S1x128, .f32⟩ : BufTy).Contents (Elt F) :=
  extractStridedSlice S1x128 ![1, 0] (x13) slices_S4x128_S1x128_1_0

def val_main_v123 : (⟨S128, .f32⟩ : BufTy).Contents (Elt F) :=
  shapeCast _ (val_main_v122 (F := F) x13) shapeCasts_S1x128_S128

def val_main_v124 : (⟨S1x128, .f32⟩ : BufTy).Contents (Elt F) :=
  broadcastInDim S1x128 ![1] bcast_S128_S1x128_1 (val_main_v123 (F := F) x13)

def val_main_v125 : (⟨S50000x128, .f32⟩ : BufTy).Contents (Elt F) :=
  broadcastInDim S50000x128 ![0, 1] bcast_S1x128_S50000x128_0_1 (val_main_v124 (F := F) x13)

def val_main_v126 : (⟨S50000x128, .f32⟩ : BufTy).Contents (Elt F) :=
  addf (val_main_v121 (F := F) x0 x1 x2 x4 x5 x6 x7 x8 x9 x10 x11 x12 x13) (val_main_v125 (F := F) x13)

def val_main_call5_cst : (⟨S_, .f32⟩ : BufTy).Contents (Elt F) :=
  constant S_ .f32 0x00000000#32

def val_main_call5_v0 : (⟨S50000x128, .f32⟩ : BufTy).Contents (Elt F) :=
  broadcastInDim S50000x128 ![] bcast_S_S50000x128 (val_main_call5_cst (F := F))

def val_main_v127 : (⟨S50000x128, .f32⟩ : BufTy).Contents (Elt F) :=
  maximumf (val_main_v126 (F := F) x0 x1 x2 x4 x5 x6 x7 x8 x9 x10 x11 x12 x13) (val_main_call5_v0 (F := F))

def val_main_v128 : (⟨S1x64x128, .f32⟩ : BufTy).Contents (Elt F) :=
  extractStridedSlice S1x64x128 ![2, 0, 0] (x4) slices_S4x64x128_S1x64x128_2_0_0

def val_main_v129 : (⟨S64x128, .f32⟩ : BufTy).Contents (Elt F) :=
  shapeCast _ (val_main_v128 (F := F) x4) shapeCasts_S1x64x128_S64x128

def val_main_v130 : (⟨S600000x128, .f32⟩ : BufTy).Contents (Elt F) :=
  Host.dotGeneral dot_S600000x64_S64x128_S600000x128_1_0_0_1_n_n none (x2) (val_main_v129 (F := F) x4)

def val_main_v131 : (⟨S1x128, .f32⟩ : BufTy).Contents (Elt F) :=
  extractStridedSlice S1x128 ![2, 0] (x5) slices_S4x128_S1x128_2_0

def val_main_v132 : (⟨S128, .f32⟩ : BufTy).Contents (Elt F) :=
  shapeCast _ (val_main_v131 (F := F) x5) shapeCasts_S1x128_S128

def val_main_v133 : (⟨S1x128, .f32⟩ : BufTy).Contents (Elt F) :=
  broadcastInDim S1x128 ![1] bcast_S128_S1x128_1 (val_main_v132 (F := F) x5)

def val_main_v134 : (⟨S600000x128, .f32⟩ : BufTy).Contents (Elt F) :=
  broadcastInDim S600000x128 ![0, 1] bcast_S1x128_S600000x128_0_1 (val_main_v133 (F := F) x5)

def val_main_v135 : (⟨S600000x128, .f32⟩ : BufTy).Contents (Elt F) :=
  addf (val_main_v130 (F := F) x2 x4) (val_main_v134 (F := F) x5)

def val_main_c_6 : (⟨S_, .i32⟩ : BufTy).Contents (Elt F) :=
  constantI S_ 32 0#32

def val_main_v136 : (⟨S600000, .i32⟩ : BufTy).Contents (Elt F) :=
  broadcastInDim S600000 ![] bcast_S_S600000 (val_main_c_6 (F := F))

def val_main_v137 : (⟨S600000, .i1⟩ : BufTy).Contents (Elt F) :=
  cmpi .slt (val_main_v1 (F := F) x1) (val_main_v136 (F := F))

def val_main_c_7 : (⟨S_, .i32⟩ : BufTy).Contents (Elt F) :=
  constantI S_ 32 50000#32

def val_main_v138 : (⟨S600000, .i32⟩ : BufTy).Contents (Elt F) :=
  broadcastInDim S600000 ![] bcast_S_S600000 (val_main_c_7 (F := F))

def val_main_v139 : (⟨S600000, .i32⟩ : BufTy).Contents (Elt F) :=
  addi (val_main_v1 (F := F) x1) (val_main_v138 (F := F))

def val_main_v140 : (⟨S600000, .i32⟩ : BufTy).Contents (Elt F) :=
  select (val_main_v137 (F := F) x1) (val_main_v139 (F := F) x1) (val_main_v1 (F := F) x1)

def val_main_v141 : (⟨S600000x1, .i32⟩ : BufTy).Contents (Elt F) :=
  broadcastInDim S600000x1 ![0] bcast_S600000_S600000x1_0 (val_main_v140 (F := F) x1)

def val_main_v142 : (⟨S600000x128, .f32⟩ : BufTy).Contents (Elt F) :=
  Host.gather gather_S50000x128_S600000x1_S600000x128_1_0_n_n_0_1_1128 (val_main_v127 (F := F) x0 x1 x2 x4 x5 x6 x7 x8 x9 x10 x11 x12 x13) (val_main_v141 (F := F) x1)

def val_main_v143 : (⟨S600000x128, .f32⟩ : BufTy).Contents (Elt F) :=
  addf (val_main_v142 (F := F) x0 x1 x2 x4 x5 x6 x7 x8 x9 x10 x11 x12 x13) (val_main_v135 (F := F) x2 x4 x5)

def val_main_call6_cst : (⟨S_, .f32⟩ : BufTy).Contents (Elt F) :=
  constant S_ .f32 0x00000000#32

def val_main_call6_v0 : (⟨S600000x128, .f32⟩ : BufTy).Contents (Elt F) :=
  broadcastInDim S600000x128 ![] bcast_S_S600000x128 (val_main_call6_cst (F := F))

def val_main_v144 : (⟨S600000x128, .f32⟩ : BufTy).Contents (Elt F) :=
  maximumf (val_main_v143 (F := F) x0 x1 x2 x4 x5 x6 x7 x8 x9 x10 x11 x12 x13) (val_main_call6_v0 (F := F))

def val_main_cst_8 : (⟨S_, .f32⟩ : BufTy).Contents (Elt F) :=
  constant S_ .f32 0x00000000#32

def val_main_v145 : (⟨S50000x128, .f32⟩ : BufTy).Contents (Elt F) :=
  broadcastInDim S50000x128 ![] bcast_S_S50000x128 (val_main_cst_8 (F := F))

def val_main_v146 : (⟨S600000x1, .i32⟩ : BufTy).Contents (Elt F) :=
  broadcastInDim S600000x1 ![0] bcast_S600000_S600000x1_0 (val_main_v3 (F := F) x1)

def val_main_v147 : (⟨S50000x128, .f32⟩ : BufTy).Contents (Elt F) :=
  Host.scatterAdd scatter_S50000x128_S600000x1_S600000x128_1_0_0_1 (val_main_v145 (F := F)) (val_main_v146 (F := F) x1) (val_main_v144 (F := F) x0 x1 x2 x4 x5 x6 x7 x8 x9 x10 x11 x12 x13)

def val_main_v148 : (⟨S50000x128, .f32⟩ : BufTy).Contents (Elt F) :=
  addf (val_main_v127 (F := F) x0 x1 x2 x4 x5 x6 x7 x8 x9 x10 x11 x12 x13) (val_main_v147 (F := F) x0 x1 x2 x4 x5 x6 x7 x8 x9 x10 x11 x12 x13)

def val_main_v149 : (⟨S1x128x128, .f32⟩ : BufTy).Contents (Elt F) :=
  extractStridedSlice S1x128x128 ![2, 0, 0] (x6) slices_S4x128x128_S1x128x128_2_0_0

def val_main_v150 : (⟨S128x128, .f32⟩ : BufTy).Contents (Elt F) :=
  shapeCast _ (val_main_v149 (F := F) x6) shapeCasts_S1x128x128_S128x128

def val_main_v151 : (⟨S50000x128, .f32⟩ : BufTy).Contents (Elt F) :=
  Host.dotGeneral dot_S50000x128_S128x128_S50000x128_1_0_0_1_n_n none (val_main_v148 (F := F) x0 x1 x2 x4 x5 x6 x7 x8 x9 x10 x11 x12 x13) (val_main_v150 (F := F) x6)

def val_main_v152 : (⟨S1x128, .f32⟩ : BufTy).Contents (Elt F) :=
  extractStridedSlice S1x128 ![2, 0] (x7) slices_S4x128_S1x128_2_0

def val_main_v153 : (⟨S128, .f32⟩ : BufTy).Contents (Elt F) :=
  shapeCast _ (val_main_v152 (F := F) x7) shapeCasts_S1x128_S128

def val_main_v154 : (⟨S1x128, .f32⟩ : BufTy).Contents (Elt F) :=
  broadcastInDim S1x128 ![1] bcast_S128_S1x128_1 (val_main_v153 (F := F) x7)

def val_main_v155 : (⟨S50000x128, .f32⟩ : BufTy).Contents (Elt F) :=
  broadcastInDim S50000x128 ![0, 1] bcast_S1x128_S50000x128_0_1 (val_main_v154 (F := F) x7)

def val_main_v156 : (⟨S50000x128, .f32⟩ : BufTy).Contents (Elt F) :=
  addf (val_main_v151 (F := F) x0 x1 x2 x4 x5 x6 x7 x8 x9 x10 x11 x12 x13) (val_main_v155 (F := F) x7)

def val_main_v157 : (⟨S1x128, .f32⟩ : BufTy).Contents (Elt F) :=
  extractStridedSlice S1x128 ![2, 0] (x8) slices_S4x128_S1x128_2_0

def val_main_v158 : (⟨S128, .f32⟩ : BufTy).Contents (Elt F) :=
  shapeCast _ (val_main_v157 (F := F) x8) shapeCasts_S1x128_S128

def val_main_v159 : (⟨S1x128, .f32⟩ : BufTy).Contents (Elt F) :=
  extractStridedSlice S1x128 ![2, 0] (x10) slices_S4x128_S1x128_2_0

def val_main_v160 : (⟨S128, .f32⟩ : BufTy).Contents (Elt F) :=
  shapeCast _ (val_main_v159 (F := F) x10) shapeCasts_S1x128_S128

def val_main_v161 : (⟨S1x128, .f32⟩ : BufTy).Contents (Elt F) :=
  broadcastInDim S1x128 ![1] bcast_S128_S1x128_1 (val_main_v160 (F := F) x10)

def val_main_v162 : (⟨S50000x128, .f32⟩ : BufTy).Contents (Elt F) :=
  broadcastInDim S50000x128 ![0, 1] bcast_S1x128_S50000x128_0_1 (val_main_v161 (F := F) x10)

def val_main_v163 : (⟨S50000x128, .f32⟩ : BufTy).Contents (Elt F) :=
  subf (val_main_v156 (F := F) x0 x1 x2 x4 x5 x6 x7 x8 x9 x10 x11 x12 x13) (val_main_v162 (F := F) x10)

def val_main_v164 : (⟨S1x128, .f32⟩ : BufTy).Contents (Elt F) :=
  broadcastInDim S1x128 ![1] bcast_S128_S1x128_1 (val_main_v158 (F := F) x8)

def val_main_v165 : (⟨S50000x128, .f32⟩ : BufTy).Contents (Elt F) :=
  broadcastInDim S50000x128 ![0, 1] bcast_S1x128_S50000x128_0_1 (val_main_v164 (F := F) x8)

def val_main_v166 : (⟨S50000x128, .f32⟩ : BufTy).Contents (Elt F) :=
  mulf (val_main_v165 (F := F) x8) (val_main_v163 (F := F) x0 x1 x2 x4 x5 x6 x7 x8 x9 x10 x11 x12 x13)

def val_main_v167 : (⟨S1x128, .f32⟩ : BufTy).Contents (Elt F) :=
  extractStridedSlice S1x128 ![2, 0] (x11) slices_S4x128_S1x128_2_0

def val_main_v168 : (⟨S128, .f32⟩ : BufTy).Contents (Elt F) :=
  shapeCast _ (val_main_v167 (F := F) x11) shapeCasts_S1x128_S128

def val_main_cst_9 : (⟨S_, .f32⟩ : BufTy).Contents (Elt F) :=
  constant S_ .f32 0x3727C5AC#32

def val_main_v169 : (⟨S128, .f32⟩ : BufTy).Contents (Elt F) :=
  broadcastInDim S128 ![] bcast_S_S128 (val_main_cst_9 (F := F))

def val_main_v170 : (⟨S128, .f32⟩ : BufTy).Contents (Elt F) :=
  addf (val_main_v168 (F := F) x11) (val_main_v169 (F := F))

def val_main_v171 : (⟨S128, .f32⟩ : BufTy).Contents (Elt F) :=
  Host.rsqrt (val_main_v170 (F := F) x11)

def val_main_v172 : (⟨S1x128, .f32⟩ : BufTy).Contents (Elt F) :=
  broadcastInDim S1x128 ![1] bcast_S128_S1x128_1 (val_main_v171 (F := F) x11)

def val_main_v173 : (⟨S50000x128, .f32⟩ : BufTy).Contents (Elt F) :=
  broadcastInDim S50000x128 ![0, 1] bcast_S1x128_S50000x128_0_1 (val_main_v172 (F := F) x11)

def val_main_v174 : (⟨S50000x128, .f32⟩ : BufTy).Contents (Elt F) :=
  mulf (val_main_v166 (F := F) x0 x1 x2 x4 x5 x6 x7 x8 x9 x10 x11 x12 x13) (val_main_v173 (F := F) x11)

def val_main_v175 : (⟨S1x128, .f32⟩ : BufTy).Contents (Elt F) :=
  extractStridedSlice S1x128 ![2, 0] (x9) slices_S4x128_S1x128_2_0

def val_main_v176 : (⟨S128, .f32⟩ : BufTy).Contents (Elt F) :=
  shapeCast _ (val_main_v175 (F := F) x9) shapeCasts_S1x128_S128

def val_main_v177 : (⟨S1x128, .f32⟩ : BufTy).Contents (Elt F) :=
  broadcastInDim S1x128 ![1] bcast_S128_S1x128_1 (val_main_v176 (F := F) x9)

def val_main_v178 : (⟨S50000x128, .f32⟩ : BufTy).Contents (Elt F) :=
  broadcastInDim S50000x128 ![0, 1] bcast_S1x128_S50000x128_0_1 (val_main_v177 (F := F) x9)

def val_main_v179 : (⟨S50000x128, .f32⟩ : BufTy).Contents (Elt F) :=
  addf (val_main_v174 (F := F) x0 x1 x2 x4 x5 x6 x7 x8 x9 x10 x11 x12 x13) (val_main_v178 (F := F) x9)

def val_main_call7_cst : (⟨S_, .f32⟩ : BufTy).Contents (Elt F) :=
  constant S_ .f32 0x00000000#32

def val_main_call7_v0 : (⟨S50000x128, .f32⟩ : BufTy).Contents (Elt F) :=
  broadcastInDim S50000x128 ![] bcast_S_S50000x128 (val_main_call7_cst (F := F))

def val_main_v180 : (⟨S50000x128, .f32⟩ : BufTy).Contents (Elt F) :=
  maximumf (val_main_v179 (F := F) x0 x1 x2 x4 x5 x6 x7 x8 x9 x10 x11 x12 x13) (val_main_call7_v0 (F := F))

def val_main_v181 : (⟨S1x128x128, .f32⟩ : BufTy).Contents (Elt F) :=
  extractStridedSlice S1x128x128 ![2, 0, 0] (x12) slices_S4x128x128_S1x128x128_2_0_0

def val_main_v182 : (⟨S128x128, .f32⟩ : BufTy).Contents (Elt F) :=
  shapeCast _ (val_main_v181 (F := F) x12) shapeCasts_S1x128x128_S128x128

def val_main_v183 : (⟨S50000x128, .f32⟩ : BufTy).Contents (Elt F) :=
  Host.dotGeneral dot_S50000x128_S128x128_S50000x128_1_0_0_1_n_n none (val_main_v180 (F := F) x0 x1 x2 x4 x5 x6 x7 x8 x9 x10 x11 x12 x13) (val_main_v182 (F := F) x12)

def val_main_v184 : (⟨S1x128, .f32⟩ : BufTy).Contents (Elt F) :=
  extractStridedSlice S1x128 ![2, 0] (x13) slices_S4x128_S1x128_2_0

def val_main_v185 : (⟨S128, .f32⟩ : BufTy).Contents (Elt F) :=
  shapeCast _ (val_main_v184 (F := F) x13) shapeCasts_S1x128_S128

def val_main_v186 : (⟨S1x128, .f32⟩ : BufTy).Contents (Elt F) :=
  broadcastInDim S1x128 ![1] bcast_S128_S1x128_1 (val_main_v185 (F := F) x13)

def val_main_v187 : (⟨S50000x128, .f32⟩ : BufTy).Contents (Elt F) :=
  broadcastInDim S50000x128 ![0, 1] bcast_S1x128_S50000x128_0_1 (val_main_v186 (F := F) x13)

def val_main_v188 : (⟨S50000x128, .f32⟩ : BufTy).Contents (Elt F) :=
  addf (val_main_v183 (F := F) x0 x1 x2 x4 x5 x6 x7 x8 x9 x10 x11 x12 x13) (val_main_v187 (F := F) x13)

def val_main_call8_cst : (⟨S_, .f32⟩ : BufTy).Contents (Elt F) :=
  constant S_ .f32 0x00000000#32

def val_main_call8_v0 : (⟨S50000x128, .f32⟩ : BufTy).Contents (Elt F) :=
  broadcastInDim S50000x128 ![] bcast_S_S50000x128 (val_main_call8_cst (F := F))

def val_main_v189 : (⟨S50000x128, .f32⟩ : BufTy).Contents (Elt F) :=
  maximumf (val_main_v188 (F := F) x0 x1 x2 x4 x5 x6 x7 x8 x9 x10 x11 x12 x13) (val_main_call8_v0 (F := F))

def val_main_v190 : (⟨S1x64x128, .f32⟩ : BufTy).Contents (Elt F) :=
  extractStridedSlice S1x64x128 ![3, 0, 0] (x4) slices_S4x64x128_S1x64x128_3_0_0

def val_main_v191 : (⟨S64x128, .f32⟩ : BufTy).Contents (Elt F) :=
  shapeCast _ (val_main_v190 (F := F) x4) shapeCasts_S1x64x128_S64x128

def val_main_v192 : (⟨S600000x128, .f32⟩ : BufTy).Contents (Elt F) :=
  Host.dotGeneral dot_S600000x64_S64x128_S600000x128_1_0_0_1_n_n none (x2) (val_main_v191 (F := F) x4)

def val_main_v193 : (⟨S1x128, .f32⟩ : BufTy).Contents (Elt F) :=
  extractStridedSlice S1x128 ![3, 0] (x5) slices_S4x128_S1x128_3_0

def val_main_v194 : (⟨S128, .f32⟩ : BufTy).Contents (Elt F) :=
  shapeCast _ (val_main_v193 (F := F) x5) shapeCasts_S1x128_S128

def val_main_v195 : (⟨S1x128, .f32⟩ : BufTy).Contents (Elt F) :=
  broadcastInDim S1x128 ![1] bcast_S128_S1x128_1 (val_main_v194 (F := F) x5)

def val_main_v196 : (⟨S600000x128, .f32⟩ : BufTy).Contents (Elt F) :=
  broadcastInDim S600000x128 ![0, 1] bcast_S1x128_S600000x128_0_1 (val_main_v195 (F := F) x5)

def val_main_v197 : (⟨S600000x128, .f32⟩ : BufTy).Contents (Elt F) :=
  addf (val_main_v192 (F := F) x2 x4) (val_main_v196 (F := F) x5)

def val_main_c_10 : (⟨S_, .i32⟩ : BufTy).Contents (Elt F) :=
  constantI S_ 32 0#32

def val_main_v198 : (⟨S600000, .i32⟩ : BufTy).Contents (Elt F) :=
  broadcastInDim S600000 ![] bcast_S_S600000 (val_main_c_10 (F := F))

def val_main_v199 : (⟨S600000, .i1⟩ : BufTy).Contents (Elt F) :=
  cmpi .slt (val_main_v1 (F := F) x1) (val_main_v198 (F := F))

def val_main_c_11 : (⟨S_, .i32⟩ : BufTy).Contents (Elt F) :=
  constantI S_ 32 50000#32

def val_main_v200 : (⟨S600000, .i32⟩ : BufTy).Contents (Elt F) :=
  broadcastInDim S600000 ![] bcast_S_S600000 (val_main_c_11 (F := F))

def val_main_v201 : (⟨S600000, .i32⟩ : BufTy).Contents (Elt F) :=
  addi (val_main_v1 (F := F) x1) (val_main_v200 (F := F))

def val_main_v202 : (⟨S600000, .i32⟩ : BufTy).Contents (Elt F) :=
  select (val_main_v199 (F := F) x1) (val_main_v201 (F := F) x1) (val_main_v1 (F := F) x1)

def val_main_v203 : (⟨S600000x1, .i32⟩ : BufTy).Contents (Elt F) :=
  broadcastInDim S600000x1 ![0] bcast_S600000_S600000x1_0 (val_main_v202 (F := F) x1)

def val_main_v204 : (⟨S600000x128, .f32⟩ : BufTy).Contents (Elt F) :=
  Host.gather gather_S50000x128_S600000x1_S600000x128_1_0_n_n_0_1_1128 (val_main_v189 (F := F) x0 x1 x2 x4 x5 x6 x7 x8 x9 x10 x11 x12 x13) (val_main_v203 (F := F) x1)

def val_main_v205 : (⟨S600000x128, .f32⟩ : BufTy).Contents (Elt F) :=
  addf (val_main_v204 (F := F) x0 x1 x2 x4 x5 x6 x7 x8 x9 x10 x11 x12 x13) (val_main_v197 (F := F) x2 x4 x5)

def val_main_call9_cst : (⟨S_, .f32⟩ : BufTy).Contents (Elt F) :=
  constant S_ .f32 0x00000000#32

def val_main_call9_v0 : (⟨S600000x128, .f32⟩ : BufTy).Contents (Elt F) :=
  broadcastInDim S600000x128 ![] bcast_S_S600000x128 (val_main_call9_cst (F := F))

def val_main_v206 : (⟨S600000x128, .f32⟩ : BufTy).Contents (Elt F) :=
  maximumf (val_main_v205 (F := F) x0 x1 x2 x4 x5 x6 x7 x8 x9 x10 x11 x12 x13) (val_main_call9_v0 (F := F))

def val_main_cst_12 : (⟨S_, .f32⟩ : BufTy).Contents (Elt F) :=
  constant S_ .f32 0x00000000#32

def val_main_v207 : (⟨S50000x128, .f32⟩ : BufTy).Contents (Elt F) :=
  broadcastInDim S50000x128 ![] bcast_S_S50000x128 (val_main_cst_12 (F := F))

def val_main_v208 : (⟨S600000x1, .i32⟩ : BufTy).Contents (Elt F) :=
  broadcastInDim S600000x1 ![0] bcast_S600000_S600000x1_0 (val_main_v3 (F := F) x1)

def val_main_v209 : (⟨S50000x128, .f32⟩ : BufTy).Contents (Elt F) :=
  Host.scatterAdd scatter_S50000x128_S600000x1_S600000x128_1_0_0_1 (val_main_v207 (F := F)) (val_main_v208 (F := F) x1) (val_main_v206 (F := F) x0 x1 x2 x4 x5 x6 x7 x8 x9 x10 x11 x12 x13)

def val_main_v210 : (⟨S50000x128, .f32⟩ : BufTy).Contents (Elt F) :=
  addf (val_main_v189 (F := F) x0 x1 x2 x4 x5 x6 x7 x8 x9 x10 x11 x12 x13) (val_main_v209 (F := F) x0 x1 x2 x4 x5 x6 x7 x8 x9 x10 x11 x12 x13)

def val_main_v211 : (⟨S1x128x128, .f32⟩ : BufTy).Contents (Elt F) :=
  extractStridedSlice S1x128x128 ![3, 0, 0] (x6) slices_S4x128x128_S1x128x128_3_0_0

def val_main_v212 : (⟨S128x128, .f32⟩ : BufTy).Contents (Elt F) :=
  shapeCast _ (val_main_v211 (F := F) x6) shapeCasts_S1x128x128_S128x128

def val_main_v213 : (⟨S50000x128, .f32⟩ : BufTy).Contents (Elt F) :=
  Host.dotGeneral dot_S50000x128_S128x128_S50000x128_1_0_0_1_n_n none (val_main_v210 (F := F) x0 x1 x2 x4 x5 x6 x7 x8 x9 x10 x11 x12 x13) (val_main_v212 (F := F) x6)

def val_main_v214 : (⟨S1x128, .f32⟩ : BufTy).Contents (Elt F) :=
  extractStridedSlice S1x128 ![3, 0] (x7) slices_S4x128_S1x128_3_0

def val_main_v215 : (⟨S128, .f32⟩ : BufTy).Contents (Elt F) :=
  shapeCast _ (val_main_v214 (F := F) x7) shapeCasts_S1x128_S128

def val_main_v216 : (⟨S1x128, .f32⟩ : BufTy).Contents (Elt F) :=
  broadcastInDim S1x128 ![1] bcast_S128_S1x128_1 (val_main_v215 (F := F) x7)

def val_main_v217 : (⟨S50000x128, .f32⟩ : BufTy).Contents (Elt F) :=
  broadcastInDim S50000x128 ![0, 1] bcast_S1x128_S50000x128_0_1 (val_main_v216 (F := F) x7)

def val_main_v218 : (⟨S50000x128, .f32⟩ : BufTy).Contents (Elt F) :=
  addf (val_main_v213 (F := F) x0 x1 x2 x4 x5 x6 x7 x8 x9 x10 x11 x12 x13) (val_main_v217 (F := F) x7)

def val_main_v219 : (⟨S1x128, .f32⟩ : BufTy).Contents (Elt F) :=
  extractStridedSlice S1x128 ![3, 0] (x8) slices_S4x128_S1x128_3_0

def val_main_v220 : (⟨S128, .f32⟩ : BufTy).Contents (Elt F) :=
  shapeCast _ (val_main_v219 (F := F) x8) shapeCasts_S1x128_S128

def val_main_v221 : (⟨S1x128, .f32⟩ : BufTy).Contents (Elt F) :=
  extractStridedSlice S1x128 ![3, 0] (x10) slices_S4x128_S1x128_3_0

def val_main_v222 : (⟨S128, .f32⟩ : BufTy).Contents (Elt F) :=
  shapeCast _ (val_main_v221 (F := F) x10) shapeCasts_S1x128_S128

def val_main_v223 : (⟨S1x128, .f32⟩ : BufTy).Contents (Elt F) :=
  broadcastInDim S1x128 ![1] bcast_S128_S1x128_1 (val_main_v222 (F := F) x10)

def val_main_v224 : (⟨S50000x128, .f32⟩ : BufTy).Contents (Elt F) :=
  broadcastInDim S50000x128 ![0, 1] bcast_S1x128_S50000x128_0_1 (val_main_v223 (F := F) x10)

def val_main_v225 : (⟨S50000x128, .f32⟩ : BufTy).Contents (Elt F) :=
  subf (val_main_v218 (F := F) x0 x1 x2 x4 x5 x6 x7 x8 x9 x10 x11 x12 x13) (val_main_v224 (F := F) x10)

def val_main_v226 : (⟨S1x128, .f32⟩ : BufTy).Contents (Elt F) :=
  broadcastInDim S1x128 ![1] bcast_S128_S1x128_1 (val_main_v220 (F := F) x8)

def val_main_v227 : (⟨S50000x128, .f32⟩ : BufTy).Contents (Elt F) :=
  broadcastInDim S50000x128 ![0, 1] bcast_S1x128_S50000x128_0_1 (val_main_v226 (F := F) x8)

def val_main_v228 : (⟨S50000x128, .f32⟩ : BufTy).Contents (Elt F) :=
  mulf (val_main_v227 (F := F) x8) (val_main_v225 (F := F) x0 x1 x2 x4 x5 x6 x7 x8 x9 x10 x11 x12 x13)

def val_main_v229 : (⟨S1x128, .f32⟩ : BufTy).Contents (Elt F) :=
  extractStridedSlice S1x128 ![3, 0] (x11) slices_S4x128_S1x128_3_0

def val_main_v230 : (⟨S128, .f32⟩ : BufTy).Contents (Elt F) :=
  shapeCast _ (val_main_v229 (F := F) x11) shapeCasts_S1x128_S128

def val_main_cst_13 : (⟨S_, .f32⟩ : BufTy).Contents (Elt F) :=
  constant S_ .f32 0x3727C5AC#32

def val_main_v231 : (⟨S128, .f32⟩ : BufTy).Contents (Elt F) :=
  broadcastInDim S128 ![] bcast_S_S128 (val_main_cst_13 (F := F))

def val_main_v232 : (⟨S128, .f32⟩ : BufTy).Contents (Elt F) :=
  addf (val_main_v230 (F := F) x11) (val_main_v231 (F := F))

def val_main_v233 : (⟨S128, .f32⟩ : BufTy).Contents (Elt F) :=
  Host.rsqrt (val_main_v232 (F := F) x11)

def val_main_v234 : (⟨S1x128, .f32⟩ : BufTy).Contents (Elt F) :=
  broadcastInDim S1x128 ![1] bcast_S128_S1x128_1 (val_main_v233 (F := F) x11)

def val_main_v235 : (⟨S50000x128, .f32⟩ : BufTy).Contents (Elt F) :=
  broadcastInDim S50000x128 ![0, 1] bcast_S1x128_S50000x128_0_1 (val_main_v234 (F := F) x11)

def val_main_v236 : (⟨S50000x128, .f32⟩ : BufTy).Contents (Elt F) :=
  mulf (val_main_v228 (F := F) x0 x1 x2 x4 x5 x6 x7 x8 x9 x10 x11 x12 x13) (val_main_v235 (F := F) x11)

def val_main_v237 : (⟨S1x128, .f32⟩ : BufTy).Contents (Elt F) :=
  extractStridedSlice S1x128 ![3, 0] (x9) slices_S4x128_S1x128_3_0

def val_main_v238 : (⟨S128, .f32⟩ : BufTy).Contents (Elt F) :=
  shapeCast _ (val_main_v237 (F := F) x9) shapeCasts_S1x128_S128

def val_main_v239 : (⟨S1x128, .f32⟩ : BufTy).Contents (Elt F) :=
  broadcastInDim S1x128 ![1] bcast_S128_S1x128_1 (val_main_v238 (F := F) x9)

def val_main_v240 : (⟨S50000x128, .f32⟩ : BufTy).Contents (Elt F) :=
  broadcastInDim S50000x128 ![0, 1] bcast_S1x128_S50000x128_0_1 (val_main_v239 (F := F) x9)

def val_main_v241 : (⟨S50000x128, .f32⟩ : BufTy).Contents (Elt F) :=
  addf (val_main_v236 (F := F) x0 x1 x2 x4 x5 x6 x7 x8 x9 x10 x11 x12 x13) (val_main_v240 (F := F) x9)

def val_main_call10_cst : (⟨S_, .f32⟩ : BufTy).Contents (Elt F) :=
  constant S_ .f32 0x00000000#32

def val_main_call10_v0 : (⟨S50000x128, .f32⟩ : BufTy).Contents (Elt F) :=
  broadcastInDim S50000x128 ![] bcast_S_S50000x128 (val_main_call10_cst (F := F))

def val_main_v242 : (⟨S50000x128, .f32⟩ : BufTy).Contents (Elt F) :=
  maximumf (val_main_v241 (F := F) x0 x1 x2 x4 x5 x6 x7 x8 x9 x10 x11 x12 x13) (val_main_call10_v0 (F := F))

def val_main_v243 : (⟨S1x128x128, .f32⟩ : BufTy).Contents (Elt F) :=
  extractStridedSlice S1x128x128 ![3, 0, 0] (x12) slices_S4x128x128_S1x128x128_3_0_0

def val_main_v244 : (⟨S128x128, .f32⟩ : BufTy).Contents (Elt F) :=
  shapeCast _ (val_main_v243 (F := F) x12) shapeCasts_S1x128x128_S128x128

def val_main_v245 : (⟨S50000x128, .f32⟩ : BufTy).Contents (Elt F) :=
  Host.dotGeneral dot_S50000x128_S128x128_S50000x128_1_0_0_1_n_n none (val_main_v242 (F := F) x0 x1 x2 x4 x5 x6 x7 x8 x9 x10 x11 x12 x13) (val_main_v244 (F := F) x12)

def val_main_v246 : (⟨S1x128, .f32⟩ : BufTy).Contents (Elt F) :=
  extractStridedSlice S1x128 ![3, 0] (x13) slices_S4x128_S1x128_3_0

def val_main_v247 : (⟨S128, .f32⟩ : BufTy).Contents (Elt F) :=
  shapeCast _ (val_main_v246 (F := F) x13) shapeCasts_S1x128_S128

def val_main_v248 : (⟨S1x128, .f32⟩ : BufTy).Contents (Elt F) :=
  broadcastInDim S1x128 ![1] bcast_S128_S1x128_1 (val_main_v247 (F := F) x13)

def val_main_v249 : (⟨S50000x128, .f32⟩ : BufTy).Contents (Elt F) :=
  broadcastInDim S50000x128 ![0, 1] bcast_S1x128_S50000x128_0_1 (val_main_v248 (F := F) x13)

def val_main_v250 : (⟨S50000x128, .f32⟩ : BufTy).Contents (Elt F) :=
  addf (val_main_v245 (F := F) x0 x1 x2 x4 x5 x6 x7 x8 x9 x10 x11 x12 x13) (val_main_v249 (F := F) x13)

def val_main_cst_14 : (⟨S_, .f32⟩ : BufTy).Contents (Elt F) :=
  constant S_ .f32 0x00000000#32

def val_main_v251 : (⟨S128x128, .f32⟩ : BufTy).Contents (Elt F) :=
  broadcastInDim S128x128 ![] bcast_S_S128x128 (val_main_cst_14 (F := F))

def val_main_v252 : (⟨S50000x1, .i32⟩ : BufTy).Contents (Elt F) :=
  broadcastInDim S50000x1 ![0] bcast_S50000_S50000x1_0 (x3)

def val_main_v253 : (⟨S128x128, .f32⟩ : BufTy).Contents (Elt F) :=
  Host.scatterAdd scatter_S128x128_S50000x1_S50000x128_1_0_0_1 (val_main_v251 (F := F)) (val_main_v252 (F := F) x3) (val_main_v250 (F := F) x0 x1 x2 x4 x5 x6 x7 x8 x9 x10 x11 x12 x13)

def val_main_cst_15 : (⟨S_, .f32⟩ : BufTy).Contents (Elt F) :=
  constant S_ .f32 0x3F800000#32

def val_main_v254 : (⟨S50000, .f32⟩ : BufTy).Contents (Elt F) :=
  broadcastInDim S50000 ![] bcast_S_S50000 (val_main_cst_15 (F := F))

def val_main_cst_16 : (⟨S_, .f32⟩ : BufTy).Contents (Elt F) :=
  constant S_ .f32 0x00000000#32

def val_main_v255 : (⟨S128, .f32⟩ : BufTy).Contents (Elt F) :=
  broadcastInDim S128 ![] bcast_S_S128 (val_main_cst_16 (F := F))

def val_main_v256 : (⟨S50000x1, .i32⟩ : BufTy).Contents (Elt F) :=
  broadcastInDim S50000x1 ![0] bcast_S50000_S50000x1_0 (x3)

def val_main_v257 : (⟨S128, .f32⟩ : BufTy).Contents (Elt F) :=
  Host.scatterAdd scatter_S128_S50000x1_S50000_n_0_0_1 (val_main_v255 (F := F)) (val_main_v256 (F := F) x3) (val_main_v254 (F := F))

def val_main_cst_17 : (⟨S_, .f32⟩ : BufTy).Contents (Elt F) :=
  constant S_ .f32 0x3F800000#32

def val_main_v258 : (⟨S128, .f32⟩ : BufTy).Contents (Elt F) :=
  broadcastInDim S128 ![] bcast_S_S128 (val_main_cst_17 (F := F))

def val_main_v259 : (⟨S128, .f32⟩ : BufTy).Contents (Elt F) :=
  maximumf (val_main_v257 (F := F) x3) (val_main_v258 (F := F))

def val_main_v260 : (⟨S128x1, .f32⟩ : BufTy).Contents (Elt F) :=
  broadcastInDim S128x1 ![0] bcast_S128_S128x1_0 (val_main_v259 (F := F) x3)

def val_main_v261 : (⟨S128x128, .f32⟩ : BufTy).Contents (Elt F) :=
  broadcastInDim S128x128 ![0, 1] bcast_S128x1_S128x128_0_1 (val_main_v260 (F := F) x3)

def val_main_v262 : (⟨S128x128, .f32⟩ : BufTy).Contents (Elt F) :=
  Host.divf (val_main_v253 (F := F) x0 x1 x2 x3 x4 x5 x6 x7 x8 x9 x10 x11 x12 x13) (val_main_v261 (F := F) x3)

end Cert.ReferenceIdeal.Read

end
-- ==== Proof.RefVal.lean ====
import proofs.«405621_j9088150798515_1_alg».proof.Proof.RefRun
import proofs.«405621_j9088150798515_1_alg».proof.Proof.RefRead

set_option maxRecDepth 16384

noncomputable section

namespace Cert.ReferenceIdeal.RunP

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

local notation:max "⟪" b "⟫" => Proc.devRef (τ := τ) Proc.tc b

theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

abbrev W0 : List (Ref sig .tc) :=
  [main_v0, main_v1, main_v2, main_v3, main_v4, main_v5, main_v6, main_v7, main_v8, main_v9, main_v10, main_v11, main_c, main_v12, main_v13, main_c_0, main_v14, main_v15, main_v16, main_v17, main_v18, main_v19, main_call0_cst, main_call0_v0, main_v20, main_cst, main_v21, main_v22, main_v23, main_v24, main_v25, main_v26, main_v27, main_v28, main_v29, main_v30, main_v31, main_v32, main_v33, main_v34, main_v35, main_v36, main_v37, main_v38, main_v39, main_v40, main_v41, main_v42, main_v43, main_v44, main_cst_1, main_v45, main_v46, main_v47, main_v48, main_v49, main_v50, main_v51, main_v52, main_v53, main_v54, main_v55, main_call1_cst, main_call1_v0, main_v56, main_v57, main_v58, main_v59, main_v60, main_v61, main_v62, main_v63, main_v64, main_call2_cst, main_call2_v0, main_v65]

theorem ops0_writes : (ops0 : List (HloOp τ sig (Elt F))).Forall fun op => op.writes ⊆ (W0.map (Proc.devRef (τ := τ) .tc)).toFinset := by
  repeat' first | apply And.intro | exact sub_of_mem (by decide)

theorem pass0 (V : Valuation τ sig (Elt F)) (r : Ref sig .tc) (hr : r ∉ W0) : after ops0 V ⟪r⟫ = V ⟪r⟫ :=
  after_of_writes_sub ops0 V ops0_writes hr

abbrev W1 : List (Ref sig .tc) :=
  [main_v66, main_v67, main_v68, main_v69, main_v70, main_v71, main_v72, main_v73, main_c_2, main_v74, main_v75, main_c_3, main_v76, main_v77, main_v78, main_v79, main_v80, main_v81, main_call3_cst, main_call3_v0, main_v82, main_cst_4, main_v83, main_v84, main_v85, main_v86, main_v87, main_v88, main_v89, main_v90, main_v91, main_v92, main_v93, main_v94, main_v95, main_v96, main_v97, main_v98, main_v99, main_v100, main_v101, main_v102, main_v103, main_v104, main_v105, main_v106, main_cst_5, main_v107, main_v108, main_v109, main_v110, main_v111, main_v112, main_v113, main_v114, main_v115, main_v116, main_v117, main_call4_cst, main_call4_v0, main_v118, main_v119, main_v120, main_v121, main_v122, main_v123, main_v124, main_v125, main_v126, main_call5_cst, main_call5_v0, main_v127]

theorem ops1_writes : (ops1 : List (HloOp τ sig (Elt F))).Forall fun op => op.writes ⊆ (W1.map (Proc.devRef (τ := τ) .tc)).toFinset := by
  repeat' first | apply And.intro | exact sub_of_mem (by decide)

theorem pass1 (V : Valuation τ sig (Elt F)) (r : Ref sig .tc) (hr : r ∉ W1) : after ops1 V ⟪r⟫ = V ⟪r⟫ :=
  after_of_writes_sub ops1 V ops1_writes hr

abbrev W2 : List (Ref sig .tc) :=
  [main_v128, main_v129, main_v130, main_v131, main_v132, main_v133, main_v134, main_v135, main_c_6, main_v136, main_v137, main_c_7, main_v138, main_v139, main_v140, main_v141, main_v142, main_v143, main_call6_cst, main_call6_v0, main_v144, main_cst_8, main_v145, main_v146, main_v147, main_v148, main_v149, main_v150, main_v151, main_v152, main_v153, main_v154, main_v155, main_v156, main_v157, main_v158, main_v159, main_v160, main_v161, main_v162, main_v163, main_v164, main_v165, main_v166, main_v167, main_v168, main_cst_9, main_v169, main_v170, main_v171, main_v172, main_v173, main_v174, main_v175, main_v176, main_v177, main_v178, main_v179, main_call7_cst, main_call7_v0, main_v180, main_v181, main_v182, main_v183, main_v184, main_v185, main_v186, main_v187, main_v188, main_call8_cst, main_call8_v0, main_v189]

theorem ops2_writes : (ops2 : List (HloOp τ sig (Elt F))).Forall fun op => op.writes ⊆ (W2.map (Proc.devRef (τ := τ) .tc)).toFinset := by
  repeat' first | apply And.intro | exact sub_of_mem (by decide)

theorem pass2 (V : Valuation τ sig (Elt F)) (r : Ref sig .tc) (hr : r ∉ W2) : after ops2 V ⟪r⟫ = V ⟪r⟫ :=
  after_of_writes_sub ops2 V ops2_writes hr

abbrev W3 : List (Ref sig .tc) :=
  [main_v190, main_v191, main_v192, main_v193, main_v194, main_v195, main_v196, main_v197, main_c_10, main_v198, main_v199, main_c_11, main_v200, main_v201, main_v202, main_v203, main_v204, main_v205, main_call9_cst, main_call9_v0, main_v206, main_cst_12, main_v207, main_v208, main_v209, main_v210, main_v211, main_v212, main_v213, main_v214, main_v215, main_v216, main_v217, main_v218, main_v219, main_v220, main_v221, main_v222, main_v223, main_v224, main_v225, main_v226, main_v227, main_v228, main_v229, main_v230, main_cst_13, main_v231, main_v232, main_v233, main_v234, main_v235, main_v236, main_v237, main_v238, main_v239, main_v240, main_v241, main_call10_cst, main_call10_v0, main_v242, main_v243, main_v244, main_v245, main_v246, main_v247, main_v248, main_v249, main_v250]

theorem ops3_writes : (ops3 : List (HloOp τ sig (Elt F))).Forall fun op => op.writes ⊆ (W3.map (Proc.devRef (τ := τ) .tc)).toFinset := by
  repeat' first | apply And.intro | exact sub_of_mem (by decide)

theorem pass3 (V : Valuation τ sig (Elt F)) (r : Ref sig .tc) (hr : r ∉ W3) : after ops3 V ⟪r⟫ = V ⟪r⟫ :=
  after_of_writes_sub ops3 V ops3_writes hr

abbrev W4 : List (Ref sig .tc) :=
  [main_cst_14, main_v251, main_v252, main_v253, main_cst_15, main_v254, main_cst_16, main_v255, main_v256, main_v257, main_cst_17, main_v258, main_v259, main_v260, main_v261, main_v262]

theorem ops4_writes : (ops4 : List (HloOp τ sig (Elt F))).Forall fun op => op.writes ⊆ (W4.map (Proc.devRef (τ := τ) .tc)).toFinset := by
  repeat' first | apply And.intro | exact sub_of_mem (by decide)

theorem pass4 (V : Valuation τ sig (Elt F)) (r : Ref sig .tc) (hr : r ∉ W4) : after ops4 V ⟪r⟫ = V ⟪r⟫ :=
  after_of_writes_sub ops4 V ops4_writes hr

theorem ops0_v65 (V : Valuation τ sig (Elt F)) :
    after ops0 V ⟪main_v65⟫ = val_main_v65 (F := F) (V ⟪main_arg0⟫) (V ⟪main_arg1⟫) (V ⟪main_arg2⟫) (V ⟪main_arg4⟫) (V ⟪main_arg5⟫) (V ⟪main_arg6⟫) (V ⟪main_arg7⟫) (V ⟪main_arg8⟫) (V ⟪main_arg9⟫) (V ⟪main_arg10⟫) (V ⟪main_arg11⟫) (V ⟪main_arg12⟫) (V ⟪main_arg13⟫) := by
  after_results_simp
  rfl

theorem ops0_v1 (V : Valuation τ sig (Elt F)) : after ops0 V ⟪main_v1⟫ = val_main_v1 (F := F) (V ⟪main_arg1⟫) := by
  after_results_simp
  rfl

theorem ops0_v3 (V : Valuation τ sig (Elt F)) : after ops0 V ⟪main_v3⟫ = val_main_v3 (F := F) (V ⟪main_arg1⟫) := by
  after_results_simp
  rfl

section

variable (V : Valuation τ sig (Elt F))
  (a0 : (⟨S50000x128, .f32⟩ : BufTy).Contents (Elt F))
  (a1 : (⟨S2x600000, .i32⟩ : BufTy).Contents (Elt F))
  (a2 : (⟨S600000x64, .f32⟩ : BufTy).Contents (Elt F))
  (a3 : (⟨S50000, .i32⟩ : BufTy).Contents (Elt F))
  (a4 : (⟨S4x64x128, .f32⟩ : BufTy).Contents (Elt F))
  (a5 : (⟨S4x128, .f32⟩ : BufTy).Contents (Elt F))
  (a6 : (⟨S4x128x128, .f32⟩ : BufTy).Contents (Elt F))
  (a7 a8 a9 a10 a11 : (⟨S4x128, .f32⟩ : BufTy).Contents (Elt F))
  (a12 : (⟨S4x128x128, .f32⟩ : BufTy).Contents (Elt F))
  (a13 : (⟨S4x128, .f32⟩ : BufTy).Contents (Elt F))

theorem ops1_v127
    (hX : V ⟪main_v65⟫ = val_main_v65 (F := F) a0 a1 a2 a4 a5 a6 a7 a8 a9 a10 a11 a12 a13)
    (h1 : V ⟪main_v1⟫ = val_main_v1 (F := F) a1) (h3 : V ⟪main_v3⟫ = val_main_v3 (F := F) a1)
    (g2 : V ⟪main_arg2⟫ = a2) (g4 : V ⟪main_arg4⟫ = a4) (g5 : V ⟪main_arg5⟫ = a5) (g6 : V ⟪main_arg6⟫ = a6) (g7 : V ⟪main_arg7⟫ = a7) (g8 : V ⟪main_arg8⟫ = a8) (g9 : V ⟪main_arg9⟫ = a9) (g10 : V ⟪main_arg10⟫ = a10) (g11 : V ⟪main_arg11⟫ = a11) (g12 : V ⟪main_arg12⟫ = a12) (g13 : V ⟪main_arg13⟫ = a13) :
    after ops1 V ⟪main_v127⟫ = val_main_v127 (F := F) a0 a1 a2 a4 a5 a6 a7 a8 a9 a10 a11 a12 a13 := by
  after_results_simp
  rw [hX, h1, h3, g2, g4, g5, g6, g7, g8, g9, g10, g11, g12, g13]
  rfl

theorem ops2_v189
    (hX : V ⟪main_v127⟫ = val_main_v127 (F := F) a0 a1 a2 a4 a5 a6 a7 a8 a9 a10 a11 a12 a13)
    (h1 : V ⟪main_v1⟫ = val_main_v1 (F := F) a1) (h3 : V ⟪main_v3⟫ = val_main_v3 (F := F) a1)
    (g2 : V ⟪main_arg2⟫ = a2) (g4 : V ⟪main_arg4⟫ = a4) (g5 : V ⟪main_arg5⟫ = a5) (g6 : V ⟪main_arg6⟫ = a6) (g7 : V ⟪main_arg7⟫ = a7) (g8 : V ⟪main_arg8⟫ = a8) (g9 : V ⟪main_arg9⟫ = a9) (g10 : V ⟪main_arg10⟫ = a10) (g11 : V ⟪main_arg11⟫ = a11) (g12 : V ⟪main_arg12⟫ = a12) (g13 : V ⟪main_arg13⟫ = a13) :
    after ops2 V ⟪main_v189⟫ = val_main_v189 (F := F) a0 a1 a2 a4 a5 a6 a7 a8 a9 a10 a11 a12 a13 := by
  after_results_simp
  rw [hX, h1, h3, g2, g4, g5, g6, g7, g8, g9, g10, g11, g12, g13]
  rfl

theorem ops3_v250
    (hX : V ⟪main_v189⟫ = val_main_v189 (F := F) a0 a1 a2 a4 a5 a6 a7 a8 a9 a10 a11 a12 a13)
    (h1 : V ⟪main_v1⟫ = val_main_v1 (F := F) a1) (h3 : V ⟪main_v3⟫ = val_main_v3 (F := F) a1)
    (g2 : V ⟪main_arg2⟫ = a2) (g4 : V ⟪main_arg4⟫ = a4) (g5 : V ⟪main_arg5⟫ = a5) (g6 : V ⟪main_arg6⟫ = a6) (g7 : V ⟪main_arg7⟫ = a7) (g8 : V ⟪main_arg8⟫ = a8) (g9 : V ⟪main_arg9⟫ = a9) (g10 : V ⟪main_arg10⟫ = a10) (g11 : V ⟪main_arg11⟫ = a11) (g12 : V ⟪main_arg12⟫ = a12) (g13 : V ⟪main_arg13⟫ = a13) :
    after ops3 V ⟪main_v250⟫ = val_main_v250 (F := F) a0 a1 a2 a4 a5 a6 a7 a8 a9 a10 a11 a12 a13 := by
  after_results_simp
  rw [hX, h1, h3, g2, g4, g5, g6, g7, g8, g9, g10, g11, g12, g13]
  rfl

theorem ops4_v262
    (hX : V ⟪main_v250⟫ = val_main_v250 (F := F) a0 a1 a2 a4 a5 a6 a7 a8 a9 a10 a11 a12 a13) (g3 : V ⟪main_arg3⟫ = a3) :
    after ops4 V ⟪main_v262⟫ = val_main_v262 (F := F) a0 a1 a2 a3 a4 a5 a6 a7 a8 a9 a10 a11 a12 a13 := by
  after_results_simp
  rw [hX, g3]
  rfl

end

theorem after_ops_keep (V : Valuation τ sig (Elt F)) (r : Ref sig .tc) (h0 : r ∉ W0) (h1 : r ∉ W1) (h2 : r ∉ W2)
    (h3 : r ∉ W3) (h4 : r ∉ W4) : after ops V ⟪r⟫ = V ⟪r⟫ := by
  rw [after_ops]
  exact (pass4 _ r h4).trans ((pass3 _ r h3).trans ((pass2 _ r h2).trans ((pass1 _ r h1).trans (pass0 V r h0))))

theorem after_ops_v262 (V : Valuation τ sig (Elt F)) :
    after ops V ⟪main_v262⟫ = val_main_v262 (F := F) (V ⟪main_arg0⟫) (V ⟪main_arg1⟫) (V ⟪main_arg2⟫) (V ⟪main_arg3⟫) (V ⟪main_arg4⟫) (V ⟪main_arg5⟫) (V ⟪main_arg6⟫) (V ⟪main_arg7⟫) (V ⟪main_arg8⟫) (V ⟪main_arg9⟫) (V ⟪main_arg10⟫) (V ⟪main_arg11⟫) (V ⟪main_arg12⟫) (V ⟪main_arg13⟫) := by
  rw [after_ops]
  have k1 : ∀ r : Ref sig .tc, r ∉ W0 → after ops0 V ⟪r⟫ = V ⟪r⟫ := fun r h0 => pass0 V r h0
  have k2 : ∀ r : Ref sig .tc, r ∉ W0 → r ∉ W1 → after ops1 (after ops0 V) ⟪r⟫ = V ⟪r⟫ :=
    fun r h0 h1 => (pass1 _ r h1).trans (k1 r h0)
  have k3 : ∀ r : Ref sig .tc, r ∉ W0 → r ∉ W1 → r ∉ W2 → after ops2 (after ops1 (after ops0 V)) ⟪r⟫ = V ⟪r⟫ :=
    fun r h0 h1 h2 => (pass2 _ r h2).trans (k2 r h0 h1)
  have k4 : ∀ r : Ref sig .tc, r ∉ W0 → r ∉ W1 → r ∉ W2 → r ∉ W3 →
      after ops3 (after ops2 (after ops1 (after ops0 V))) ⟪r⟫ = V ⟪r⟫ :=
    fun r h0 h1 h2 h3 => (pass3 _ r h3).trans (k3 r h0 h1 h2)
  have e1 := ops0_v65 V
  have s1 := ops0_v1 V
  have d1 := ops0_v3 V
  have e2 := ops1_v127 (after ops0 V) _ _ _ _ _ _ _ _ _ _ _ _ _ e1 s1 d1
    (k1 main_arg2 (by decide)) (k1 main_arg4 (by decide)) (k1 main_arg5 (by decide)) (k1 main_arg6 (by decide)) (k1 main_arg7 (by decide)) (k1 main_arg8 (by decide)) (k1 main_arg9 (by decide)) (k1 main_arg10 (by decide)) (k1 main_arg11 (by decide)) (k1 main_arg12 (by decide)) (k1 main_arg13 (by decide))
  have s2 := (pass1 (after ops0 V) main_v1 (by decide)).trans s1
  have d2 := (pass1 (after ops0 V) main_v3 (by decide)).trans d1
  have e3 := ops2_v189 (after ops1 (after ops0 V)) _ _ _ _ _ _ _ _ _ _ _ _ _ e2 s2 d2
    (k2 main_arg2 (by decide) (by decide)) (k2 main_arg4 (by decide) (by decide)) (k2 main_arg5 (by decide) (by decide)) (k2 main_arg6 (by decide) (by decide)) (k2 main_arg7 (by decide) (by decide)) (k2 main_arg8 (by decide) (by decide)) (k2 main_arg9 (by decide) (by decide)) (k2 main_arg10 (by decide) (by decide)) (k2 main_arg11 (by decide) (by decide)) (k2 main_arg12 (by decide) (by decide)) (k2 main_arg13 (by decide) (by decide))
  have s3 := (pass2 (after ops1 (after ops0 V)) main_v1 (by decide)).trans s2
  have d3 := (pass2 (after ops1 (after ops0 V)) main_v3 (by decide)).trans d2
  have e4 := ops3_v250 (after ops2 (after ops1 (after ops0 V))) _ _ _ _ _ _ _ _ _ _ _ _ _ e3 s3 d3
    (k3 main_arg2 (by decide) (by decide) (by decide)) (k3 main_arg4 (by decide) (by decide) (by decide)) (k3 main_arg5 (by decide) (by decide) (by decide)) (k3 main_arg6 (by decide) (by decide) (by decide)) (k3 main_arg7 (by decide) (by decide) (by decide)) (k3 main_arg8 (by decide) (by decide) (by decide)) (k3 main_arg9 (by decide) (by decide) (by decide)) (k3 main_arg10 (by decide) (by decide) (by decide)) (k3 main_arg11 (by decide) (by decide) (by decide)) (k3 main_arg12 (by decide) (by decide) (by decide)) (k3 main_arg13 (by decide) (by decide) (by decide))
  exact ops4_v262 (after ops3 (after ops2 (after ops1 (after ops0 V)))) _ _ _ _ _ _ _ _ _ _ _ _ _ _ e4
    (k4 main_arg3 (by decide) (by decide) (by decide) (by decide))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v262)
        = val_main_v262 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c =>
    ⟨(h c main_v262).trans (after_ops_v262 (launchContents m c)),
     (h c main_arg0).trans (after_ops_keep (launchContents m c) main_arg0 (by decide) (by decide) (by decide) (by decide) (by decide)),
     (h c main_arg1).trans (after_ops_keep (launchContents m c) main_arg1 (by decide) (by decide) (by decide) (by decide) (by decide)),
     (h c main_arg2).trans (after_ops_keep (launchContents m c) main_arg2 (by decide) (by decide) (by decide) (by decide) (by decide)),
     (h c main_arg3).trans (after_ops_keep (launchContents m c) main_arg3 (by decide) (by decide) (by decide) (by decide) (by decide)),
     (h c main_arg4).trans (after_ops_keep (launchContents m c) main_arg4 (by decide) (by decide) (by decide) (by decide) (by decide)),
     (h c main_arg5).trans (after_ops_keep (launchContents m c) main_arg5 (by decide) (by decide) (by decide) (by decide) (by decide)),
     (h c main_arg6).trans (after_ops_keep (launchContents m c) main_arg6 (by decide) (by decide) (by decide) (by decide) (by decide)),
     (h c main_arg7).trans (after_ops_keep (launchContents m c) main_arg7 (by decide) (by decide) (by decide) (by decide) (by decide)),
     (h c main_arg8).trans (after_ops_keep (launchContents m c) main_arg8 (by decide) (by decide) (by decide) (by decide) (by decide)),
     (h c main_arg9).trans (after_ops_keep (launchContents m c) main_arg9 (by decide) (by decide) (by decide) (by decide) (by decide)),
     (h c main_arg10).trans (after_ops_keep (launchContents m c) main_arg10 (by decide) (by decide) (by decide) (by decide) (by decide)),
     (h c main_arg11).trans (after_ops_keep (launchContents m c) main_arg11 (by decide) (by decide) (by decide) (by decide) (by decide)),
     (h c main_arg12).trans (after_ops_keep (launchContents m c) main_arg12 (by decide) (by decide) (by decide) (by decide) (by decide)),
     (h c main_arg13).trans (after_ops_keep (launchContents m c) main_arg13 (by decide) (by decide) (by decide) (by decide) (by decide))⟩)
    (run_after m ρ)

end Cert.ReferenceIdeal.RunP

end
-- ==== Proof.RefLayer.lean ====
import proofs.«405621_j9088150798515_1_alg».proof.Proof.RefRead
import proofs.«405621_j9088150798515_1_alg».proof.Proof.Spec
import proofs.«405621_j9088150798515_1_alg».proof.Proof.Rows
import proofs.«405621_j9088150798515_1_alg».proof.Proof.LibDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.Val

open Idealize.ShloMosaic Idealize.ShloMosaic.TcCoe Idealize.ShloMosaic.ValueIdx
open Cert.ReferenceIdeal Cert.ReferenceIdeal.Gen Cert.ReferenceIdeal.Read Cert.Gine

section Generic

variable {R : Nat}

private abbrev spread (h1 : (⟨1, ![128]⟩ : Shape).BroadcastsInDim (⟨2, ![1, 128]⟩ : Shape) ![1])
    (h2 : (⟨2, ![1, 128]⟩ : Shape).BroadcastsInDim (⟨2, ![R, 128]⟩ : Shape) ![0, 1])
    (v : FVec Ideal (⟨1, ![128]⟩ : Shape) .f32) : Mat R 128 :=
  broadcastInDim (⟨2, ![R, 128]⟩ : Shape) ![0, 1] h2 (broadcastInDim (⟨2, ![1, 128]⟩ : Shape) ![1] h1 v)

private theorem spread_apply (h1 : (⟨1, ![128]⟩ : Shape).BroadcastsInDim (⟨2, ![1, 128]⟩ : Shape) ![1])
    (h2 : (⟨2, ![1, 128]⟩ : Shape).BroadcastsInDim (⟨2, ![R, 128]⟩ : Shape) ![0, 1])
    (v : FVec Ideal (⟨1, ![128]⟩ : Shape) .f32) (n : Fin R) (j : Fin 128) :
    spread h1 h2 v (ix2 n j) = rowOf v (ix2 0 j) := bcast_rows_apply v h1 h2 n j

private abbrev zeros (h0 : (⟨0, ![]⟩ : Shape).BroadcastsInDim (⟨2, ![R, 128]⟩ : Shape) ![]) : Mat R 128 :=
  broadcastInDim (⟨2, ![R, 128]⟩ : Shape) ![] h0 (constant (F := Ideal) (⟨0, ![]⟩ : Shape) .f32 0x00000000#32)

private theorem zeros_apply (h0 : (⟨0, ![]⟩ : Shape).BroadcastsInDim (⟨2, ![R, 128]⟩ : Shape) ![])
    (i : (⟨2, ![R, 128]⟩ : Shape).Idx) : zeros h0 i = 0 := Ideal.ofBits_zero_f32

private theorem edge_generic (d : DotDims (⟨2, ![R, 64]⟩ : Shape) (⟨2, ![64, 128]⟩ : Shape) (⟨2, ![R, 128]⟩ : Shape))
    (hlc : d.lhsContracting = [1]) (hrc : d.rhsContracting = [0]) (hln : d.lhsNonContracting = [0])
    (hrn : d.rhsNonContracting = [1]) (hlb : d.lhsBatch = []) (hrb : d.rhsBatch = [])
    (h0 : (⟨0, ![]⟩ : Shape).BroadcastsInDim (⟨2, ![R, 128]⟩ : Shape) ![])
    (h1 : (⟨1, ![128]⟩ : Shape).BroadcastsInDim (⟨2, ![1, 128]⟩ : Shape) ![1])
    (h2 : (⟨2, ![1, 128]⟩ : Shape).BroadcastsInDim (⟨2, ![R, 128]⟩ : Shape) ![0, 1])
    (xs : Mat R 128) (ea : Mat R 64) (W : Mat 64 128) (b : FVec Ideal (⟨1, ![128]⟩ : Shape) .f32) :
    maximumf (addf xs (addf (Host.dotGeneral d none ea W) (spread h1 h2 b))) (zeros h0) = edgeMsg xs ea W (rowOf b) := by
  funext i
  obtain ⟨n, j, rfl⟩ : ∃ n j, i = ix2 n j := ⟨i 0, i 1, eq_ix2 i⟩
  rw [maximumf_apply, addf_apply, addf_apply, Cert.LibDot.dot_rows_apply d hlc hrc hln hrn hlb hrb, spread_apply, zeros_apply]
  rfl

private theorem hidden_generic (d : DotDims (⟨2, ![R, 128]⟩ : Shape) (⟨2, ![128, 128]⟩ : Shape) (⟨2, ![R, 128]⟩ : Shape))
    (hlc : d.lhsContracting = [1]) (hrc : d.rhsContracting = [0]) (hln : d.lhsNonContracting = [0])
    (hrn : d.rhsNonContracting = [1]) (hlb : d.lhsBatch = []) (hrb : d.rhsBatch = [])
    (h0 : (⟨0, ![]⟩ : Shape).BroadcastsInDim (⟨2, ![R, 128]⟩ : Shape) ![])
    (h1 : (⟨1, ![128]⟩ : Shape).BroadcastsInDim (⟨2, ![1, 128]⟩ : Shape) ![1])
    (h2 : (⟨2, ![1, 128]⟩ : Shape).BroadcastsInDim (⟨2, ![R, 128]⟩ : Shape) ![0, 1])
    (he : (⟨0, ![]⟩ : Shape).BroadcastsInDim (⟨1, ![128]⟩ : Shape) ![])
    (x agg : Mat R 128) (W1 : Mat 128 128) (b1 g bt rm rv : FVec Ideal (⟨1, ![128]⟩ : Shape) .f32) (n : Fin R) (κ : Fin 128) :
    maximumf (addf (mulf (mulf (spread h1 h2 g)
        (subf (addf (Host.dotGeneral d none (addf x agg) W1) (spread h1 h2 b1)) (spread h1 h2 rm)))
        (spread h1 h2 (Host.rsqrt (addf rv (broadcastInDim (⟨1, ![128]⟩ : Shape) ![] he
          (constant (F := Ideal) (⟨0, ![]⟩ : Shape) .f32 0x3727C5AC#32))))))
        (spread h1 h2 bt)) (zeros h0) (ix2 n κ)
      = hidden x agg W1 (rowOf b1) (rowOf g) (rowOf bt) (rowOf rm) (rowOf rv) n κ := by
  rw [maximumf_apply, addf_apply, mulf_apply, mulf_apply, subf_apply, addf_apply,
    Cert.LibDot.dot_rows_apply d hlc hrc hln hrn hlb hrb, zeros_apply]
  simp only [spread_apply]
  rfl

private theorem nodeLin_generic (d : DotDims (⟨2, ![R, 128]⟩ : Shape) (⟨2, ![128, 128]⟩ : Shape) (⟨2, ![R, 128]⟩ : Shape))
    (hlc : d.lhsContracting = [1]) (hrc : d.rhsContracting = [0]) (hln : d.lhsNonContracting = [0])
    (hrn : d.rhsNonContracting = [1]) (hlb : d.lhsBatch = []) (hrb : d.rhsBatch = [])
    (h0 : (⟨0, ![]⟩ : Shape).BroadcastsInDim (⟨2, ![R, 128]⟩ : Shape) ![])
    (h1 : (⟨1, ![128]⟩ : Shape).BroadcastsInDim (⟨2, ![1, 128]⟩ : Shape) ![1])
    (h2 : (⟨2, ![1, 128]⟩ : Shape).BroadcastsInDim (⟨2, ![R, 128]⟩ : Shape) ![0, 1])
    (he : (⟨0, ![]⟩ : Shape).BroadcastsInDim (⟨1, ![128]⟩ : Shape) ![])
    (x agg : Mat R 128) (W1 : Mat 128 128) (b1 g bt rm rv : FVec Ideal (⟨1, ![128]⟩ : Shape) .f32)
    (W2 : Mat 128 128) (b2 : FVec Ideal (⟨1, ![128]⟩ : Shape) .f32) :
    addf (Host.dotGeneral d none
        (maximumf (addf (mulf (mulf (spread h1 h2 g)
          (subf (addf (Host.dotGeneral d none (addf x agg) W1) (spread h1 h2 b1)) (spread h1 h2 rm)))
          (spread h1 h2 (Host.rsqrt (addf rv (broadcastInDim (⟨1, ![128]⟩ : Shape) ![] he
            (constant (F := Ideal) (⟨0, ![]⟩ : Shape) .f32 0x3727C5AC#32))))))
          (spread h1 h2 bt)) (zeros h0)) W2) (spread h1 h2 b2)
      = nodeLin x agg W1 (rowOf b1) (rowOf g) (rowOf bt) (rowOf rm) (rowOf rv) W2 (rowOf b2) := by
  funext i
  obtain ⟨n, j, rfl⟩ : ∃ n j, i = ix2 n j := ⟨i 0, i 1, eq_ix2 i⟩
  rw [addf_apply, Cert.LibDot.dot_rows_apply d hlc hrc hln hrn hlb hrb, spread_apply]
  simp only [hidden_generic d hlc hrc hln hrn hlb hrb h0 h1 h2 he]
  rfl

private theorem nodeRelu_generic (d : DotDims (⟨2, ![R, 128]⟩ : Shape) (⟨2, ![128, 128]⟩ : Shape) (⟨2, ![R, 128]⟩ : Shape))
    (hlc : d.lhsContracting = [1]) (hrc : d.rhsContracting = [0]) (hln : d.lhsNonContracting = [0])
    (hrn : d.rhsNonContracting = [1]) (hlb : d.lhsBatch = []) (hrb : d.rhsBatch = [])
    (h0 h0' : (⟨0, ![]⟩ : Shape).BroadcastsInDim (⟨2, ![R, 128]⟩ : Shape) ![])
    (h1 : (⟨1, ![128]⟩ : Shape).BroadcastsInDim (⟨2, ![1, 128]⟩ : Shape) ![1])
    (h2 : (⟨2, ![1, 128]⟩ : Shape).BroadcastsInDim (⟨2, ![R, 128]⟩ : Shape) ![0, 1])
    (he : (⟨0, ![]⟩ : Shape).BroadcastsInDim (⟨1, ![128]⟩ : Shape) ![])
    (x agg : Mat R 128) (W1 : Mat 128 128) (b1 g bt rm rv : FVec Ideal (⟨1, ![128]⟩ : Shape) .f32)
    (W2 : Mat 128 128) (b2 : FVec Ideal (⟨1, ![128]⟩ : Shape) .f32) :
    maximumf (addf (Host.dotGeneral d none
        (maximumf (addf (mulf (mulf (spread h1 h2 g)
          (subf (addf (Host.dotGeneral d none (addf x agg) W1) (spread h1 h2 b1)) (spread h1 h2 rm)))
          (spread h1 h2 (Host.rsqrt (addf rv (broadcastInDim (⟨1, ![128]⟩ : Shape) ![] he
            (constant (F := Ideal) (⟨0, ![]⟩ : Shape) .f32 0x3727C5AC#32))))))
          (spread h1 h2 bt)) (zeros h0)) W2) (spread h1 h2 b2)) (zeros h0')
      = nodeRelu x agg W1 (rowOf b1) (rowOf g) (rowOf bt) (rowOf rm) (rowOf rv) W2 (rowOf b2) := by
  funext i
  rw [maximumf_apply, nodeLin_generic d hlc hrc hln hrn hlb hrb h0 h1 h2 he, zeros_apply]
  rfl

end Generic

variable (x0 : (⟨S50000x128, .f32⟩ : BufTy).Contents (Elt Ideal))
  (x1 : (⟨S2x600000, .i32⟩ : BufTy).Contents (Elt Ideal))
  (x2 : (⟨S600000x64, .f32⟩ : BufTy).Contents (Elt Ideal))
  (x4 : (⟨S4x64x128, .f32⟩ : BufTy).Contents (Elt Ideal)) (x5 : (⟨S4x128, .f32⟩ : BufTy).Contents (Elt Ideal))
  (x6 : (⟨S4x128x128, .f32⟩ : BufTy).Contents (Elt Ideal)) (x7 : (⟨S4x128, .f32⟩ : BufTy).Contents (Elt Ideal))
  (x8 : (⟨S4x128, .f32⟩ : BufTy).Contents (Elt Ideal)) (x9 : (⟨S4x128, .f32⟩ : BufTy).Contents (Elt Ideal))
  (x10 : (⟨S4x128, .f32⟩ : BufTy).Contents (Elt Ideal)) (x11 : (⟨S4x128, .f32⟩ : BufTy).Contents (Elt Ideal))
  (x12 : (⟨S4x128x128, .f32⟩ : BufTy).Contents (Elt Ideal))
  (x13 : (⟨S4x128, .f32⟩ : BufTy).Contents (Elt Ideal))

theorem redge0 :
    val_main_v20 (F := Ideal) x0 x1 x2 x4 x5
      = edgeMsg (R := 600000) (val_main_v18 (F := Ideal) x0 x1) x2 (val_main_v5 (F := Ideal) x4) (rowOf (val_main_v8 (F := Ideal) x5)) := by
  unfold val_main_v20 val_main_v19 val_main_v11 val_main_v10 val_main_v9 val_main_v6 val_main_call0_v0 val_main_call0_cst
  exact edge_generic dot_S600000x64_S64x128_S600000x128_1_0_0_1_n_n rfl rfl rfl rfl rfl rfl
    bcast_S_S600000x128 bcast_S128_S1x128_1 bcast_S1x128_S600000x128_0_1 _ _ _ _

theorem redge1 :
    val_main_v82 (F := Ideal) x0 x1 x2 x4 x5 x6 x7 x8 x9 x10 x11 x12 x13
      = edgeMsg (R := 600000) (val_main_v80 (F := Ideal) x0 x1 x2 x4 x5 x6 x7 x8 x9 x10 x11 x12 x13) x2 (val_main_v67 (F := Ideal) x4) (rowOf (val_main_v70 (F := Ideal) x5)) := by
  unfold val_main_v82 val_main_v81 val_main_v73 val_main_v72 val_main_v71 val_main_v68 val_main_call3_v0 val_main_call3_cst
  exact edge_generic dot_S600000x64_S64x128_S600000x128_1_0_0_1_n_n rfl rfl rfl rfl rfl rfl
    bcast_S_S600000x128 bcast_S128_S1x128_1 bcast_S1x128_S600000x128_0_1 _ _ _ _

theorem redge2 :
    val_main_v144 (F := Ideal) x0 x1 x2 x4 x5 x6 x7 x8 x9 x10 x11 x12 x13
      = edgeMsg (R := 600000) (val_main_v142 (F := Ideal) x0 x1 x2 x4 x5 x6 x7 x8 x9 x10 x11 x12 x13) x2 (val_main_v129 (F := Ideal) x4) (rowOf (val_main_v132 (F := Ideal) x5)) := by
  unfold val_main_v144 val_main_v143 val_main_v135 val_main_v134 val_main_v133 val_main_v130 val_main_call6_v0 val_main_call6_cst
  exact edge_generic dot_S600000x64_S64x128_S600000x128_1_0_0_1_n_n rfl rfl rfl rfl rfl rfl
    bcast_S_S600000x128 bcast_S128_S1x128_1 bcast_S1x128_S600000x128_0_1 _ _ _ _

theorem redge3 :
    val_main_v206 (F := Ideal) x0 x1 x2 x4 x5 x6 x7 x8 x9 x10 x11 x12 x13
      = edgeMsg (R := 600000) (val_main_v204 (F := Ideal) x0 x1 x2 x4 x5 x6 x7 x8 x9 x10 x11 x12 x13) x2 (val_main_v191 (F := Ideal) x4) (rowOf (val_main_v194 (F := Ideal) x5)) := by
  unfold val_main_v206 val_main_v205 val_main_v197 val_main_v196 val_main_v195 val_main_v192 val_main_call9_v0 val_main_call9_cst
  exact edge_generic dot_S600000x64_S64x128_S600000x128_1_0_0_1_n_n rfl rfl rfl rfl rfl rfl
    bcast_S_S600000x128 bcast_S128_S1x128_1 bcast_S1x128_S600000x128_0_1 _ _ _ _

theorem rnode0 :
    val_main_v65 (F := Ideal) x0 x1 x2 x4 x5 x6 x7 x8 x9 x10 x11 x12 x13
      = nodeRelu (R := 50000) x0 (val_main_v23 (F := Ideal) x0 x1 x2 x4 x5) (val_main_v26 (F := Ideal) x6) (rowOf (val_main_v29 (F := Ideal) x7)) (rowOf (val_main_v34 (F := Ideal) x8))
          (rowOf (val_main_v52 (F := Ideal) x9)) (rowOf (val_main_v36 (F := Ideal) x10)) (rowOf (val_main_v44 (F := Ideal) x11)) (val_main_v58 (F := Ideal) x12) (rowOf (val_main_v61 (F := Ideal) x13)) := by
  unfold val_main_v65 val_main_v64 val_main_v63 val_main_v62 val_main_v59 val_main_v56 val_main_v55 val_main_v54 val_main_v53 val_main_v50 val_main_v49 val_main_v48 val_main_v47 val_main_v46 val_main_v45 val_main_v42 val_main_v41 val_main_v40 val_main_v39 val_main_v38 val_main_v37 val_main_v32 val_main_v31 val_main_v30 val_main_v27 val_main_v24 val_main_call2_v0 val_main_call2_cst val_main_call1_v0 val_main_call1_cst val_main_cst_1
  exact nodeRelu_generic dot_S50000x128_S128x128_S50000x128_1_0_0_1_n_n rfl rfl rfl rfl rfl rfl
    bcast_S_S50000x128 bcast_S_S50000x128 bcast_S128_S1x128_1 bcast_S1x128_S50000x128_0_1 bcast_S_S128 _ _ _ _ _ _ _ _ _ _

theorem rnode1 :
    val_main_v127 (F := Ideal) x0 x1 x2 x4 x5 x6 x7 x8 x9 x10 x11 x12 x13
      = nodeRelu (R := 50000) (val_main_v65 (F := Ideal) x0 x1 x2 x4 x5 x6 x7 x8 x9 x10 x11 x12 x13) (val_main_v85 (F := Ideal) x0 x1 x2 x4 x5 x6 x7 x8 x9 x10 x11 x12 x13) (val_main_v88 (F := Ideal) x6) (rowOf (val_main_v91 (F := Ideal) x7)) (rowOf (val_main_v96 (F := Ideal) x8))
          (rowOf (val_main_v114 (F := Ideal) x9)) (rowOf (val_main_v98 (F := Ideal) x10)) (rowOf (val_main_v106 (F := Ideal) x11)) (val_main_v120 (F := Ideal) x12) (rowOf (val_main_v123 (F := Ideal) x13)) := by
  unfold val_main_v127 val_main_v126 val_main_v125 val_main_v124 val_main_v121 val_main_v118 val_main_v117 val_main_v116 val_main_v115 val_main_v112 val_main_v111 val_main_v110 val_main_v109 val_main_v108 val_main_v107 val_main_v104 val_main_v103 val_main_v102 val_main_v101 val_main_v100 val_main_v99 val_main_v94 val_main_v93 val_main_v92 val_main_v89 val_main_v86 val_main_call5_v0 val_main_call5_cst val_main_call4_v0 val_main_call4_cst val_main_cst_5
  exact nodeRelu_generic dot_S50000x128_S128x128_S50000x128_1_0_0_1_n_n rfl rfl rfl rfl rfl rfl
    bcast_S_S50000x128 bcast_S_S50000x128 bcast_S128_S1x128_1 bcast_S1x128_S50000x128_0_1 bcast_S_S128 _ _ _ _ _ _ _ _ _ _

theorem rnode2 :
    val_main_v189 (F := Ideal) x0 x1 x2 x4 x5 x6 x7 x8 x9 x10 x11 x12 x13
      = nodeRelu (R := 50000) (val_main_v127 (F := Ideal) x0 x1 x2 x4 x5 x6 x7 x8 x9 x10 x11 x12 x13) (val_main_v147 (F := Ideal) x0 x1 x2 x4 x5 x6 x7 x8 x9 x10 x11 x12 x13) (val_main_v150 (F := Ideal) x6) (rowOf (val_main_v153 (F := Ideal) x7)) (rowOf (val_main_v158 (F := Ideal) x8))
          (rowOf (val_main_v176 (F := Ideal) x9)) (rowOf (val_main_v160 (F := Ideal) x10)) (rowOf (val_main_v168 (F := Ideal) x11)) (val_main_v182 (F := Ideal) x12) (rowOf (val_main_v185 (F := Ideal) x13)) := by
  unfold val_main_v189 val_main_v188 val_main_v187 val_main_v186 val_main_v183 val_main_v180 val_main_v179 val_main_v178 val_main_v177 val_main_v174 val_main_v173 val_main_v172 val_main_v171 val_main_v170 val_main_v169 val_main_v166 val_main_v165 val_main_v164 val_main_v163 val_main_v162 val_main_v161 val_main_v156 val_main_v155 val_main_v154 val_main_v151 val_main_v148 val_main_call8_v0 val_main_call8_cst val_main_call7_v0 val_main_call7_cst val_main_cst_9
  exact nodeRelu_generic dot_S50000x128_S128x128_S50000x128_1_0_0_1_n_n rfl rfl rfl rfl rfl rfl
    bcast_S_S50000x128 bcast_S_S50000x128 bcast_S128_S1x128_1 bcast_S1x128_S50000x128_0_1 bcast_S_S128 _ _ _ _ _ _ _ _ _ _

theorem rnode3 :
    val_main_v250 (F := Ideal) x0 x1 x2 x4 x5 x6 x7 x8 x9 x10 x11 x12 x13
      = nodeLin (R := 50000) (val_main_v189 (F := Ideal) x0 x1 x2 x4 x5 x6 x7 x8 x9 x10 x11 x12 x13) (val_main_v209 (F := Ideal) x0 x1 x2 x4 x5 x6 x7 x8 x9 x10 x11 x12 x13) (val_main_v212 (F := Ideal) x6) (rowOf (val_main_v215 (F := Ideal) x7)) (rowOf (val_main_v220 (F := Ideal) x8))
          (rowOf (val_main_v238 (F := Ideal) x9)) (rowOf (val_main_v222 (F := Ideal) x10)) (rowOf (val_main_v230 (F := Ideal) x11)) (val_main_v244 (F := Ideal) x12) (rowOf (val_main_v247 (F := Ideal) x13)) := by
  unfold val_main_v250 val_main_v249 val_main_v248 val_main_v245 val_main_v242 val_main_v241 val_main_v240 val_main_v239 val_main_v236 val_main_v235 val_main_v234 val_main_v233 val_main_v232 val_main_v231 val_main_v228 val_main_v227 val_main_v226 val_main_v225 val_main_v224 val_main_v223 val_main_v218 val_main_v217 val_main_v216 val_main_v213 val_main_v210 val_main_call10_v0 val_main_call10_cst val_main_cst_13
  exact nodeLin_generic dot_S50000x128_S128x128_S50000x128_1_0_0_1_n_n rfl rfl rfl rfl rfl rfl
    bcast_S_S50000x128 bcast_S128_S1x128_1 bcast_S1x128_S50000x128_0_1 bcast_S_S128 _ _ _ _ _ _ _ _ _ _

end Cert.ReferenceIdeal.Val

end
-- ==== Proof.Bridge.lean ====
import proofs.«405621_j9088150798515_1_alg».proof.Proof.KDefs
import proofs.«405621_j9088150798515_1_alg».proof.Proof.KTail
import proofs.«405621_j9088150798515_1_alg».proof.Proof.RefLayer
import proofs.«405621_j9088150798515_1_alg».proof.Proof.RefRead

set_option maxRecDepth 16384

noncomputable section

namespace Cert.Proof.Bridge

open Idealize.ShloMosaic Idealize.ShloMosaic.TcCoe Idealize.ShloMosaic.ValueIdx
open Cert.KernelIdeal.Val Cert.ReferenceIdeal.Val Cert.Gine

variable (x0 : FVec Ideal Cert.KernelIdeal.S50000x128 .f32) (x1 : IVec Cert.KernelIdeal.S2x600000 32)
  (x2 : FVec Ideal Cert.KernelIdeal.S600000x64 .f32) (x3 : IVec Cert.KernelIdeal.S50000 32)
  (x4 : FVec Ideal Cert.KernelIdeal.S4x64x128 .f32) (x5 : FVec Ideal Cert.KernelIdeal.S4x128 .f32)
  (x6 : FVec Ideal Cert.KernelIdeal.S4x128x128 .f32) (x7 : FVec Ideal Cert.KernelIdeal.S4x128 .f32)
  (x8 : FVec Ideal Cert.KernelIdeal.S4x128 .f32) (x9 : FVec Ideal Cert.KernelIdeal.S4x128 .f32)
  (x10 : FVec Ideal Cert.KernelIdeal.S4x128 .f32) (x11 : FVec Ideal Cert.KernelIdeal.S4x128 .f32)
  (x12 : FVec Ideal Cert.KernelIdeal.S4x128x128 .f32) (x13 : FVec Ideal Cert.KernelIdeal.S4x128 .f32)

/-- Each layer of the reference is the layer function: in-range positions make the range-checked read a plain fetch. -/
theorem ref_layer0 (h : InRange (srcK x1)) :
    Cert.ReferenceIdeal.Read.val_main_v65 (F := Ideal) x0 x1 x2 x4 x5 x6 x7 x8 x9 x10 x11 x12 x13 = layerRelu 0 x1 x2 x4 x5 x6 x7 x8 x9 x10 x11 x12 x13 x0 := by
  rw [rnode0]
  unfold layerRelu
  rw [takeK_eq_fetchK x1 h]
  have hg : Cert.ReferenceIdeal.Read.val_main_v18 (F := Ideal) x0 x1 = fetchK x1 x0 := rfl
  have hW : Cert.ReferenceIdeal.Read.val_main_v5 (F := Ideal) x4 = weK x4 0 := rfl
  have hb : Cert.ReferenceIdeal.Read.val_main_v8 (F := Ideal) x5 = vecK x5 0 := rfl
  have hagg : Cert.ReferenceIdeal.Read.val_main_v23 (F := Ideal) x0 x1 x2 x4 x5
      = aggK x1 (edgeMsg (R := 600000) (fetchK x1 x0) x2 (weK x4 0) (rowOf (vecK x5 0))) := by
    unfold Cert.ReferenceIdeal.Read.val_main_v23
    rw [redge0, hg, hW, hb]
    rfl
  have h6 : Cert.ReferenceIdeal.Read.val_main_v26 (F := Ideal) x6 = matK x6 0 := rfl
  have h7 : Cert.ReferenceIdeal.Read.val_main_v29 (F := Ideal) x7 = vecK x7 0 := rfl
  have h8 : Cert.ReferenceIdeal.Read.val_main_v34 (F := Ideal) x8 = vecK x8 0 := rfl
  have h9 : Cert.ReferenceIdeal.Read.val_main_v52 (F := Ideal) x9 = vecK x9 0 := rfl
  have h10 : Cert.ReferenceIdeal.Read.val_main_v36 (F := Ideal) x10 = vecK x10 0 := rfl
  have h11 : Cert.ReferenceIdeal.Read.val_main_v44 (F := Ideal) x11 = vecK x11 0 := rfl
  have h12 : Cert.ReferenceIdeal.Read.val_main_v58 (F := Ideal) x12 = matK x12 0 := rfl
  have h13 : Cert.ReferenceIdeal.Read.val_main_v61 (F := Ideal) x13 = vecK x13 0 := rfl
  rw [hagg, h6, h7, h8, h9, h10, h11, h12, h13]

theorem ref_layer1 (h : InRange (srcK x1)) :
    Cert.ReferenceIdeal.Read.val_main_v127 (F := Ideal) x0 x1 x2 x4 x5 x6 x7 x8 x9 x10 x11 x12 x13 = layerRelu 1 x1 x2 x4 x5 x6 x7 x8 x9 x10 x11 x12 x13 (Cert.ReferenceIdeal.Read.val_main_v65 (F := Ideal) x0 x1 x2 x4 x5 x6 x7 x8 x9 x10 x11 x12 x13) := by
  rw [rnode1]
  unfold layerRelu
  rw [takeK_eq_fetchK x1 h]
  have hg : Cert.ReferenceIdeal.Read.val_main_v80 (F := Ideal) x0 x1 x2 x4 x5 x6 x7 x8 x9 x10 x11 x12 x13 = fetchK x1 (Cert.ReferenceIdeal.Read.val_main_v65 (F := Ideal) x0 x1 x2 x4 x5 x6 x7 x8 x9 x10 x11 x12 x13) := rfl
  have hW : Cert.ReferenceIdeal.Read.val_main_v67 (F := Ideal) x4 = weK x4 1 := rfl
  have hb : Cert.ReferenceIdeal.Read.val_main_v70 (F := Ideal) x5 = vecK x5 1 := rfl
  have hagg : Cert.ReferenceIdeal.Read.val_main_v85 (F := Ideal) x0 x1 x2 x4 x5 x6 x7 x8 x9 x10 x11 x12 x13
      = aggK x1 (edgeMsg (R := 600000) (fetchK x1 (Cert.ReferenceIdeal.Read.val_main_v65 (F := Ideal) x0 x1 x2 x4 x5 x6 x7 x8 x9 x10 x11 x12 x13)) x2 (weK x4 1) (rowOf (vecK x5 1))) := by
    unfold Cert.ReferenceIdeal.Read.val_main_v85
    rw [redge1, hg, hW, hb]
    rfl
  have h6 : Cert.ReferenceIdeal.Read.val_main_v88 (F := Ideal) x6 = matK x6 1 := rfl
  have h7 : Cert.ReferenceIdeal.Read.val_main_v91 (F := Ideal) x7 = vecK x7 1 := rfl
  have h8 : Cert.ReferenceIdeal.Read.val_main_v96 (F := Ideal) x8 = vecK x8 1 := rfl
  have h9 : Cert.ReferenceIdeal.Read.val_main_v114 (F := Ideal) x9 = vecK x9 1 := rfl
  have h10 : Cert.ReferenceIdeal.Read.val_main_v98 (F := Ideal) x10 = vecK x10 1 := rfl
  have h11 : Cert.ReferenceIdeal.Read.val_main_v106 (F := Ideal) x11 = vecK x11 1 := rfl
  have h12 : Cert.ReferenceIdeal.Read.val_main_v120 (F := Ideal) x12 = matK x12 1 := rfl
  have h13 : Cert.ReferenceIdeal.Read.val_main_v123 (F := Ideal) x13 = vecK x13 1 := rfl
  rw [hagg, h6, h7, h8, h9, h10, h11, h12, h13]

theorem ref_layer2 (h : InRange (srcK x1)) :
    Cert.ReferenceIdeal.Read.val_main_v189 (F := Ideal) x0 x1 x2 x4 x5 x6 x7 x8 x9 x10 x11 x12 x13 = layerRelu 2 x1 x2 x4 x5 x6 x7 x8 x9 x10 x11 x12 x13 (Cert.ReferenceIdeal.Read.val_main_v127 (F := Ideal) x0 x1 x2 x4 x5 x6 x7 x8 x9 x10 x11 x12 x13) := by
  rw [rnode2]
  unfold layerRelu
  rw [takeK_eq_fetchK x1 h]
  have hg : Cert.ReferenceIdeal.Read.val_main_v142 (F := Ideal) x0 x1 x2 x4 x5 x6 x7 x8 x9 x10 x11 x12 x13 = fetchK x1 (Cert.ReferenceIdeal.Read.val_main_v127 (F := Ideal) x0 x1 x2 x4 x5 x6 x7 x8 x9 x10 x11 x12 x13) := rfl
  have hW : Cert.ReferenceIdeal.Read.val_main_v129 (F := Ideal) x4 = weK x4 2 := rfl
  have hb : Cert.ReferenceIdeal.Read.val_main_v132 (F := Ideal) x5 = vecK x5 2 := rfl
  have hagg : Cert.ReferenceIdeal.Read.val_main_v147 (F := Ideal) x0 x1 x2 x4 x5 x6 x7 x8 x9 x10 x11 x12 x13
      = aggK x1 (edgeMsg (R := 600000) (fetchK x1 (Cert.ReferenceIdeal.Read.val_main_v127 (F := Ideal) x0 x1 x2 x4 x5 x6 x7 x8 x9 x10 x11 x12 x13)) x2 (weK x4 2) (rowOf (vecK x5 2))) := by
    unfold Cert.ReferenceIdeal.Read.val_main_v147
    rw [redge2, hg, hW, hb]
    rfl
  have h6 : Cert.ReferenceIdeal.Read.val_main_v150 (F := Ideal) x6 = matK x6 2 := rfl
  have h7 : Cert.ReferenceIdeal.Read.val_main_v153 (F := Ideal) x7 = vecK x7 2 := rfl
  have h8 : Cert.ReferenceIdeal.Read.val_main_v158 (F := Ideal) x8 = vecK x8 2 := rfl
  have h9 : Cert.ReferenceIdeal.Read.val_main_v176 (F := Ideal) x9 = vecK x9 2 := rfl
  have h10 : Cert.ReferenceIdeal.Read.val_main_v160 (F := Ideal) x10 = vecK x10 2 := rfl
  have h11 : Cert.ReferenceIdeal.Read.val_main_v168 (F := Ideal) x11 = vecK x11 2 := rfl
  have h12 : Cert.ReferenceIdeal.Read.val_main_v182 (F := Ideal) x12 = matK x12 2 := rfl
  have h13 : Cert.ReferenceIdeal.Read.val_main_v185 (F := Ideal) x13 = vecK x13 2 := rfl
  rw [hagg, h6, h7, h8, h9, h10, h11, h12, h13]

theorem ref_layer3 (h : InRange (srcK x1)) :
    Cert.ReferenceIdeal.Read.val_main_v250 (F := Ideal) x0 x1 x2 x4 x5 x6 x7 x8 x9 x10 x11 x12 x13 = layerLin 3 x1 x2 x4 x5 x6 x7 x8 x9 x10 x11 x12 x13 (Cert.ReferenceIdeal.Read.val_main_v189 (F := Ideal) x0 x1 x2 x4 x5 x6 x7 x8 x9 x10 x11 x12 x13) := by
  rw [rnode3]
  unfold layerLin
  rw [takeK_eq_fetchK x1 h]
  have hg : Cert.ReferenceIdeal.Read.val_main_v204 (F := Ideal) x0 x1 x2 x4 x5 x6 x7 x8 x9 x10 x11 x12 x13 = fetchK x1 (Cert.ReferenceIdeal.Read.val_main_v189 (F := Ideal) x0 x1 x2 x4 x5 x6 x7 x8 x9 x10 x11 x12 x13) := rfl
  have hW : Cert.ReferenceIdeal.Read.val_main_v191 (F := Ideal) x4 = weK x4 3 := rfl
  have hb : Cert.ReferenceIdeal.Read.val_main_v194 (F := Ideal) x5 = vecK x5 3 := rfl
  have hagg : Cert.ReferenceIdeal.Read.val_main_v209 (F := Ideal) x0 x1 x2 x4 x5 x6 x7 x8 x9 x10 x11 x12 x13
      = aggK x1 (edgeMsg (R := 600000) (fetchK x1 (Cert.ReferenceIdeal.Read.val_main_v189 (F := Ideal) x0 x1 x2 x4 x5 x6 x7 x8 x9 x10 x11 x12 x13)) x2 (weK x4 3) (rowOf (vecK x5 3))) := by
    unfold Cert.ReferenceIdeal.Read.val_main_v209
    rw [redge3, hg, hW, hb]
    rfl
  have h6 : Cert.ReferenceIdeal.Read.val_main_v212 (F := Ideal) x6 = matK x6 3 := rfl
  have h7 : Cert.ReferenceIdeal.Read.val_main_v215 (F := Ideal) x7 = vecK x7 3 := rfl
  have h8 : Cert.ReferenceIdeal.Read.val_main_v220 (F := Ideal) x8 = vecK x8 3 := rfl
  have h9 : Cert.ReferenceIdeal.Read.val_main_v238 (F := Ideal) x9 = vecK x9 3 := rfl
  have h10 : Cert.ReferenceIdeal.Read.val_main_v222 (F := Ideal) x10 = vecK x10 3 := rfl
  have h11 : Cert.ReferenceIdeal.Read.val_main_v230 (F := Ideal) x11 = vecK x11 3 := rfl
  have h12 : Cert.ReferenceIdeal.Read.val_main_v244 (F := Ideal) x12 = matK x12 3 := rfl
  have h13 : Cert.ReferenceIdeal.Read.val_main_v247 (F := Ideal) x13 = vecK x13 3 := rfl
  rw [hagg, h6, h7, h8, h9, h10, h11, h12, h13]

theorem ref_pool :
    Cert.ReferenceIdeal.Read.val_main_v262 (F := Ideal) x0 x1 x2 x3 x4 x5 x6 x7 x8 x9 x10 x11 x12 x13
      = poolK x3 (Cert.ReferenceIdeal.Read.val_main_v250 (F := Ideal) x0 x1 x2 x4 x5 x6 x7 x8 x9 x10 x11 x12 x13) := by
  rfl

end Cert.Proof.Bridge

end
-- ==== Proof.lean ====
import proofs.«405621_j9088150798515_1_alg».proof.Defs
import proofs.«405621_j9088150798515_1_alg».proof.Proof.Gen.Kernel
import proofs.«405621_j9088150798515_1_alg».proof.Proof.Gen.Kernel.Frame
import proofs.«405621_j9088150798515_1_alg».proof.Proof.Gen.KernelIdeal
import proofs.«405621_j9088150798515_1_alg».proof.Proof.Gen.KernelIdeal.Frame
import proofs.«405621_j9088150798515_1_alg».proof.Proof.Gen.ReferenceIdeal
import proofs.«405621_j9088150798515_1_alg».proof.Proof.Gen.Pre_finite_inputs
import proofs.«405621_j9088150798515_1_alg».proof.Proof.PreDecode
import proofs.«405621_j9088150798515_1_alg».proof.Proof.KRun
import proofs.«405621_j9088150798515_1_alg».proof.Proof.KLayer0
import proofs.«405621_j9088150798515_1_alg».proof.Proof.KLayer1
import proofs.«405621_j9088150798515_1_alg».proof.Proof.KLayer2
import proofs.«405621_j9088150798515_1_alg».proof.Proof.KLayer3
import proofs.«405621_j9088150798515_1_alg».proof.Proof.KTail
import proofs.«405621_j9088150798515_1_alg».proof.Proof.RefVal
import proofs.«405621_j9088150798515_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs end at the pooling of four layer functions of the same arguments. -/
theorem algebraic : Cert.algebraic_KernelIdeal_ReferenceIdeal := by
  intro m ρ m' ρ' hpre hagree
  refine ⟨fun c => Cert.KernelIdeal.Gen.W22 (F := Ideal) m ρ c (Proc.devRef .tc Cert.KernelIdeal.main_v147),
    Cert.KernelIdeal.Gen.run_result (F := Ideal) m ρ, ?_⟩
  refine (θ_run Cert.ReferenceIdeal.defs _ _).mono (fun r h c => ⟨(h c).1.trans ?_, (h c).2⟩)
    (Cert.ReferenceIdeal.RunP.run (F := Ideal) m' ρ')
  have hr : Cert.Gine.InRange (Cert.KernelIdeal.Val.srcK (m ((c.tc : Thread Cert.KernelIdeal.nD Cert.KernelIdeal.τ).loc Cert.KernelIdeal.main_arg1))) :=
    Cert.Gine.inRange_of_pre _ _ _ _ _ _ _ _ _ _ _ _ _ _ (hpre c)
  obtain ⟨e0, e1, e2, e3, e4, e5, e6, e7, e8, e9, e10, e11, e12, e13⟩ := hagree c
  rw [e0, e1, e2, e3, e4, e5, e6, e7, e8, e9, e10, e11, e12, e13]
  rw [Cert.Proof.Bridge.ref_pool, Cert.Proof.Bridge.ref_layer3 _ _ _ _ _ _ _ _ _ _ _ _ _ hr,
    Cert.Proof.Bridge.ref_layer2 _ _ _ _ _ _ _ _ _ _ _ _ _ hr, Cert.Proof.Bridge.ref_layer1 _ _ _ _ _ _ _ _ _ _ _ _ _ hr,
    Cert.Proof.Bridge.ref_layer0 _ _ _ _ _ _ _ _ _ _ _ _ _ hr]
  show _ = Cert.KernelIdeal.Gen.W22 (F := Ideal) m ρ c (Proc.devRef .tc Cert.KernelIdeal.main_v147)
  rw [Cert.KernelIdeal.Val.tail m ρ c, Cert.KernelIdeal.Val.layer3 m ρ c, Cert.KernelIdeal.Val.layer2 m ρ c,
    Cert.KernelIdeal.Val.layer1 m ρ c, Cert.KernelIdeal.Val.layer0 m ρ c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
